-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S4096x256 .f32 .bf16
  ∧ IdealRules.truncf_extf.Statement Cert.KernelIdeal.S256x256 .f32 .bf16
  ∧ IdealRules.truncf_extf.Statement Cert.KernelIdeal.S4096x256 .f32 .bf16
  ∧ IdealRules.truncf_extf.Statement Cert.KernelIdeal.S4096x256 .f32 .bf16
  ∧ IdealRules.truncf_extf.Statement Cert.KernelIdeal.S256x256 .f32 .bf16
  ∧ IdealRules.truncf_extf.Statement Cert.KernelIdeal.S4096x256 .f32 .bf16
  ∧ IdealRules.truncf_extf.Statement Cert.KernelIdeal.S4096x256 .f32 .bf16
  ∧ IdealRules.truncf_extf.Statement Cert.KernelIdeal.S256x256 .f32 .bf16
  ∧ IdealRules.truncf_extf.Statement Cert.KernelIdeal.S4096x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S256 .f32) (main_arg13 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_v48 main_v49 main_v50

def fn_part1 {F : FTy → Type} [FloatOps F] (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x256 .f32) (main_arg1 : FVec F S4096x4096 .f32) (main_arg2 : FVec F S256x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩
abbrev S8x256 : Shape := ⟨2, ![8, 256]⟩
abbrev S1x256 : Shape := ⟨2, ![1, 256]⟩
abbrev S512x4096 : Shape := ⟨2, ![512, 4096]⟩
abbrev S512x256 : Shape := ⟨2, ![512, 256]⟩
abbrev S6x256 : Shape := ⟨2, ![6, 256]⟩

abbrev nBuf : Space → Nat
  | .hbm => 34
  | .vmem => 47
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S_, .f32⟩
  | .hbm, ⟨15, _⟩ => ⟨S8x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S4096x256, .f32⟩
  | .hbm, ⟨20, _⟩ => ⟨S8x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S4096x256, .f32⟩
  | .hbm, ⟨25, _⟩ => ⟨S8x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S4096x256, .f32⟩
  | .hbm, ⟨30, _⟩ => ⟨S8x256, .f32⟩
  | .hbm, ⟨31, _⟩ => ⟨S1x256, .f32⟩
  | .hbm, ⟨32, _⟩ => ⟨S1x256, .f32⟩
  | .hbm, ⟨33, _⟩ => ⟨S4096x256, .f32⟩
  | .local _ .vmem, ⟨0, _⟩ => ⟨S4096x256, .f32⟩
  | .local _ .vmem, ⟨1, _⟩ => ⟨S8x256, .f32⟩
  | .local _ .vmem, ⟨2, _⟩ => ⟨S512x4096, .f32⟩
  | .local _ .vmem, ⟨3, _⟩ => ⟨S512x4096, .f32⟩
  | .local _ .vmem, ⟨4, _⟩ => ⟨S256x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | .local _ .vmem, ⟨10, _⟩ => ⟨S8x256, .f32⟩
  | .local _ .vmem, ⟨11, _⟩ => ⟨S4096x256, .bf16⟩
  | .local _ .vmem, ⟨12, _⟩ => ⟨S4096x256, .bf16⟩
  | .local _ .vmem, ⟨13, _⟩ => ⟨S8x256, .f32⟩
  | .local _ .vmem, ⟨14, _⟩ => ⟨S4096x256, .f32⟩
  | .local _ .vmem, ⟨15, _⟩ => ⟨S8x256, .f32⟩
  | .local _ .vmem, ⟨16, _⟩ => ⟨S512x4096, .f32⟩
  | .local _ .vmem, ⟨17, _⟩ => ⟨S512x4096, .f32⟩
  | .local _ .vmem, ⟨18, _⟩ => ⟨S256x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S512x256, .f32⟩
  | .local _ .vmem, ⟨23, _⟩ => ⟨S512x256, .f32⟩
  | .local _ .vmem, ⟨24, _⟩ => ⟨S8x256, .f32⟩
  | .local _ .vmem, ⟨25, _⟩ => ⟨S4096x256, .bf16⟩
  | .local _ .vmem, ⟨26, _⟩ => ⟨S4096x256, .bf16⟩
  | .local _ .vmem, ⟨27, _⟩ => ⟨S8x256, .f32⟩
  | .local _ .vmem, ⟨28, _⟩ => ⟨S4096x256, .f32⟩
  | .local _ .vmem, ⟨29, _⟩ => ⟨S8x256, .f32⟩
  | .local _ .vmem, ⟨30, _⟩ => ⟨S512x4096, .f32⟩
  | .local _ .vmem, ⟨31, _⟩ => ⟨S512x4096, .f32⟩
  | .local _ .vmem, ⟨32, _⟩ => ⟨S256x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S512x256, .f32⟩
  | .local _ .vmem, ⟨37, _⟩ => ⟨S512x256, .f32⟩
  | .local _ .vmem, ⟨38, _⟩ => ⟨S8x256, .f32⟩
  | .local _ .vmem, ⟨39, _⟩ => ⟨S4096x256, .bf16⟩
  | .local _ .vmem, ⟨40, _⟩ => ⟨S4096x256, .bf16⟩
  | .local _ .vmem, ⟨41, _⟩ => ⟨S8x256, .f32⟩
  | .local _ .vmem, ⟨42, _⟩ => ⟨S4096x256, .f32⟩
  | .local _ .vmem, ⟨43, _⟩ => ⟨S8x256, .f32⟩
  | .local _ .vmem, ⟨44, _⟩ => ⟨S1x256, .f32⟩
  | .local _ .vmem, ⟨45, _⟩ => ⟨S1x256, .f32⟩
  | .local _ .vmem, ⟨46, _⟩ => ⟨S4096x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12_0 : Ref sig .tc := ⟨.hbm, 29, rfl⟩
abbrev main_v12_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_scratch0 : Ref sig .tc := ⟨.vmem, 25, rfl⟩
abbrev cc1_scratch1 : Ref sig .tc := ⟨.vmem, 26, rfl⟩
abbrev cc1_scratch2 : Ref sig .tc := ⟨.vmem, 27, rfl⟩
abbrev cc2_stg0_0 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_scratch0 : Ref sig .tc := ⟨.vmem, 39, rfl⟩
abbrev cc2_scratch1 : Ref sig .tc := ⟨.vmem, 40, rfl⟩
abbrev cc2_scratch2 : Ref sig .tc := ⟨.vmem, 41, rfl⟩
abbrev cc3_stg0_0 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc1_sem0_0 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc1_sem8_0 : DmaSem sig := 21
abbrev cc2_sem0_0 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc2_sem8_0 : DmaSem sig := 32
abbrev cc3_sem0_0 : DmaSem sig := 33
abbrev cc3_sem1_0 : DmaSem sig := 34
abbrev cc3_sem2_0 : DmaSem sig := 35
abbrev cc3_sem3_0 : DmaSem sig := 36
abbrev cc3_sem4_0 : DmaSem sig := 37

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_16 : BitVec 32 := 0#32
  let v25 : BitVec 1 := Scalar.cmpi .eq arg0 c0_i32_16
  let v26 : BitVec 32 := Scalar.extui v25
  let c0_i32_17 : BitVec 32 := 0#32
  let v27 : BitVec 1 := Scalar.cmpi .ne v26 c0_i32_17
  v27

def k0_cond3 (i : grid0.Coords) : BitVec 1 :=
  let arg0 : BitVec 32 := BitVec.ofNat 32 (i 0).val
  let c0_i32_18 : BitVec 32 := 0#32
  let v28 : BitVec 1 := Scalar.cmpi .sgt arg0 c0_i32_18
  let v29 : BitVec 32 := Scalar.extui v28
  let c0_i32_19 : BitVec 32 := 0#32
  let v30 : BitVec 1 := Scalar.cmpi .ne v29 c0_i32_19
  v30

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![8], ![false]⟩

def k1_cond2 (i : grid1.Coords) : BitVec 1 :=
  let arg0 : BitVec 32 := BitVec.ofNat 32 (i 0).val
  let c0_i32_16 : BitVec 32 := 0#32
  let v25 : BitVec 1 := Scalar.cmpi .eq arg0 c0_i32_16
  let v26 : BitVec 32 := Scalar.extui v25
  let c0_i32_17 : BitVec 32 := 0#32
  let v27 : BitVec 1 := Scalar.cmpi .ne v26 c0_i32_17
  v27

def k1_cond3 (i : grid1.Coords) : BitVec 1 :=
  let arg0 : BitVec 32 := BitVec.ofNat 32 (i 0).val
  let c0_i32_18 : BitVec 32 := 0#32
  let v28 : BitVec 1 := Scalar.cmpi .sgt arg0 c0_i32_18
  let v29 : BitVec 32 := Scalar.extui v28
  let c0_i32_19 : BitVec 32 := 0#32
  let v30 : BitVec 1 := Scalar.cmpi .ne v29 c0_i32_19
  v30

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S8x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![8], ![false]⟩

def k2_cond2 (i : grid2.Coords) : BitVec 1 :=
  let arg0 : BitVec 32 := BitVec.ofNat 32 (i 0).val
  let c0_i32_16 : BitVec 32 := 0#32
  let v25 : BitVec 1 := Scalar.cmpi .eq arg0 c0_i32_16
  let v26 : BitVec 32 := Scalar.extui v25
  let c0_i32_17 : BitVec 32 := 0#32
  let v27 : BitVec 1 := Scalar.cmpi .ne v26 c0_i32_17
  v27

def k2_cond3 (i : grid2.Coords) : BitVec 1 :=
  let arg0 : BitVec 32 := BitVec.ofNat 32 (i 0).val
  let c0_i32_18 : BitVec 32 := 0#32
  let v28 : BitVec 1 := Scalar.cmpi .sgt arg0 c0_i32_18
  let v29 : BitVec 32 := Scalar.extui v28
  let c0_i32_19 : BitVec 32 := 0#32
  let v30 : BitVec 1 := Scalar.cmpi .ne v29 c0_i32_19
  v30

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S4096x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S8x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S8x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := .none

abbrev stage3_0 : Fin 1 → Memref sig .tc .vmem S4096x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S8x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S4096x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

class Facts₀ : Prop where
  bcast_S_S8x256 : S_.BroadcastsInDim S8x256 (![] : Fin 0 → Fin S8x256.rank)
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  reduces_S4096x256_S256 : S4096x256.Reduces [0] S256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S512x4096_S512x4096_0_0 : ∀ a, (![0, 0] : Fin 2 → Nat) a + S512x4096.size a ≤ S512x4096.size a
  h_S512x4096 : 0 < S512x4096.numel
  inb_S8x256_S1x256_0_0 : ∀ a, (![0, 0] : Fin 2 → Nat) a + S1x256.size a ≤ S8x256.size a
  broadcasts_S1x256_S512x256 : S1x256.Broadcasts S512x256
  inb_S512x256_S512x256_0_0 : ∀ a, (![0, 0] : Fin 2 → Nat) a + S512x256.size a ≤ S512x256.size a
  h_S512x256 : 0 < S512x256.numel
  reduces_S512x256_S256 : S512x256.Reduces [0] S256
  concatenates_S1x256_S1x256_S6x256_S8x256_d0 : Shape.Concatenates [S1x256, S1x256, S6x256] S8x256 0
  inb_S8x256_S1x256_1_0 : ∀ a, (![1, 0] : Fin 2 → Nat) a + S1x256.size a ≤ S8x256.size a
  broadcasts_S1x256_S4096x256 : S1x256.Broadcasts S4096x256
  dot_S4096x256_S256x256_S4096x256_1_0_0_1_n_n_wf : DotDims.WF S4096x256 S256x256 S4096x256 [1] [0] [0] [1] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .f32 = 32 ∨ (Rect.block (s := S8x256) S8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S4096x256.size a
  hwx0_7 : ∀ i : grid0.Coords, EltTy.bits .f32 = 32 ∨ (Rect.block (s := S4096x256) S512x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x256.size a ≤ S8x256.size a
  hwx0_8 : ∀ i : grid0.Coords, EltTy.bits .f32 = 32 ∨ (Rect.block (s := S8x256) S8x256.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S4096x256.size a
  hwx1_0 : ∀ i : grid1.Coords, EltTy.bits .f32 = 32 ∨ (Rect.block (s := S4096x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S8x256.size a
  hwx1_1 : ∀ i : grid1.Coords, EltTy.bits .f32 = 32 ∨ (Rect.block (s := S8x256) S8x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S4096x4096.size a
  hwx1_2 : ∀ i : grid1.Coords, EltTy.bits .f32 = 32 ∨ (Rect.block (s := S4096x4096) S512x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x256.size a ≤ S4096x256.size a
  hwx1_7 : ∀ i : grid1.Coords, EltTy.bits .f32 = 32 ∨ (Rect.block (s := S4096x256) S512x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S8x256.size a ≤ S8x256.size a
  hwx1_8 : ∀ i : grid1.Coords, EltTy.bits .f32 = 32 ∨ (Rect.block (s := S8x256) S8x256.size (cc1_transform_8 i) (hinb1_8 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S4096x256.size a
  hwx2_0 : ∀ i : grid2.Coords, EltTy.bits .f32 = 32 ∨ (Rect.block (s := S4096x256) S4096x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x256.size a ≤ S8x256.size a
  hwx2_1 : ∀ i : grid2.Coords, EltTy.bits .f32 = 32 ∨ (Rect.block (s := S8x256) S8x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x4096.size a ≤ S4096x4096.size a
  hwx2_2 : ∀ i : grid2.Coords, EltTy.bits .f32 = 32 ∨ (Rect.block (s := S4096x4096) S512x4096.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x256.size a ≤ S4096x256.size a
  hwx2_7 : ∀ i : grid2.Coords, EltTy.bits .f32 = 32 ∨ (Rect.block (s := S4096x256) S512x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S8x256.size a ≤ S8x256.size a
  hwx2_8 : ∀ i : grid2.Coords, EltTy.bits .f32 = 32 ∨ (Rect.block (s := S8x256) S8x256.size (cc2_transform_8 i) (hinb2_8 i)).WholeWords (EltTy.packing .f32)
  hstage3_0 : ∀ j, (stage3_0 j).IsWhole
  hstage3_1 : ∀ j, (stage3_1 j).IsWhole
  hstage3_2 : ∀ j, (stage3_2 j).IsWhole
  hstage3_3 : ∀ j, (stage3_3 j).IsWhole
  hstage3_4 : ∀ j, (stage3_4 j).IsWhole

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S8x256.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) && !(k0_cond3 i == 1#1) | ⟨_ + 9, h⟩ => absurd h (Nat.not_lt.2 (Nat.le_add_left _ _))

abbrev win1_0 : Pipeline.Window sig grid1 :=
  Pipeline.Window.ofSpec (Memref.whole main_v4_0) S4096x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S8x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8_0) S512x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v8_1) S8x256.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) && !(k1_cond3 i == 1#1) | ⟨_ + 9, h⟩ => absurd h (Nat.not_lt.2 (Nat.le_add_left _ _))

abbrev win2_0 : Pipeline.Window sig grid2 :=
  Pipeline.Window.ofSpec (Memref.whole main_v8_0) S4096x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v8_1) S8x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S512x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v11) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v12_0) S512x256.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v12_1) S8x256.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) && !(k2_cond3 i == 1#1) | ⟨_ + 9, h⟩ => absurd h (Nat.not_lt.2 (Nat.le_add_left _ _))

abbrev win3_0 : Pipeline.Window sig grid3 :=
  Pipeline.Window.whole (Memref.whole main_v12_0) false false (stage3_0 0) (sem3_0 0) (Memref.isWhole_whole _) (hstage3_0 0)

abbrev win3_1 : Pipeline.Window sig grid3 :=
  Pipeline.Window.whole (Memref.whole main_v12_1) false false (stage3_1 0) (sem3_1 0) (Memref.isWhole_whole _) (hstage3_1 0)

abbrev win3_2 : Pipeline.Window sig grid3 :=
  Pipeline.Window.whole (Memref.whole main_v13) false false (stage3_2 0) (sem3_2 0) (Memref.isWhole_whole _) (hstage3_2 0)

abbrev win3_3 : Pipeline.Window sig grid3 :=
  Pipeline.Window.whole (Memref.whole main_v14) false false (stage3_3 0) (sem3_3 0) (Memref.isWhole_whole _) (hstage3_3 0)

abbrev win3_4 : Pipeline.Window sig grid3 :=
  Pipeline.Window.whole (Memref.whole main_v15) true false (stage3_4 0) (sem3_4 0) (Memref.isWhole_whole _) (hstage3_4 0)

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 170
  | .vmem => 0
  | .smem => 0
  | _ => 0

abbrev hbmTy0_0 (i : Nat) : BufTy := match i % 128 with
  | 0 => ⟨S4096x256, .f32⟩
  | 1 => ⟨S4096x4096, .f32⟩
  | 2 => ⟨S256x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x256, .f32⟩
  | 11 => ⟨S256, .f32⟩
  | 12 => ⟨S256, .f32⟩
  | 13 => ⟨S256, .f32⟩
  | 14 => ⟨S4096x256, .f32⟩
  | 15 => ⟨S4096x256, .f32⟩
  | 16 => ⟨S1x256, .f32⟩
  | 17 => ⟨S4096x256, .f32⟩
  | 18 => ⟨S4096x256, .f32⟩
  | 19 => ⟨S_, .f32⟩
  | 20 => ⟨S4096x256, .f32⟩
  | 21 => ⟨S4096x256, .f32⟩
  | 22 => ⟨S_, .f32⟩
  | 23 => ⟨S256, .f32⟩
  | 24 => ⟨S_, .f32⟩
  | 25 => ⟨S256, .f32⟩
  | 26 => ⟨S256, .f32⟩
  | 27 => ⟨S_, .i32⟩
  | 28 => ⟨S_, .f32⟩
  | 29 => ⟨S256, .f32⟩
  | 30 => ⟨S1x256, .f32⟩
  | 31 => ⟨S_, .f32⟩
  | 32 => ⟨S1x256, .f32⟩
  | 33 => ⟨S1x256, .f32⟩
  | 34 => ⟨S4096x256, .f32⟩
  | 35 => ⟨S4096x256, .f32⟩
  | 36 => ⟨S4096x256, .f32⟩
  | 37 => ⟨S_, .f32⟩
  | 38 => ⟨S_, .f32⟩
  | 39 => ⟨S_, .f32⟩
  | 40 => ⟨S_, .f32⟩
  | 41 => ⟨S256, .f32⟩
  | 42 => ⟨S256, .f32⟩
  | 43 => ⟨S256, .f32⟩
  | 44 => ⟨S_, .f32⟩
  | 45 => ⟨S_, .i1⟩
  | 46 => ⟨S_, .f32⟩
  | 47 => ⟨S_, .f32⟩
  | 48 => ⟨S256, .f32⟩
  | 49 => ⟨S256, .f32⟩
  | 50 => ⟨S1x256, .f32⟩
  | 51 => ⟨S4096x256, .f32⟩
  | 52 => ⟨S4096x256, .f32⟩
  | 53 => ⟨S1x256, .f32⟩
  | 54 => ⟨S4096x256, .f32⟩
  | 55 => ⟨S4096x256, .f32⟩
  | 56 => ⟨S_, .f32⟩
  | 57 => ⟨S256, .f32⟩
  | 58 => ⟨S256, .f32⟩
  | 59 => ⟨S256, .f32⟩
  | 60 => ⟨S1x256, .f32⟩
  | 61 => ⟨S4096x256, .f32⟩
  | 62 => ⟨S4096x256, .f32⟩
  | 63 => ⟨S1x256, .f32⟩
  | 64 => ⟨S4096x256, .f32⟩
  | 65 => ⟨S4096x256, .f32⟩
  | 66 => ⟨S4096x256, .f32⟩
  | 67 => ⟨S4096x256, .f32⟩
  | 68 => ⟨S1x256, .f32⟩
  | 69 => ⟨S4096x256, .f32⟩
  | 70 => ⟨S4096x256, .f32⟩
  | 71 => ⟨S_, .f32⟩
  | 72 => ⟨S4096x256, .f32⟩
  | 73 => ⟨S4096x256, .f32⟩
  | 74 => ⟨S_, .f32⟩
  | 75 => ⟨S256, .f32⟩
  | 76 => ⟨S_, .f32⟩
  | 77 => ⟨S256, .f32⟩
  | 78 => ⟨S256, .f32⟩
  | 79 => ⟨S_, .i32⟩
  | 80 => ⟨S_, .f32⟩
  | 81 => ⟨S256, .f32⟩
  | 82 => ⟨S1x256, .f32⟩
  | 83 => ⟨S_, .f32⟩
  | 84 => ⟨S1x256, .f32⟩
  | 85 => ⟨S1x256, .f32⟩
  | 86 => ⟨S4096x256, .f32⟩
  | 87 => ⟨S4096x256, .f32⟩
  | 88 => ⟨S4096x256, .f32⟩
  | 89 => ⟨S_, .f32⟩
  | 90 => ⟨S_, .f32⟩
  | 91 => ⟨S_, .f32⟩
  | 92 => ⟨S_, .f32⟩
  | 93 => ⟨S256, .f32⟩
  | 94 => ⟨S256, .f32⟩
  | 95 => ⟨S256, .f32⟩
  | 96 => ⟨S_, .f32⟩
  | 97 => ⟨S_, .i1⟩
  | 98 => ⟨S_, .f32⟩
  | 99 => ⟨S_, .f32⟩
  | 100 => ⟨S256, .f32⟩
  | 101 => ⟨S256, .f32⟩
  | 102 => ⟨S1x256, .f32⟩
  | 103 => ⟨S4096x256, .f32⟩
  | 104 => ⟨S4096x256, .f32⟩
  | 105 => ⟨S1x256, .f32⟩
  | 106 => ⟨S4096x256, .f32⟩
  | 107 => ⟨S4096x256, .f32⟩
  | 108 => ⟨S_, .f32⟩
  | 109 => ⟨S256, .f32⟩
  | 110 => ⟨S256, .f32⟩
  | 111 => ⟨S256, .f32⟩
  | 112 => ⟨S1x256, .f32⟩
  | 113 => ⟨S4096x256, .f32⟩
  | 114 => ⟨S4096x256, .f32⟩
  | 115 => ⟨S1x256, .f32⟩
  | 116 => ⟨S4096x256, .f32⟩
  | 117 => ⟨S4096x256, .f32⟩
  | 118 => ⟨S4096x256, .f32⟩
  | 119 => ⟨S4096x256, .f32⟩
  | 120 => ⟨S1x256, .f32⟩
  | 121 => ⟨S4096x256, .f32⟩
  | 122 => ⟨S4096x256, .f32⟩
  | 123 => ⟨S_, .f32⟩
  | 124 => ⟨S4096x256, .f32⟩
  | 125 => ⟨S4096x256, .f32⟩
  | 126 => ⟨S_, .f32⟩
  | 127 => ⟨S256, .f32⟩
  | _ => ⟨S4096x256, .f32⟩

abbrev hbmTy0_1 (i : Nat) : BufTy := match i % 128 with
  | 0 => ⟨S_, .f32⟩
  | 1 => ⟨S256, .f32⟩
  | 2 => ⟨S256, .f32⟩
  | 3 => ⟨S_, .i32⟩
  | 4 => ⟨S_, .f32⟩
  | 5 => ⟨S256, .f32⟩
  | 6 => ⟨S1x256, .f32⟩
  | 7 => ⟨S_, .f32⟩
  | 8 => ⟨S1x256, .f32⟩
  | 9 => ⟨S1x256, .f32⟩
  | 10 => ⟨S4096x256, .f32⟩
  | 11 => ⟨S4096x256, .f32⟩
  | 12 => ⟨S4096x256, .f32⟩
  | 13 => ⟨S_, .f32⟩
  | 14 => ⟨S_, .f32⟩
  | 15 => ⟨S_, .f32⟩
  | 16 => ⟨S_, .f32⟩
  | 17 => ⟨S256, .f32⟩
  | 18 => ⟨S256, .f32⟩
  | 19 => ⟨S256, .f32⟩
  | 20 => ⟨S_, .f32⟩
  | 21 => ⟨S_, .i1⟩
  | 22 => ⟨S_, .f32⟩
  | 23 => ⟨S_, .f32⟩
  | 24 => ⟨S256, .f32⟩
  | 25 => ⟨S256, .f32⟩
  | 26 => ⟨S1x256, .f32⟩
  | 27 => ⟨S4096x256, .f32⟩
  | 28 => ⟨S4096x256, .f32⟩
  | 29 => ⟨S1x256, .f32⟩
  | 30 => ⟨S4096x256, .f32⟩
  | 31 => ⟨S4096x256, .f32⟩
  | 32 => ⟨S_, .f32⟩
  | 33 => ⟨S256, .f32⟩
  | 34 => ⟨S256, .f32⟩
  | 35 => ⟨S256, .f32⟩
  | 36 => ⟨S1x256, .f32⟩
  | 37 => ⟨S4096x256, .f32⟩
  | 38 => ⟨S4096x256, .f32⟩
  | 39 => ⟨S1x256, .f32⟩
  | 40 => ⟨S4096x256, .f32⟩
  | 41 => ⟨S4096x256, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_cst_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_cst_1 : Ref sig .tc := ⟨.hbm, 38, rfl⟩
abbrev main_call1_v8 : Ref sig .tc := ⟨.hbm, 39, rfl⟩
abbrev main_call1_cst_2 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_cst_3 : Ref sig .tc := ⟨.hbm, 44, rfl⟩
abbrev main_call1_v12 : Ref sig .tc := ⟨.hbm, 45, rfl⟩
abbrev main_call1_cst_4 : Ref sig .tc := ⟨.hbm, 46, rfl⟩
abbrev main_call1_call0_v0 : Ref sig .tc := ⟨.hbm, 47, rfl⟩
abbrev main_call1_call0_v1 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_cst_1 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_call2_cst : Ref sig .tc := ⟨.hbm, 71, rfl⟩
abbrev main_call2_v0 : Ref sig .tc := ⟨.hbm, 72, rfl⟩
abbrev main_v30 : Ref sig .tc := ⟨.hbm, 73, rfl⟩
abbrev main_cst_2 : Ref sig .tc := ⟨.hbm, 74, rfl⟩
abbrev main_v31 : Ref sig .tc := ⟨.hbm, 75, rfl⟩
abbrev main_cst_3 : Ref sig .tc := ⟨.hbm, 76, rfl⟩
abbrev main_v32 : Ref sig .tc := ⟨.hbm, 77, rfl⟩
abbrev main_v33 : Ref sig .tc := ⟨.hbm, 78, rfl⟩
abbrev main_c_4 : Ref sig .tc := ⟨.hbm, 79, rfl⟩
abbrev main_call3_cst : Ref sig .tc := ⟨.hbm, 80, rfl⟩
abbrev main_call3_v0 : Ref sig .tc := ⟨.hbm, 81, rfl⟩
abbrev main_call3_v1 : Ref sig .tc := ⟨.hbm, 82, rfl⟩
abbrev main_call3_cst_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_v6 : Ref sig .tc := ⟨.hbm, 88, rfl⟩
abbrev main_call3_v7 : Ref sig .tc := ⟨.hbm, 89, rfl⟩
abbrev main_call3_cst_1 : Ref sig .tc := ⟨.hbm, 90, rfl⟩
abbrev main_call3_v8 : Ref sig .tc := ⟨.hbm, 91, rfl⟩
abbrev main_call3_cst_2 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_cst_3 : Ref sig .tc := ⟨.hbm, 96, rfl⟩
abbrev main_call3_v12 : Ref sig .tc := ⟨.hbm, 97, rfl⟩
abbrev main_call3_cst_4 : Ref sig .tc := ⟨.hbm, 98, rfl⟩
abbrev main_call3_call0_v0 : Ref sig .tc := ⟨.hbm, 99, rfl⟩
abbrev main_call3_call0_v1 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_cst_5 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_call4_cst : Ref sig .tc := ⟨.hbm, 123, rfl⟩
abbrev main_call4_v0 : Ref sig .tc := ⟨.hbm, 124, rfl⟩
abbrev main_v55 : Ref sig .tc := ⟨.hbm, 125, rfl⟩
abbrev main_cst_6 : Ref sig .tc := ⟨.hbm, 126, rfl⟩
abbrev main_v56 : Ref sig .tc := ⟨.hbm, 127, rfl⟩
abbrev main_cst_7 : Ref sig .tc := ⟨.hbm, 128, rfl⟩
abbrev main_v57 : Ref sig .tc := ⟨.hbm, 129, rfl⟩
abbrev main_v58 : Ref sig .tc := ⟨.hbm, 130, rfl⟩
abbrev main_c_8 : Ref sig .tc := ⟨.hbm, 131, rfl⟩
abbrev main_call5_cst : Ref sig .tc := ⟨.hbm, 132, rfl⟩
abbrev main_call5_v0 : Ref sig .tc := ⟨.hbm, 133, rfl⟩
abbrev main_call5_v1 : Ref sig .tc := ⟨.hbm, 134, rfl⟩
abbrev main_call5_cst_0 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_call5_v5 : Ref sig .tc := ⟨.hbm, 139, rfl⟩
abbrev main_call5_v6 : Ref sig .tc := ⟨.hbm, 140, rfl⟩
abbrev main_call5_v7 : Ref sig .tc := ⟨.hbm, 141, rfl⟩
abbrev main_call5_cst_1 : Ref sig .tc := ⟨.hbm, 142, rfl⟩
abbrev main_call5_v8 : Ref sig .tc := ⟨.hbm, 143, rfl⟩
abbrev main_call5_cst_2 : Ref sig .tc := ⟨.hbm, 144, rfl⟩
abbrev main_call5_v9 : Ref sig .tc := ⟨.hbm, 145, rfl⟩
abbrev main_call5_v10 : Ref sig .tc := ⟨.hbm, 146, rfl⟩
abbrev main_call5_v11 : Ref sig .tc := ⟨.hbm, 147, rfl⟩
abbrev main_call5_cst_3 : Ref sig .tc := ⟨.hbm, 148, rfl⟩
abbrev main_call5_v12 : Ref sig .tc := ⟨.hbm, 149, rfl⟩
abbrev main_call5_cst_4 : Ref sig .tc := ⟨.hbm, 150, rfl⟩
abbrev main_call5_call0_v0 : Ref sig .tc := ⟨.hbm, 151, rfl⟩
abbrev main_call5_call0_v1 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_cst_9 : Ref sig .tc := ⟨.hbm, 160, rfl⟩
abbrev main_v66 : Ref sig .tc := ⟨.hbm, 161, rfl⟩
abbrev main_v67 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  reducesTo_S4096x256_S256_d0 : S4096x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.K.Defs.lean ====
import proofs.«163270_g1194000908387_cont_fleet_524_12_alg».proof.Proof.Gen.Kernel.Launch
import proofs.«163270_g1194000908387_cont_fleet_524_12_alg».proof.Proof.Gen.Kernel.Skeleton
import proofs.«163270_g1194000908387_cont_fleet_524_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev rowRect0 : Rect S8x256 := Rect.unit (s := S8x256) ![0, 0] S1x256.size inb_S8x256_S1x256_0_0
abbrev rowRect1 : Rect S8x256 := Rect.unit (s := S8x256) ![1, 0] S1x256.size inb_S8x256_S1x256_1_0

structure Out (F : FTy → Type) [FloatOps F] where
  r : Vec F S512x256 .f32
  st : Vec F S8x256 .f32
  yh : Vec F S4096x256 .bf16
  yl : Vec F S4096x256 .bf16
  corr : Vec F S8x256 .f32

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev hblk0 (c : Dev nD) (t : Fin cfg0.N) : Vec F S4096x256 .f32 := iblk0 V c 0 t
abbrev sblk0 (c : Dev nD) (t : Fin cfg0.N) : Vec F S8x256 .f32 := iblk0 V c 1 t
abbrev ablk0 (c : Dev nD) (t : Fin cfg0.N) : Vec F S512x4096 .f32 := iblk0 V c 2 t
abbrev wblk0 (c : Dev nD) (t : Fin cfg0.N) : Vec F S256x256 .f32 := iblk0 V c 3 t
abbrev bblk0 (c : Dev nD) (t : Fin cfg0.N) : Vec F S1x256 .f32 := iblk0 V c 4 t
abbrev gblk0 (c : Dev nD) (t : Fin cfg0.N) : Vec F S1x256 .f32 := iblk0 V c 5 t
abbrev tblk0 (c : Dev nD) (t : Fin cfg0.N) : Vec F S1x256 .f32 := iblk0 V c 6 t

def first0 (h : Vec F S4096x256 .f32) (s : Vec F S8x256 .f32) (a : Vec F S512x4096 .f32) (w : Vec F S256x256 .f32) (b g bt : Vec F S1x256 .f32) : Out F :=
  { r := k0_pay6 a (k0_pay3 h w) (k0_pay4 h w) (View.ld (k0_pay5 h w b) rowRect0)
    st := k0_pay7 a (k0_pay3 h w) (k0_pay4 h w) (View.ld (k0_pay5 h w b) rowRect0)
    yh := k0_pay3 h w
    yl := k0_pay4 h w
    corr := k0_pay5 h w b }

def next0 (a : Vec F S512x4096 .f32) (p : Out F) : Out F :=
  { r := k0_pay6 a p.yh p.yl (View.ld p.corr rowRect0)
    st := k0_pay8 a p.yh p.yl (View.ld p.corr rowRect0) p.st
    yh := p.yh
    yl := p.yl
    corr := p.corr }

def outsAt0 (c : Dev nD) : (n : ℕ) → n < cfg0.N → Out F
  | 0, h => first0 (hblk0 V c ⟨0, h⟩) (sblk0 V c ⟨0, h⟩) (ablk0 V c ⟨0, h⟩) (wblk0 V c ⟨0, h⟩) (bblk0 V c ⟨0, h⟩) (gblk0 V c ⟨0, h⟩) (tblk0 V c ⟨0, h⟩)
  | n + 1, h => next0 (ablk0 V c ⟨n + 1, h⟩) (outsAt0 c n (Nat.lt_of_succ_lt h))

theorem outsAt0_zero (c : Dev nD) (h : 0 < cfg0.N) :
    outsAt0 V c 0 h = first0 (hblk0 V c ⟨0, h⟩) (sblk0 V c ⟨0, h⟩) (ablk0 V c ⟨0, h⟩) (wblk0 V c ⟨0, h⟩) (bblk0 V c ⟨0, h⟩) (gblk0 V c ⟨0, h⟩) (tblk0 V c ⟨0, h⟩) := rfl
theorem outsAt0_succ (c : Dev nD) (n : ℕ) (h : n + 1 < cfg0.N) :
    outsAt0 V c (n + 1) h = next0 (ablk0 V c ⟨n + 1, h⟩) (outsAt0 V c n (Nat.lt_of_succ_lt h)) := rfl

abbrev scM0_0 : Memref sig .tc .vmem S4096x256 .bf16 := Memref.whole cc0_scratch0
abbrev scM0_1 : Memref sig .tc .vmem S4096x256 .bf16 := Memref.whole cc0_scratch1
abbrev scM0_2 : Memref sig .tc .vmem S8x256 .f32 := Memref.whole cc0_scratch2

def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).yh
        ∗ owns (c : Thread nD τ) scM0_1 fullShare (outsAt0 V c n hn).yl
        ∗ owns (c : Thread nD τ) scM0_2 fullShare (outsAt0 V c n hn).corr)
      ∗ Pipeline.scopedRestBut (Ix := Unit) (Name := ℕ) (U := UR sig nD τ) (Lvl := ℕ) (Val := Elt F) spec0 c [cc0_scratch0, cc0_scratch1, cc0_scratch2])
      ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).r
    | ⟨8, _⟩ => (outsAt0 V c t.val t.isLt).st
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_7 (c : Dev nD) (t : Fin cfg0.N) : (dat0 V c).after 7 t = (outsAt0 V c t.val t.isLt).r := by dsimp only [dat0]
theorem after0_8 (c : Dev nD) (t : Fin cfg0.N) : (dat0 V c).after 8 t = (outsAt0 V c t.val t.isLt).st := by dsimp only [dat0]

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev hblk1 (c : Dev nD) (t : Fin cfg1.N) : Vec F S4096x256 .f32 := iblk1 V c 0 t
abbrev sblk1 (c : Dev nD) (t : Fin cfg1.N) : Vec F S8x256 .f32 := iblk1 V c 1 t
abbrev ablk1 (c : Dev nD) (t : Fin cfg1.N) : Vec F S512x4096 .f32 := iblk1 V c 2 t
abbrev wblk1 (c : Dev nD) (t : Fin cfg1.N) : Vec F S256x256 .f32 := iblk1 V c 3 t
abbrev bblk1 (c : Dev nD) (t : Fin cfg1.N) : Vec F S1x256 .f32 := iblk1 V c 4 t
abbrev gblk1 (c : Dev nD) (t : Fin cfg1.N) : Vec F S1x256 .f32 := iblk1 V c 5 t
abbrev tblk1 (c : Dev nD) (t : Fin cfg1.N) : Vec F S1x256 .f32 := iblk1 V c 6 t

def first1 (h : Vec F S4096x256 .f32) (s : Vec F S8x256 .f32) (a : Vec F S512x4096 .f32) (w : Vec F S256x256 .f32) (b g bt : Vec F S1x256 .f32) : Out F :=
  { r := k1_pay4 a (k1_pay1 (k1_pay8 (View.ld s rowRect0) (View.ld s rowRect1) g bt h w))
          (k1_pay2 (k1_pay7 (View.ld s rowRect0) (View.ld s rowRect1) g bt h w) (k1_pay9 (View.ld s rowRect0) (View.ld s rowRect1) g bt h w))
          (View.ld (k1_pay3 (k1_pay7 (View.ld s rowRect0) (View.ld s rowRect1) g bt h w) b) rowRect0)
    st := k1_pay5 a (k1_pay1 (k1_pay8 (View.ld s rowRect0) (View.ld s rowRect1) g bt h w))
          (k1_pay2 (k1_pay7 (View.ld s rowRect0) (View.ld s rowRect1) g bt h w) (k1_pay9 (View.ld s rowRect0) (View.ld s rowRect1) g bt h w))
          (View.ld (k1_pay3 (k1_pay7 (View.ld s rowRect0) (View.ld s rowRect1) g bt h w) b) rowRect0)
    yh := k1_pay1 (k1_pay8 (View.ld s rowRect0) (View.ld s rowRect1) g bt h w)
    yl := k1_pay2 (k1_pay7 (View.ld s rowRect0) (View.ld s rowRect1) g bt h w) (k1_pay9 (View.ld s rowRect0) (View.ld s rowRect1) g bt h w)
    corr := k1_pay3 (k1_pay7 (View.ld s rowRect0) (View.ld s rowRect1) g bt h w) b }

def next1 (a : Vec F S512x4096 .f32) (p : Out F) : Out F :=
  { r := k1_pay4 a p.yh p.yl (View.ld p.corr rowRect0)
    st := k1_pay6 a p.yh p.yl (View.ld p.corr rowRect0) p.st
    yh := p.yh
    yl := p.yl
    corr := p.corr }

def outsAt1 (c : Dev nD) : (n : ℕ) → n < cfg1.N → Out F
  | 0, h => first1 (hblk1 V c ⟨0, h⟩) (sblk1 V c ⟨0, h⟩) (ablk1 V c ⟨0, h⟩) (wblk1 V c ⟨0, h⟩) (bblk1 V c ⟨0, h⟩) (gblk1 V c ⟨0, h⟩) (tblk1 V c ⟨0, h⟩)
  | n + 1, h => next1 (ablk1 V c ⟨n + 1, h⟩) (outsAt1 c n (Nat.lt_of_succ_lt h))

theorem outsAt1_zero (c : Dev nD) (h : 0 < cfg1.N) :
    outsAt1 V c 0 h = first1 (hblk1 V c ⟨0, h⟩) (sblk1 V c ⟨0, h⟩) (ablk1 V c ⟨0, h⟩) (wblk1 V c ⟨0, h⟩) (bblk1 V c ⟨0, h⟩) (gblk1 V c ⟨0, h⟩) (tblk1 V c ⟨0, h⟩) := rfl
theorem outsAt1_succ (c : Dev nD) (n : ℕ) (h : n + 1 < cfg1.N) :
    outsAt1 V c (n + 1) h = next1 (ablk1 V c ⟨n + 1, h⟩) (outsAt1 V c n (Nat.lt_of_succ_lt h)) := rfl

abbrev scM1_0 : Memref sig .tc .vmem S4096x256 .bf16 := Memref.whole cc1_scratch0
abbrev scM1_1 : Memref sig .tc .vmem S4096x256 .bf16 := Memref.whole cc1_scratch1
abbrev scM1_2 : Memref sig .tc .vmem S8x256 .f32 := Memref.whole cc1_scratch2

def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).yh
        ∗ owns (c : Thread nD τ) scM1_1 fullShare (outsAt1 V c n hn).yl
        ∗ owns (c : Thread nD τ) scM1_2 fullShare (outsAt1 V c n hn).corr)
      ∗ Pipeline.scopedRestBut (Ix := Unit) (Name := ℕ) (U := UR sig nD τ) (Lvl := ℕ) (Val := Elt F) spec1 c [cc1_scratch0, cc1_scratch1, cc1_scratch2])
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).r
    | ⟨8, _⟩ => (outsAt1 V c t.val t.isLt).st
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).r := by dsimp only [dat1]
theorem after1_8 (c : Dev nD) (t : Fin cfg1.N) : (dat1 V c).after 8 t = (outsAt1 V c t.val t.isLt).st := by dsimp only [dat1]

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev hblk2 (c : Dev nD) (t : Fin cfg2.N) : Vec F S4096x256 .f32 := iblk2 V c 0 t
abbrev sblk2 (c : Dev nD) (t : Fin cfg2.N) : Vec F S8x256 .f32 := iblk2 V c 1 t
abbrev ablk2 (c : Dev nD) (t : Fin cfg2.N) : Vec F S512x4096 .f32 := iblk2 V c 2 t
abbrev wblk2 (c : Dev nD) (t : Fin cfg2.N) : Vec F S256x256 .f32 := iblk2 V c 3 t
abbrev bblk2 (c : Dev nD) (t : Fin cfg2.N) : Vec F S1x256 .f32 := iblk2 V c 4 t
abbrev gblk2 (c : Dev nD) (t : Fin cfg2.N) : Vec F S1x256 .f32 := iblk2 V c 5 t
abbrev tblk2 (c : Dev nD) (t : Fin cfg2.N) : Vec F S1x256 .f32 := iblk2 V c 6 t

def outsAt2 (c : Dev nD) : (n : ℕ) → n < cfg2.N → Out F
  | 0, h => first1 (hblk2 V c ⟨0, h⟩) (sblk2 V c ⟨0, h⟩) (ablk2 V c ⟨0, h⟩) (wblk2 V c ⟨0, h⟩) (bblk2 V c ⟨0, h⟩) (gblk2 V c ⟨0, h⟩) (tblk2 V c ⟨0, h⟩)
  | n + 1, h => next1 (ablk2 V c ⟨n + 1, h⟩) (outsAt2 c n (Nat.lt_of_succ_lt h))

theorem outsAt2_zero (c : Dev nD) (h : 0 < cfg2.N) :
    outsAt2 V c 0 h = first1 (hblk2 V c ⟨0, h⟩) (sblk2 V c ⟨0, h⟩) (ablk2 V c ⟨0, h⟩) (wblk2 V c ⟨0, h⟩) (bblk2 V c ⟨0, h⟩) (gblk2 V c ⟨0, h⟩) (tblk2 V c ⟨0, h⟩) := rfl
theorem outsAt2_succ (c : Dev nD) (n : ℕ) (h : n + 1 < cfg2.N) :
    outsAt2 V c (n + 1) h = next1 (ablk2 V c ⟨n + 1, h⟩) (outsAt2 V c n (Nat.lt_of_succ_lt h)) := rfl

abbrev scM2_0 : Memref sig .tc .vmem S4096x256 .bf16 := Memref.whole cc2_scratch0
abbrev scM2_1 : Memref sig .tc .vmem S4096x256 .bf16 := Memref.whole cc2_scratch1
abbrev scM2_2 : Memref sig .tc .vmem S8x256 .f32 := Memref.whole cc2_scratch2

def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).yh
        ∗ owns (c : Thread nD τ) scM2_1 fullShare (outsAt2 V c n hn).yl
        ∗ owns (c : Thread nD τ) scM2_2 fullShare (outsAt2 V c n hn).corr)
      ∗ Pipeline.scopedRestBut (Ix := Unit) (Name := ℕ) (U := UR sig nD τ) (Lvl := ℕ) (Val := Elt F) spec2 c [cc2_scratch0, cc2_scratch1, cc2_scratch2])
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).r
    | ⟨8, _⟩ => (outsAt2 V c t.val t.isLt).st
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).r := by dsimp only [dat2]
theorem after2_8 (c : Dev nD) (t : Fin cfg2.N) : (dat2 V c).after 8 t = (outsAt2 V c t.val t.isLt).st := by dsimp only [dat2]

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rblk3 (c : Dev nD) (t : Fin cfg3.N) : Vec F S4096x256 .f32 := iblk3 V c 0 t
abbrev sblk3 (c : Dev nD) (t : Fin cfg3.N) : Vec F S8x256 .f32 := iblk3 V c 1 t
abbrev gblk3 (c : Dev nD) (t : Fin cfg3.N) : Vec F S1x256 .f32 := iblk3 V c 2 t
abbrev tblk3 (c : Dev nD) (t : Fin cfg3.N) : Vec F S1x256 .f32 := iblk3 V c 3 t

def out3 (r : Vec F S4096x256 .f32) (s : Vec F S8x256 .f32) (g bt : Vec F S1x256 .f32) : Vec F S4096x256 .f32 :=
  k3_pay1 (View.ld s rowRect0) (View.ld s rowRect1) g bt r

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (rblk3 V c t) (sblk3 V c t) (gblk3 V c t) (tblk3 V c t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_4 (c : Dev nD) (t : Fin cfg3.N) : (dat3 V c).after 4 t = out3 (rblk3 V c t) (sblk3 V c t) (gblk3 V c t) (tblk3 V c t) := by dsimp only [dat3]

end Cert.Kernel.Hand

end
-- ==== Proof.K.Reg0Runs.lean ====
import proofs.«163270_g1194000908387_cont_fleet_524_12_alg».proof.Proof.K.Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1
theorem hcond0_1 : ∀ t : Fin cfg0.N, cond0_1 (grid0.coords t) ↔ t.val = 0 :=
  (by decide +kernel : ∀ t : Fin grid0.N, cond0_1 (grid0.coords t) ↔ t.val = 0)

abbrev cond0_2 (i : grid0.Coords) : Prop := k0_cond3 i = 1#1
theorem hcond0_2 : ∀ t : Fin cfg0.N, cond0_2 (grid0.coords t) ↔ t.val ≠ 0 :=
  (by decide +kernel : ∀ t : Fin grid0.N, cond0_2 (grid0.coords t) ↔ t.val ≠ 0)

theorem liveAt0_7 : ∀ t : Fin cfg0.N, cfg0.idle 7 (grid0.coords t) = false := by decide +kernel
theorem liveAt0_8 : ∀ t : Fin cfg0.N, cfg0.idle 8 (grid0.coords t) = false := by decide +kernel
theorem liveAll0_8 : ∀ i : grid0.Coords, cfg0.idle 8 i = false := by decide +kernel

abbrev ms0_0 (t : Fin cfg0.N) : Memref sig .tc .vmem S4096x256 .f32 := win0_0.stage (cfg0.slots t 0)
abbrev ms0_1 (t : Fin cfg0.N) : Memref sig .tc .vmem S8x256 .f32 := win0_1.stage (cfg0.slots t 1)
abbrev ms0_2 (t : Fin cfg0.N) : Memref sig .tc .vmem S512x4096 .f32 := win0_2.stage (cfg0.slots t 2)
abbrev ms0_3 (t : Fin cfg0.N) : Memref sig .tc .vmem S256x256 .f32 := win0_3.stage (cfg0.slots t 3)
abbrev ms0_4 (t : Fin cfg0.N) : Memref sig .tc .vmem S1x256 .f32 := win0_4.stage (cfg0.slots t 4)
abbrev ms0_5 (t : Fin cfg0.N) : Memref sig .tc .vmem S1x256 .f32 := win0_5.stage (cfg0.slots t 5)
abbrev ms0_6 (t : Fin cfg0.N) : Memref sig .tc .vmem S1x256 .f32 := win0_6.stage (cfg0.slots t 6)
abbrev ms0_7 (t : Fin cfg0.N) : Memref sig .tc .vmem S512x256 .f32 := win0_7.stage (cfg0.slots t 7)
abbrev ms0_8 (t : Fin cfg0.N) : Memref sig .tc .vmem S8x256 .f32 := win0_8.stage (cfg0.slots t 8)

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d
theorem before0_6 (c : Dev nD) (t : Fin cfg0.N) (d) : (dat0 V c).before 6 t d = iblk0 V c 6 t :=
  (dat0 V c).before_in_eq_fetched 6 rfl (fun _ => rfl) (fun _ _ _ => rfl) (fun _ => rfl) t d

theorem before0_8_B (c : Dev nD) (n : ℕ) (hn : n + 1 < cfg0.N) (d) :
    (dat0 V c).before 8 ⟨n + 1, hn⟩ d = (outsAt0 V c n (Nat.lt_of_succ_lt hn)).st := by
  have hN : n + 1 < 8 := lt_of_lt_of_eq hn (show cfg0.N = 8 from N_0)
  rw [Dat.before_out_kept _ 8 rfl ⟨n + 1, hn⟩ (Nat.succ_ne_zero n)
    (Bool.eq_false_iff.mpr fun h => by have := (flush0_8 _).mp h; dsimp only at this; omega)
    liveAll0_8 (fun _ _ => rfl)]
  rw [after0_8]
  simp only [Nat.add_sub_cancel]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d))
          ∗ Pipeline.scopedRestBut (Ix := Unit) (Name := ℕ) (U := UR sig nD τ) (Lvl := ℕ) (Val := Elt F) spec0 c [cc0_scratch0, cc0_scratch1, cc0_scratch2])
        ∗ (∃ r, prngReg c r)) := by
  unfold Pipeline.ΦA; rw [scopedRest0_split]; simp only [scM0_0, scM0_1, scM0_2, owns_whole]; try rfl

theorem PhiS0_zero (c : Dev nD) (h : 0 ≤ cfg0.N) : PhiS0 V c 0 h = Pipeline.ΦA spec0 c := rfl

theorem PhiS0_succ (c : Dev nD) (n : ℕ) (hn : n < cfg0.N) :
    PhiS0 V c (n + 1) hn = iprop(iprop(iprop(owns (c : Thread nD τ) scM0_0 fullShare (outsAt0 V c n hn).yh
        ∗ owns (c : Thread nD τ) scM0_1 fullShare (outsAt0 V c n hn).yl
        ∗ owns (c : Thread nD τ) scM0_2 fullShare (outsAt0 V c n hn).corr)
      ∗ Pipeline.scopedRestBut (Ix := Unit) (Name := ℕ) (U := UR sig nD τ) (Lvl := ℕ) (Val := Elt F) spec0 c [cc0_scratch0, cc0_scratch1, cc0_scratch2])
      ∗ (∃ r, prngReg c r)) := rfl

theorem PhiS0_pos_out (c : Dev nD) (n : ℕ) (h : n ≤ cfg0.N) (hz : n ≠ 0) : PhiS0 V c n h ⊢ (Pipeline.ΦA spec0 c : sProp 𝕄) := by
  cases n with
  | zero => exact absurd rfl hz
  | succ n =>
    rw [PhiS0_succ, PhiA0_eq]
    iintro ⟨⟨⟨H0, H1, H2⟩, Hr⟩, Hg⟩
    iframe Hr Hg
    isplitl [H0]; · iexists _; iexact H0
    isplitl [H1]; · iexists _; iexact H1
    iexists _; iexact H2

end Cert.Kernel.Hand

end
-- ==== Proof.K.Reg0RunA.lean ====
import proofs.«163270_g1194000908387_cont_fleet_524_12_alg».proof.Proof.K.Reg0Runs
import Idealize.ShloMosaic.Lib.Pipeline.TableIdle
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz0 : (![0, 0] : Fin 2 → Nat) = fun _ => 0 := funext fun a => by fin_cases a <;> rfl

theorem readCov_whole_ld0 {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩), View.canon_unit_zero h]

set_option maxHeartbeats 1000000 in
theorem kernelRun0_A (c : Dev nD) (i : grid0.Coords) (arg1 : Memref sig .tc .vmem S4096x256 .f32) (harg1 : arg1.IsWhole) (arg2 : Memref sig .tc .vmem S8x256 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S8x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S8x256 .f32) (harg12 : arg12.IsWhole) (hc0 : cond0_0 i) (hc1 : cond0_1 i) (hc2 : ¬cond0_2 i)
    (x0 : Vec F S4096x256 .f32) (x1 : Vec F S8x256 .f32) (x2 : Vec F S512x4096 .f32) (x3 : Vec F S256x256 .f32) (x4 : Vec F S1x256 .f32) (x5 : Vec F S1x256 .f32) (x6 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay6 x2 (k0_pay3 x0 x3) (k0_pay4 x0 x3) (View.ld (k0_pay5 x0 x3 x4) rowRect0)) ∗ owns (c : Thread nD τ) arg9 fullShare (k0_pay7 x2 (k0_pay3 x0 x3) (k0_pay4 x0 x3) (View.ld (k0_pay5 x0 x3 x4) rowRect0)) ∗ owns (c : Thread nD τ) arg10 fullShare (k0_pay3 x0 x3) ∗ owns (c : Thread nD τ) arg11 fullShare (k0_pay4 x0 x3) ∗ owns (c : Thread nD τ) arg12 fullShare (k0_pay5 x0 x3 x4)) -∗ K ⟨⟩))
      ⊢ wp frame (wpE (defs₀ (F := F)) Variants.none c none) E (cc0__layer_body i arg1 harg1 arg2 harg2 arg3 harg3 arg4 harg4 arg5 harg5 arg6 harg6 arg7 harg7 arg8 harg8 arg9 harg9 arg10 harg10 arg11 harg11 arg12 harg12) K := by
  simp only [cc0__layer_body_eq_skeleton]; unfold cc0__layer_body_skel
  simp only [owns_eq_rep (c : Thread nD τ) arg1, owns_eq_rep (c : Thread nD τ) arg2, owns_eq_rep (c : Thread nD τ) arg3, owns_eq_rep (c : Thread nD τ) arg4, owns_eq_rep (c : Thread nD τ) arg5, owns_eq_rep (c : Thread nD τ) arg6, owns_eq_rep (c : Thread nD τ) arg7]
  unfold owns
  iintro ⟨H0, H1, H2, H3, H4, H5, H6, ⟨%d7, %f7, -, H7⟩, ⟨%d8, %f8, -, H8⟩, ⟨%d9, %f9, -, H9⟩, ⟨%d10, %f10, -, H10⟩, ⟨%d11, %f11, -, H11⟩, Hk⟩
  sl_exec (disch := first | exact hc0 | exact hc1 | exact hc2)
  sl_step
  iapply Hk
  iframe H0 H1 H2 H3 H4 H5 H6
  isplitl [H7]
  · iexists _; isplitr; swap; · iexact H7
    ipureintro
    refine (View.read_writes_eq_canon _ _ _ (View.cover_of_tiledL _ S512x256.size (by sl_kernel_rfl))).trans ?_
    sl_unfold_words
    rw [View.canon_unit_zero (S := S512x256) hz0]
    simp only [View.readAt_eq_ld, View.read_rep,
      View.readCov_unit_zero (S := S4096x256) _ hz0, readCov_whole_ld0 (S := S8x256) _ hz0,
      View.ld_unit_zero (S := S4096x256) hz0, View.ld_unit_zero (S := S256x256) hz0, View.ld_unit_zero (S := S1x256) hz0, View.ld_unit_zero (S := S512x4096) hz0]
  isplitl [H8]
  · iexists _; isplitr; swap; · iexact H8
    ipureintro
    refine (View.read_writes_eq_canon _ _ _ (View.cover_of_tiledL _ S8x256.size (by sl_kernel_rfl))).trans ?_
    sl_unfold_words
    rw [View.canon_unit_zero (S := S8x256) hz0]
    simp only [View.readAt_eq_ld, View.read_rep,
      View.readCov_unit_zero (S := S4096x256) _ hz0, readCov_whole_ld0 (S := S8x256) _ hz0,
      View.ld_unit_zero (S := S4096x256) hz0, View.ld_unit_zero (S := S256x256) hz0, View.ld_unit_zero (S := S1x256) hz0, View.ld_unit_zero (S := S512x4096) hz0]
  isplitl [H9]
  · iexists _; isplitr; swap; · iexact H9
    ipureintro
    refine (View.read_writes_eq_canon _ _ _ (View.cover_of_tiledL _ S4096x256.size (by sl_kernel_rfl))).trans ?_
    sl_unfold_words
    rw [View.canon_unit_zero (S := S4096x256) hz0]
    simp only [View.readAt_eq_ld, View.read_rep,
      View.ld_unit_zero (S := S4096x256) hz0, View.ld_unit_zero (S := S256x256) hz0]
  isplitl [H10]
  · iexists _; isplitr; swap; · iexact H10
    ipureintro
    refine (View.read_writes_eq_canon _ _ _ (View.cover_of_tiledL _ S4096x256.size (by sl_kernel_rfl))).trans ?_
    sl_unfold_words
    rw [View.canon_unit_zero (S := S4096x256) hz0]
    simp only [View.readAt_eq_ld, View.read_rep,
      View.ld_unit_zero (S := S4096x256) hz0, View.ld_unit_zero (S := S256x256) hz0]
  iexists _; isplitr; swap; · iexact H11
  ipureintro
  refine (View.read_writes_eq_canon _ _ _ (View.cover_of_tiledL _ S8x256.size (by sl_kernel_rfl))).trans ?_
  sl_unfold_words
  rw [View.canon_unit_zero (S := S8x256) hz0]
  simp only [View.readAt_eq_ld, View.read_rep,
    View.ld_unit_zero (S := S4096x256) hz0, View.ld_unit_zero (S := S256x256) hz0, View.ld_unit_zero (S := S1x256) hz0]

end Cert.Kernel.Hand

end
-- ==== Proof.K.Reg0RunB.lean ====
import proofs.«163270_g1194000908387_cont_fleet_524_12_alg».proof.Proof.K.Reg0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
theorem kernelRun0_B (c : Dev nD) (i : grid0.Coords) (arg1 : Memref sig .tc .vmem S4096x256 .f32) (harg1 : arg1.IsWhole) (arg2 : Memref sig .tc .vmem S8x256 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S8x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S8x256 .f32) (harg12 : arg12.IsWhole) (hc0 : ¬cond0_0 i) (hc1 : ¬cond0_1 i) (hc2 : cond0_2 i)
    (x0 : Vec F S4096x256 .f32) (x1 : Vec F S8x256 .f32) (x2 : Vec F S512x4096 .f32) (x3 : Vec F S256x256 .f32) (x4 : Vec F S1x256 .f32) (x5 : Vec F S1x256 .f32) (x6 : Vec F S1x256 .f32) (xo8 : Vec F S8x256 .f32) (xs0 : Vec F S4096x256 .bf16) (xs1 : Vec F S4096x256 .bf16) (xs2 : Vec F S8x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xs0 ∗ owns (c : Thread nD τ) arg11 fullShare xs1 ∗ owns (c : Thread nD τ) arg12 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay6 x2 xs0 xs1 (View.ld xs2 rowRect0)) ∗ owns (c : Thread nD τ) arg9 fullShare (k0_pay8 x2 xs0 xs1 (View.ld xs2 rowRect0) xo8) ∗ owns (c : Thread nD τ) arg10 fullShare xs0 ∗ owns (c : Thread nD τ) arg11 fullShare xs1 ∗ owns (c : Thread nD τ) arg12 fullShare xs2) -∗ K ⟨⟩))
      ⊢ wp frame (wpE (defs₀ (F := F)) Variants.none c none) E (cc0__layer_body i arg1 harg1 arg2 harg2 arg3 harg3 arg4 harg4 arg5 harg5 arg6 harg6 arg7 harg7 arg8 harg8 arg9 harg9 arg10 harg10 arg11 harg11 arg12 harg12) K := by
  simp only [cc0__layer_body_eq_skeleton]; unfold cc0__layer_body_skel
  simp only [owns_eq_rep (c : Thread nD τ) arg1, owns_eq_rep (c : Thread nD τ) arg2, owns_eq_rep (c : Thread nD τ) arg3, owns_eq_rep (c : Thread nD τ) arg4, owns_eq_rep (c : Thread nD τ) arg5, owns_eq_rep (c : Thread nD τ) arg6, owns_eq_rep (c : Thread nD τ) arg7, owns_eq_rep (c : Thread nD τ) arg10, owns_eq_rep (c : Thread nD τ) arg11, owns_eq_rep (c : Thread nD τ) arg12, owns_eq_rep (c : Thread nD τ) arg9 fullShare xo8]
  unfold owns
  iintro ⟨H0, H1, H2, H3, H4, H5, H6, ⟨%d7, %f7, -, H7⟩, H8, H9, H10, H11, Hk⟩
  sl_exec (disch := first | exact hc0 | exact hc1 | exact hc2)
  sl_step
  iapply Hk
  iframe H0 H1 H2 H3 H4 H5 H6 H9 H10 H11
  isplitl [H7]
  · iexists _; isplitr; swap; · iexact H7
    ipureintro
    refine (View.read_writes_eq_canon _ _ _ (View.cover_of_tiledL _ S512x256.size (by sl_kernel_rfl))).trans ?_
    sl_unfold_words
    rw [View.canon_unit_zero (S := S512x256) hz0]
    simp only [View.readAt_eq_ld, View.read_rep,
      View.ld_unit_zero (S := S512x4096) hz0, View.ld_unit_zero (S := S4096x256) hz0]
  iexists _; isplitr; swap; · iexact H8
  ipureintro
  refine (View.read_writes_eq_canon _ _ _ (View.cover_of_tiledL _ S8x256.size (by sl_kernel_rfl))).trans ?_
  sl_unfold_words
  rw [View.canon_unit_zero (S := S8x256) hz0]
  simp only [View.readAt_eq_ld, View.read_rep,
    View.ld_unit_zero (S := S512x4096) hz0, View.ld_unit_zero (S := S4096x256) hz0, View.ld_unit_zero (S := S8x256) hz0]

end Cert.Kernel.Hand

end
-- ==== Proof.K.Reg0.lean ====
import proofs.«163270_g1194000908387_cont_fleet_524_12_alg».proof.Proof.K.Defs
import proofs.«163270_g1194000908387_cont_fleet_524_12_alg».proof.Proof.K.Reg0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem leaves0 (c : Dev nD) (t : Fin cfg0.N) (w : Fin cfg0.W) (h : cfg0.idle w (grid0.coords t) = false) :
    (dat0 V c).leavesExact w t = owns (c : Thread nD τ) ((cfg0.win w).stage (cfg0.slots t w)) fullShare ((dat0 V c).after w t) := by
  unfold Dat.leavesExact; rw [h]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (ms0_0 t) fullShare (iblk0 V c 0 t)
    ∗ owns (c : Thread nD τ) (ms0_1 t) fullShare (iblk0 V c 1 t)
    ∗ owns (c : Thread nD τ) (ms0_2 t) fullShare (iblk0 V c 2 t)
    ∗ owns (c : Thread nD τ) (ms0_3 t) fullShare (iblk0 V c 3 t)
    ∗ owns (c : Thread nD τ) (ms0_4 t) fullShare (iblk0 V c 4 t)
    ∗ owns (c : Thread nD τ) (ms0_5 t) fullShare (iblk0 V c 5 t)
    ∗ owns (c : Thread nD τ) (ms0_6 t) fullShare (iblk0 V c 6 t)
    ∗ (dat0 V c).leavesExact 7 t
    ∗ (dat0 V c).leavesExact 8 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    leaves0 V c t 7 (liveAt0_7 t), after0_7, leaves0 V c t 8 (liveAt0_8 t), after0_8]
  obtain ⟨n, hn⟩ := t
  cases n with
  | zero =>
    rw [show (dat0 V c).Φ (Fin.castSucc ⟨0, hn⟩) = Pipeline.ΦA spec0 c from rfl, PhiA0_eq,
      show (dat0 V c).Φ (Fin.succ ⟨0, hn⟩) = PhiS0 V c (0 + 1) hn from rfl, PhiS0_succ]
    dsimp only
    rw [outsAt0_zero]
    dsimp only [first0]
    iintro ⟨⟨⟨⟨S0, S1, S2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (kernelRun0_A c (grid0.coords ⟨0, hn⟩) _ _ _ _ _ _ _ _ _ _ _ _ _ _ _ _ _ _ _ _ _ _ _ _ ((hcond0_0 ⟨0, hn⟩).mpr rfl) ((hcond0_1 ⟨0, hn⟩).mpr rfl) (fun h => (hcond0_2 ⟨0, hn⟩).mp h rfl)
      (hblk0 V c ⟨0, hn⟩) (sblk0 V c ⟨0, hn⟩) (ablk0 V c ⟨0, hn⟩) (wblk0 V c ⟨0, hn⟩) (bblk0 V c ⟨0, hn⟩) (gblk0 V c ⟨0, hn⟩) (tblk0 V c ⟨0, hn⟩) Set.univ _)
    iframe H0 H1 H2 H3 H4 H5 H6 S0 S1 S2
    isplitl [H7]; · iexists _; iexact H7
    isplitl [H8]; · iexists _; iexact H8
    iintro ⟨H0, H1, H2, H3, H4, H5, H6, H7, H8, S0, S1, S2⟩
    iframe
  | succ n =>
    simp only [before0_8_B]
    rw [show (dat0 V c).Φ (Fin.castSucc ⟨n + 1, hn⟩) = PhiS0 V c (n + 1) (Nat.lt_of_succ_lt hn) from rfl, PhiS0_succ,
      show (dat0 V c).Φ (Fin.succ ⟨n + 1, hn⟩) = PhiS0 V c (n + 1 + 1) hn from rfl, PhiS0_succ]
    dsimp only
    rw [outsAt0_succ]
    dsimp only [next0]
    iintro ⟨⟨⟨⟨S0, S1, S2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (kernelRun0_B c (grid0.coords ⟨n + 1, hn⟩) _ _ _ _ _ _ _ _ _ _ _ _ _ _ _ _ _ _ _ _ _ _ _ _ (fun h => Nat.succ_ne_zero n ((hcond0_0 ⟨n + 1, hn⟩).mp h)) (fun h => Nat.succ_ne_zero n ((hcond0_1 ⟨n + 1, hn⟩).mp h)) ((hcond0_2 ⟨n + 1, hn⟩).mpr (Nat.succ_ne_zero n))
      (hblk0 V c ⟨n + 1, hn⟩) (sblk0 V c ⟨n + 1, hn⟩) (ablk0 V c ⟨n + 1, hn⟩) (wblk0 V c ⟨n + 1, hn⟩) (bblk0 V c ⟨n + 1, hn⟩) (gblk0 V c ⟨n + 1, hn⟩) (tblk0 V c ⟨n + 1, hn⟩)
      (outsAt0 V c n (Nat.lt_of_succ_lt hn)).st (outsAt0 V c n (Nat.lt_of_succ_lt hn)).yh (outsAt0 V c n (Nat.lt_of_succ_lt hn)).yl (outsAt0 V c n (Nat.lt_of_succ_lt hn)).corr Set.univ _)
    iframe H0 H1 H2 H3 H4 H5 H6 H8 S0 S1 S2
    isplitl [H7]; · iexists _; iexact H7
    iintro ⟨H0, H1, H2, H3, H4, H5, H6, H7, H8, S0, S1, S2⟩
    iframe

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero]
  try exact Idealize.SL.BI.Entails.refl _

theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl]
  exact PhiS0_pos_out V c _ _ (by rw [Fin.val_last]; have : cfg0.N = 8 := N_0; omega)

end Cert.Kernel.Hand

end
-- ==== Proof.K.Reg1Runs.lean ====
import proofs.«163270_g1194000908387_cont_fleet_524_12_alg».proof.Proof.K.Defs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 0).val) 0#32)) 0#32) = 1#1
theorem hcond1_0 : ∀ t : Fin grid1.N, cond1_0 (grid1.coords t) ↔ t.val = 0 := by decide +kernel

abbrev cond1_1 (i : grid1.Coords) : Prop := k1_cond2 i = 1#1
theorem hcond1_1 : ∀ t : Fin grid1.N, cond1_1 (grid1.coords t) ↔ t.val = 0 := by decide +kernel

abbrev cond1_2 (i : grid1.Coords) : Prop := k1_cond3 i = 1#1
theorem hcond1_2 : ∀ t : Fin grid1.N, cond1_2 (grid1.coords t) ↔ t.val ≠ 0 := by decide +kernel

theorem live1 : ∀ (w : Fin cfg1.W) (i : grid1.Coords), cfg1.idle w i = false := by decide +kernel

theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t)
    ∧ (∀ d, (dat1 V c).before 6 t d = iblk1 V c 6 t) := by
  refine ⟨?_, ?_, ?_, ?_, ?_, ?_, ?_⟩ <;> intro d <;>
  exact (dat1 V c).before_in_eq_fetched _ rfl (live1 _) (fun _ _ _ => rfl) (fun _ => rfl) t d

theorem before1_8_B (c : Dev nD) (t : Fin cfg1.N) (hz : t.val ≠ 0) (d) :
    (dat1 V c).before 8 t d = (outsAt1 V c (t.val - 1) (Nat.lt_of_le_of_lt (Nat.sub_le _ _) t.isLt)).st := by
  have hN : t.val < 8 := lt_of_lt_of_eq t.isLt (show cfg1.N = 8 from N_1)
  rw [Dat.before_out_kept _ 8 rfl t hz (Bool.eq_false_iff.mpr fun h => by have := (flush1_8 _).mp h; dsimp only at this; omega)
    (live1 8) (fun _ _ => rfl)]
  dsimp only [dat1]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2])
          ∗ (∃ r, prngReg c r)) := by
  unfold Pipeline.ΦA; rw [scopedRest1_split]; simp only [scM1_0, scM1_1, scM1_2, owns_whole]; try rfl

end Cert.Kernel.Hand

end
-- ==== Proof.K.Reg1RunA.lean ====
import proofs.«163270_g1194000908387_cont_fleet_524_12_alg».proof.Proof.K.Reg1Runs
import Idealize.ShloMosaic.Lib.Pipeline.Value
import Idealize.ShloMosaic.Lib.Pipeline.TableIdle

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

theorem hzero1 : (![0, 0] : Fin 2 → Nat) = fun _ => 0 := funext fun a => by fin_cases a <;> rfl

-- One store through the whole-buffer rectangle covers the buffer: it reads back as the payload, whatever was there.
theorem stored1 {s : Shape} {e : EltTy} (v : View sig .tc .vmem s e) (f : v.ty.Contents (Elt F)) {off : Fin s.rank → Nat} (h : off = fun _ => 0) (inb) (w : Vec F s e) :
    v.read (Elt F) (v.writes (Elt F) f [⟨Rect.unit off s.size inb, w⟩]) = w := by
  rw [View.read_writes_eq_canon _ _ _ fun y => ⟨_, List.mem_singleton_self _, View.mem_set_unit_zero h inb y⟩, View.canon_unit_zero h]

set_option maxHeartbeats 4000000 in
-- At the first point the body keeps its seven inputs and fills the five written buffers with what `first1` names.
theorem kernelRun1_A (c : Dev nD) (i : grid1.Coords)
    (mh : Memref sig .tc .vmem S4096x256 .f32) (wh : mh.IsWhole) (ms : Memref sig .tc .vmem S8x256 .f32) (ws : ms.IsWhole)
    (ma : Memref sig .tc .vmem S512x4096 .f32) (wa : ma.IsWhole) (mw : Memref sig .tc .vmem S256x256 .f32) (ww : mw.IsWhole)
    (mb : Memref sig .tc .vmem S1x256 .f32) (wb : mb.IsWhole) (mg : Memref sig .tc .vmem S1x256 .f32) (wg : mg.IsWhole)
    (mt : Memref sig .tc .vmem S1x256 .f32) (wt : mt.IsWhole)
    (mr : Memref sig .tc .vmem S512x256 .f32) (wr : mr.IsWhole) (mq : Memref sig .tc .vmem S8x256 .f32) (wq : mq.IsWhole)
    (mu : Memref sig .tc .vmem S4096x256 .bf16) (wu : mu.IsWhole) (mv : Memref sig .tc .vmem S4096x256 .bf16) (wv : mv.IsWhole)
    (mz : Memref sig .tc .vmem S8x256 .f32) (wz : mz.IsWhole)
    (hcp : cond1_0 i) (hcq : cond1_1 i) (hcr : ¬cond1_2 i)
    (xh : Vec F S4096x256 .f32) (xs : Vec F S8x256 .f32) (xa : Vec F S512x4096 .f32) (xw : Vec F S256x256 .f32)
    (xb xg xt : Vec F S1x256 .f32) (E : Set ℕ) (K : PUnit → sProp 𝕄) :
    iprop(owns (c : Thread nD τ) mh fullShare xh ∗ owns (c : Thread nD τ) ms fullShare xs ∗ owns (c : Thread nD τ) ma fullShare xa
        ∗ owns (c : Thread nD τ) mw fullShare xw ∗ owns (c : Thread nD τ) mb fullShare xb ∗ owns (c : Thread nD τ) mg fullShare xg
        ∗ owns (c : Thread nD τ) mt fullShare xt
        ∗ (∃ d, owns (c : Thread nD τ) mr fullShare d) ∗ (∃ d, owns (c : Thread nD τ) mq fullShare d)
        ∗ (∃ d, owns (c : Thread nD τ) mu fullShare d) ∗ (∃ d, owns (c : Thread nD τ) mv fullShare d) ∗ (∃ d, owns (c : Thread nD τ) mz fullShare d)
        ∗ (iprop(owns (c : Thread nD τ) mh fullShare xh ∗ owns (c : Thread nD τ) ms fullShare xs ∗ owns (c : Thread nD τ) ma fullShare xa
        ∗ owns (c : Thread nD τ) mw fullShare xw ∗ owns (c : Thread nD τ) mb fullShare xb ∗ owns (c : Thread nD τ) mg fullShare xg
        ∗ owns (c : Thread nD τ) mt fullShare xt
            ∗ owns (c : Thread nD τ) mr fullShare (first1 xh xs xa xw xb xg xt).r ∗ owns (c : Thread nD τ) mq fullShare (first1 xh xs xa xw xb xg xt).st
            ∗ owns (c : Thread nD τ) mu fullShare (first1 xh xs xa xw xb xg xt).yh ∗ owns (c : Thread nD τ) mv fullShare (first1 xh xs xa xw xb xg xt).yl
            ∗ owns (c : Thread nD τ) mz fullShare (first1 xh xs xa xw xb xg xt).corr) -∗ K ⟨⟩))
      ⊢ wp frame (wpE (defs₀ (F := F)) Variants.none c none) E (cc1__layer_body i mh wh ms ws ma wa mw ww mb wb mg wg mt wt mr wr mq wq mu wu mv wv mz wz) K := by
  simp only [cc1__layer_body_eq_skeleton]; unfold cc1__layer_body_skel
  simp only [k1_part1_eq_skeleton, owns_eq_rep]
  iintro ⟨Hh, Hs, Ha, Hw, Hb, Hg, Ht, ⟨%dr, Hr⟩, ⟨%dq, Hq⟩, ⟨%du, Hu⟩, ⟨%dv, Hv⟩, ⟨%dz, Hz⟩, Hk⟩
  sl_exec (disch := first | exact hcp | exact hcq | exact hcr)
  sl_step
  iapply Hk
  iframe Hh Hs Ha Hw Hb Hg Ht
  sl_unfold_words
  rw [View.readCov_unit_zero (S := S4096x256) mu.view hzero1, View.readCov_unit_zero (S := S4096x256) mv.view hzero1,
    View.readCov_eq_canon', View.canon_unit_zero (S := S8x256) hzero1]
  simp only [← owns_eq_rep, View.readAt_eq_ld, View.read_rep, View.ld_unit_zero (S := S4096x256) hzero1, View.ld_unit_zero (S := S512x4096) hzero1,
    View.ld_unit_zero (S := S256x256) hzero1, View.ld_unit_zero (S := S1x256) hzero1]
  unfold owns
  isplitl [Hr]; rotate_left
  isplitl [Hq]; rotate_left
  isplitl [Hu]; rotate_left
  isplitl [Hv]; rotate_left
  all_goals
    iexists _; isplitr; swap; · iassumption
    ipureintro; exact stored1 _ _ hzero1 _ _

end Cert.Kernel.Hand

end
-- ==== Proof.K.Reg1RunB.lean ====
import proofs.«163270_g1194000908387_cont_fleet_524_12_alg».proof.Proof.K.Reg1RunA

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 4000000 in
-- At a later point the body keeps its inputs and the three scratch buffers and leaves what `next1` names of the point before.
theorem kernelRun1_B (c : Dev nD) (i : grid1.Coords)
    (mh : Memref sig .tc .vmem S4096x256 .f32) (wh : mh.IsWhole) (ms : Memref sig .tc .vmem S8x256 .f32) (ws : ms.IsWhole)
    (ma : Memref sig .tc .vmem S512x4096 .f32) (wa : ma.IsWhole) (mw : Memref sig .tc .vmem S256x256 .f32) (ww : mw.IsWhole)
    (mb : Memref sig .tc .vmem S1x256 .f32) (wb : mb.IsWhole) (mg : Memref sig .tc .vmem S1x256 .f32) (wg : mg.IsWhole)
    (mt : Memref sig .tc .vmem S1x256 .f32) (wt : mt.IsWhole)
    (mr : Memref sig .tc .vmem S512x256 .f32) (wr : mr.IsWhole) (mq : Memref sig .tc .vmem S8x256 .f32) (wq : mq.IsWhole)
    (mu : Memref sig .tc .vmem S4096x256 .bf16) (wu : mu.IsWhole) (mv : Memref sig .tc .vmem S4096x256 .bf16) (wv : mv.IsWhole)
    (mz : Memref sig .tc .vmem S8x256 .f32) (wz : mz.IsWhole)
    (hcp : ¬cond1_0 i) (hcq : ¬cond1_1 i) (hcr : cond1_2 i)
    (xh : Vec F S4096x256 .f32) (xs : Vec F S8x256 .f32) (xa : Vec F S512x4096 .f32) (xw : Vec F S256x256 .f32)
    (xb xg xt : Vec F S1x256 .f32) (p : Out F) (E : Set ℕ) (K : PUnit → sProp 𝕄) :
    iprop(owns (c : Thread nD τ) mh fullShare xh ∗ owns (c : Thread nD τ) ms fullShare xs ∗ owns (c : Thread nD τ) ma fullShare xa
        ∗ owns (c : Thread nD τ) mw fullShare xw ∗ owns (c : Thread nD τ) mb fullShare xb ∗ owns (c : Thread nD τ) mg fullShare xg
        ∗ owns (c : Thread nD τ) mt fullShare xt
        ∗ (∃ d, owns (c : Thread nD τ) mr fullShare d) ∗ owns (c : Thread nD τ) mq fullShare p.st
        ∗ owns (c : Thread nD τ) mu fullShare p.yh ∗ owns (c : Thread nD τ) mv fullShare p.yl ∗ owns (c : Thread nD τ) mz fullShare p.corr
        ∗ (iprop(owns (c : Thread nD τ) mh fullShare xh ∗ owns (c : Thread nD τ) ms fullShare xs ∗ owns (c : Thread nD τ) ma fullShare xa
        ∗ owns (c : Thread nD τ) mw fullShare xw ∗ owns (c : Thread nD τ) mb fullShare xb ∗ owns (c : Thread nD τ) mg fullShare xg
        ∗ owns (c : Thread nD τ) mt fullShare xt
            ∗ owns (c : Thread nD τ) mr fullShare (next1 xa p).r ∗ owns (c : Thread nD τ) mq fullShare (next1 xa p).st
            ∗ owns (c : Thread nD τ) mu fullShare (next1 xa p).yh ∗ owns (c : Thread nD τ) mv fullShare (next1 xa p).yl
            ∗ owns (c : Thread nD τ) mz fullShare (next1 xa p).corr) -∗ K ⟨⟩))
      ⊢ wp frame (wpE (defs₀ (F := F)) Variants.none c none) E (cc1__layer_body i mh wh ms ws ma wa mw ww mb wb mg wg mt wt mr wr mq wq mu wu mv wv mz wz) K := by
  simp only [cc1__layer_body_eq_skeleton]; unfold cc1__layer_body_skel
  simp only [k1_part1_eq_skeleton, owns_eq_rep]
  dsimp only [next1]
  iintro ⟨Hh, Hs, Ha, Hw, Hb, Hg, Ht, ⟨%dr, Hr⟩, Hq, Hu, Hv, Hz, Hk⟩
  sl_exec (disch := first | exact hcp | exact hcq | exact hcr)
  sl_step
  iapply Hk
  iframe Hh Hs Ha Hw Hb Hg Ht Hu Hv Hz
  sl_unfold_words
  simp only [← owns_eq_rep, View.readAt_eq_ld, View.read_rep, View.ld_unit_zero (S := S4096x256) hzero1, View.ld_unit_zero (S := S512x4096) hzero1,
    View.ld_unit_zero (S := S256x256) hzero1, View.ld_unit_zero (S := S1x256) hzero1, View.ld_unit_zero (S := S8x256) hzero1]
  unfold owns
  isplitl [Hr]
  all_goals
    iexists _; isplitr; swap; · iassumption
    ipureintro; exact stored1 _ _ hzero1 _ _

-- The third region's kernel function is the second's.
theorem layer_body_eq : @cc2__layer_body = @cc1__layer_body := rfl

end Cert.Kernel.Hand

end
-- ==== Proof.K.Reg1.lean ====
import proofs.«163270_g1194000908387_cont_fleet_524_12_alg».proof.Proof.K.Reg1Runs
import proofs.«163270_g1194000908387_cont_fleet_524_12_alg».proof.Proof.K.Reg1RunB

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem outsAt1_A (c : Dev nD) (t : Fin cfg1.N) (hz : t.val = 0) :
    outsAt1 V c t.val t.isLt = first1 (hblk1 V c t) (sblk1 V c t) (ablk1 V c t) (wblk1 V c t) (bblk1 V c t) (gblk1 V c t) (tblk1 V c t) := by
  obtain ⟨_ | n, hn⟩ := t
  exacts [rfl, absurd hz (Nat.succ_ne_zero n)]

theorem outsAt1_B (c : Dev nD) (t : Fin cfg1.N) (hz : t.val ≠ 0) :
    outsAt1 V c t.val t.isLt = next1 (ablk1 V c t) (outsAt1 V c (t.val - 1) (Nat.lt_of_le_of_lt (Nat.sub_le _ _) t.isLt)) := by
  obtain ⟨_ | n, hn⟩ := t
  exacts [absurd rfl hz, rfl]

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) : PhiS1 V c n h = PhiS1 V c (n - 1 + 1) (by omega) := by
  obtain _ | n := n
  exacts [absurd rfl hz, rfl]

set_option maxHeartbeats 4000000 in
-- The body at every point: the first point fills the three scratch buffers, a later one finds them as the point before left them.
theorem body_obligation1 (c : Dev nD) : BodyObligation (dat1 (F := F) V c) (defs₀ (F := F)) Variants.none () Set.univ := fun t => by
  rw [bigSep_W1, bigSep_W1]
  simp only [before1 V c t, after1_0, after1_1, after1_2, after1_3, after1_4, after1_5, after1_6, after1_7, after1_8]
  rw [show idle1 8 (grid1.coords t) = false from live1 8 _]
  rw [show (dat1 V c).owesAt () t.succ = (dat1 V c).owesAt () t.castSucc from rfl]
  rw [show (dat1 V c).Φ t.succ = PhiS1 V c (t.val + 1) t.isLt from rfl, show (dat1 V c).Φ t.castSucc = PhiS1 V c t.val (Nat.le_of_lt t.isLt) from rfl]
  change _ ⊢ wp frame _ _ (bodyAt1 t) _
  by_cases hz : t.val = 0
  · rw [PhiS1_zero V c _ _ hz, PhiA1_eq]
    simp only [PhiS1, outsAt1_A V c t hz]
    iintro ⟨⟨⟨⟨Hu, Hv, Hz⟩, Hrest⟩, Hprng⟩, Ho, ⟨%dh, Gh⟩, ⟨%ds, Gs⟩, ⟨%da, Ga⟩, ⟨%dw, Gw⟩, ⟨%db, Gb⟩, ⟨%dg, Gg⟩, ⟨%dt, Gt⟩, ⟨%dr, Gr⟩, ⟨%dq, Gq⟩⟩
    simp only [bodyAt1, layer_body_eq]
    iapply (kernelRun1_A c _ _ _ _ _ _ _ _ _ _ _ _ _ _ _ _ _ _ _ _ _ _ _ _ _ ((hcond1_0 t).mpr hz) ((hcond1_1 t).mpr hz) (fun h => (hcond1_2 t).mp h hz)
      (hblk1 V c t) (sblk1 V c t) (ablk1 V c t) (wblk1 V c t) (bblk1 V c t) (gblk1 V c t) (tblk1 V c t) Set.univ _)
    iframe Gh Gs Ga Gw Gb Gg Gt Hu Hv Hz
    isplitl [Gr]; · iexists _; iexact Gr
    isplitl [Gq]; · iexists _; iexact Gq
    iintro ⟨Gh, Gs, Ga, Gw, Gb, Gg, Gt, Gr, Gq, Hu, Hv, Hz⟩
    iframe
  · rw [PhiS1_pos V c _ _ hz]
    simp only [PhiS1, outsAt1_B V c t hz, before1_8_B V c t hz]
    iintro ⟨⟨⟨⟨Hu, Hv, Hz⟩, Hrest⟩, Hprng⟩, Ho, ⟨%dh, Gh⟩, ⟨%ds, Gs⟩, ⟨%da, Ga⟩, ⟨%dw, Gw⟩, ⟨%db, Gb⟩, ⟨%dg, Gg⟩, ⟨%dt, Gt⟩, ⟨%dr, Gr⟩, ⟨%dq, Gq⟩⟩
    simp only [bodyAt1, layer_body_eq]
    iapply (kernelRun1_B c _ _ _ _ _ _ _ _ _ _ _ _ _ _ _ _ _ _ _ _ _ _ _ _ _ (fun h => hz ((hcond1_0 t).mp h)) (fun h => hz ((hcond1_1 t).mp h)) ((hcond1_2 t).mpr hz)
      (hblk1 V c t) (sblk1 V c t) (ablk1 V c t) (wblk1 V c t) (bblk1 V c t) (gblk1 V c t) (tblk1 V c t) (outsAt1 V c (t.val - 1) (Nat.lt_of_le_of_lt (Nat.sub_le _ _) t.isLt)) Set.univ _)
    iframe Gh Gs Ga Gw Gb Gg Gt Gq Hu Hv Hz
    isplitl [Gr]; · iexists _; iexact Gr
    iintro ⟨Gh, Gs, Ga, Gw, Gb, Gg, Gt, Gr, Gq, Hu, Hv, Hz⟩
    iframe

theorem hin1 (c : Dev nD) : (Pipeline.ΦA spec1 c : sProp 𝕄) ⊢ (dat1 V c).Φ 0 := Entails.refl _

-- After any point but the first the named contents of the three scratch buffers are forgotten.
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega), PhiA1_eq]
  simp only [PhiS1]
  iintro ⟨⟨⟨Hu, Hv, Hz⟩, Hrest⟩, Hprng⟩
  iframe Hrest Hprng
  isplitl [Hu]; · iexists _; iexact Hu
  isplitl [Hv]; · iexists _; iexact Hv
  iexists _; iexact Hz

end Cert.Kernel.Hand

end
-- ==== Proof.K.Reg2Runs.lean ====
import proofs.«163270_g1194000908387_cont_fleet_524_12_alg».proof.Proof.K.Defs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 0).val) 0#32)) 0#32) = 1#1
theorem hcond2_0 : ∀ t : Fin grid2.N, cond2_0 (grid2.coords t) ↔ t.val = 0 := by decide +kernel

abbrev cond2_1 (i : grid2.Coords) : Prop := k2_cond2 i = 1#1
theorem hcond2_1 : ∀ t : Fin grid2.N, cond2_1 (grid2.coords t) ↔ t.val = 0 := by decide +kernel

abbrev cond2_2 (i : grid2.Coords) : Prop := k2_cond3 i = 1#1
theorem hcond2_2 : ∀ t : Fin grid2.N, cond2_2 (grid2.coords t) ↔ t.val ≠ 0 := by decide +kernel

theorem live2 : ∀ (w : Fin cfg2.W) (i : grid2.Coords), cfg2.idle w i = false := by decide +kernel

theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t)
    ∧ (∀ d, (dat2 V c).before 6 t d = iblk2 V c 6 t) := by
  refine ⟨?_, ?_, ?_, ?_, ?_, ?_, ?_⟩ <;> intro d <;>
  exact (dat2 V c).before_in_eq_fetched _ rfl (live2 _) (fun _ _ _ => rfl) (fun _ => rfl) t d

theorem before2_8_B (c : Dev nD) (t : Fin cfg2.N) (hz : t.val ≠ 0) (d) :
    (dat2 V c).before 8 t d = (outsAt2 V c (t.val - 1) (Nat.lt_of_le_of_lt (Nat.sub_le _ _) t.isLt)).st := by
  have hN : t.val < 8 := lt_of_lt_of_eq t.isLt (show cfg2.N = 8 from N_2)
  rw [Dat.before_out_kept _ 8 rfl t hz (Bool.eq_false_iff.mpr fun h => by have := (flush2_8 _).mp h; dsimp only at this; omega)
    (live2 8) (fun _ _ => rfl)]
  dsimp only [dat2]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
          ∗ Pipeline.scopedRestBut (Ix := Unit) (Name := ℕ) (U := UR sig nD τ) (Lvl := ℕ) (Val := Elt F) spec2 c [cc2_scratch0, cc2_scratch1, cc2_scratch2])
          ∗ (∃ r, prngReg c r)) := by
  unfold Pipeline.ΦA; rw [scopedRest2_split]; simp only [scM2_0, scM2_1, scM2_2, owns_whole]; try rfl

end Cert.Kernel.Hand

end
-- ==== Proof.K.Reg2.lean ====
import proofs.«163270_g1194000908387_cont_fleet_524_12_alg».proof.Proof.K.Reg2Runs
import proofs.«163270_g1194000908387_cont_fleet_524_12_alg».proof.Proof.K.Reg1RunB

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem outsAt2_A (c : Dev nD) (t : Fin cfg2.N) (hz : t.val = 0) :
    outsAt2 V c t.val t.isLt = first1 (hblk2 V c t) (sblk2 V c t) (ablk2 V c t) (wblk2 V c t) (bblk2 V c t) (gblk2 V c t) (tblk2 V c t) := by
  obtain ⟨_ | n, hn⟩ := t
  exacts [rfl, absurd hz (Nat.succ_ne_zero n)]

theorem outsAt2_B (c : Dev nD) (t : Fin cfg2.N) (hz : t.val ≠ 0) :
    outsAt2 V c t.val t.isLt = next1 (ablk2 V c t) (outsAt2 V c (t.val - 1) (Nat.lt_of_le_of_lt (Nat.sub_le _ _) t.isLt)) := by
  obtain ⟨_ | n, hn⟩ := t
  exacts [absurd rfl hz, rfl]

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) : PhiS2 V c n h = PhiS2 V c (n - 1 + 1) (by omega) := by
  obtain _ | n := n
  exacts [absurd rfl hz, rfl]

set_option maxHeartbeats 4000000 in
-- The body at every point: the first point fills the three scratch buffers, a later one finds them as the point before left them.
theorem body_obligation2 (c : Dev nD) : BodyObligation (dat2 (F := F) V c) (defs₀ (F := F)) Variants.none () Set.univ := fun t => by
  rw [bigSep_W2, bigSep_W2]
  simp only [before2 V c t, after2_0, after2_1, after2_2, after2_3, after2_4, after2_5, after2_6, after2_7, after2_8]
  rw [show idle2 8 (grid2.coords t) = false from live2 8 _]
  rw [show (dat2 V c).owesAt () t.succ = (dat2 V c).owesAt () t.castSucc from rfl]
  rw [show (dat2 V c).Φ t.succ = PhiS2 V c (t.val + 1) t.isLt from rfl, show (dat2 V c).Φ t.castSucc = PhiS2 V c t.val (Nat.le_of_lt t.isLt) from rfl]
  change _ ⊢ wp frame _ _ (bodyAt2 t) _
  by_cases hz : t.val = 0
  · rw [PhiS2_zero V c _ _ hz, PhiA2_eq]
    simp only [PhiS2, outsAt2_A V c t hz]
    iintro ⟨⟨⟨⟨Hu, Hv, Hz⟩, Hrest⟩, Hprng⟩, Ho, ⟨%dh, Gh⟩, ⟨%ds, Gs⟩, ⟨%da, Ga⟩, ⟨%dw, Gw⟩, ⟨%db, Gb⟩, ⟨%dg, Gg⟩, ⟨%dt, Gt⟩, ⟨%dr, Gr⟩, ⟨%dq, Gq⟩⟩
    simp only [bodyAt2, layer_body_eq]
    iapply (kernelRun1_A c _ _ _ _ _ _ _ _ _ _ _ _ _ _ _ _ _ _ _ _ _ _ _ _ _ ((hcond2_0 t).mpr hz) ((hcond2_1 t).mpr hz) (fun h => (hcond2_2 t).mp h hz)
      (hblk2 V c t) (sblk2 V c t) (ablk2 V c t) (wblk2 V c t) (bblk2 V c t) (gblk2 V c t) (tblk2 V c t) Set.univ _)
    iframe Gh Gs Ga Gw Gb Gg Gt Hu Hv Hz
    isplitl [Gr]; · iexists _; iexact Gr
    isplitl [Gq]; · iexists _; iexact Gq
    iintro ⟨Gh, Gs, Ga, Gw, Gb, Gg, Gt, Gr, Gq, Hu, Hv, Hz⟩
    iframe
  · rw [PhiS2_pos V c _ _ hz]
    simp only [PhiS2, outsAt2_B V c t hz, before2_8_B V c t hz]
    iintro ⟨⟨⟨⟨Hu, Hv, Hz⟩, Hrest⟩, Hprng⟩, Ho, ⟨%dh, Gh⟩, ⟨%ds, Gs⟩, ⟨%da, Ga⟩, ⟨%dw, Gw⟩, ⟨%db, Gb⟩, ⟨%dg, Gg⟩, ⟨%dt, Gt⟩, ⟨%dr, Gr⟩, ⟨%dq, Gq⟩⟩
    simp only [bodyAt2, layer_body_eq]
    iapply (kernelRun1_B c _ _ _ _ _ _ _ _ _ _ _ _ _ _ _ _ _ _ _ _ _ _ _ _ _ (fun h => hz ((hcond2_0 t).mp h)) (fun h => hz ((hcond2_1 t).mp h)) ((hcond2_2 t).mpr hz)
      (hblk2 V c t) (sblk2 V c t) (ablk2 V c t) (wblk2 V c t) (bblk2 V c t) (gblk2 V c t) (tblk2 V c t) (outsAt2 V c (t.val - 1) (Nat.lt_of_le_of_lt (Nat.sub_le _ _) t.isLt)) Set.univ _)
    iframe Gh Gs Ga Gw Gb Gg Gt Gq Hu Hv Hz
    isplitl [Gr]; · iexists _; iexact Gr
    iintro ⟨Gh, Gs, Ga, Gw, Gb, Gg, Gt, Gr, Gq, Hu, Hv, Hz⟩
    iframe

theorem hin2 (c : Dev nD) : (Pipeline.ΦA spec2 c : sProp 𝕄) ⊢ (dat2 V c).Φ 0 := Entails.refl _

-- After any point but the first the named contents of the three scratch buffers are forgotten.
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 8 := N_2; omega), PhiA2_eq]
  simp only [PhiS2]
  iintro ⟨⟨⟨Hu, Hv, Hz⟩, Hrest⟩, Hprng⟩
  iframe Hrest Hprng
  isplitl [Hu]; · iexists _; iexact Hu
  isplitl [Hv]; · iexists _; iexact Hv
  iexists _; iexact Hz

end Cert.Kernel.Hand

end
-- ==== Proof.K.Reg3.lean ====
import proofs.«163270_g1194000908387_cont_fleet_524_12_alg».proof.Proof.K.Defs
import Idealize.ShloMosaic.Lib.Pipeline.Value
import Idealize.ShloMosaic.Lib.Pipeline.TableIdle

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zeros3 : (![0, 0] : Fin 2 → ℕ) = fun _ => 0 := funext fun a => by fin_cases a <;> rfl

theorem before3 (c : Dev nD) (t : Fin cfg3.N) :
    (∀ d, (dat3 V c).before 0 t d = iblk3 V c 0 t) ∧ (∀ d, (dat3 V c).before 1 t d = iblk3 V c 1 t)
    ∧ (∀ d, (dat3 V c).before 2 t d = iblk3 V c 2 t) ∧ (∀ d, (dat3 V c).before 3 t d = iblk3 V c 3 t) := by
  refine ⟨?_, ?_, ?_, ?_⟩ <;> exact fun d => (dat3 V c).before_in_eq_fetched _ rfl (fun _ => rfl) (fun _ _ _ => rfl) (fun _ => rfl) t d

set_option maxHeartbeats 1000000 in
theorem sound_kernel3 (c : Dev nD) (E : Set ℕ)
    (arg0 : Memref sig .tc .vmem S4096x256 .f32) (harg0 : arg0.IsWhole)
    (arg1 : Memref sig .tc .vmem S8x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S4096x256 .f32) (harg4 : arg4.IsWhole)
    (x0 : Vec F S4096x256 .f32) (x1 : Vec F S8x256 .f32) (x2 x3 : Vec F S1x256 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out3 x0 x1 x2 x3)) -∗ K ⟨⟩))
      ⊢ wp frame (wpE (defs₀ (F := F)) Variants.none c none) E
          (cc3__final_bn_body arg0 harg0 arg1 harg1 arg2 harg2 arg3 harg3 arg4 harg4) K := by
  simp only [cc3__final_bn_body_eq_skeleton]; unfold cc3__final_bn_body_skel
  simp only [owns_eq_rep (c : Thread nD τ) arg0, owns_eq_rep (c : Thread nD τ) arg1, owns_eq_rep (c : Thread nD τ) arg2, owns_eq_rep (c : Thread nD τ) arg3]
  unfold owns
  iintro ⟨H0, H1, H2, H3, ⟨%d4, %f4, -, H4⟩, Hk⟩
  sl_exec
  sl_step
  iapply Hk
  iframe H0 H1 H2 H3
  iexists _; isplitr
  swap; · iexact H4
  ipureintro
  refine (View.read_writes_eq_canon _ _ _ (View.cover_of_tiledL _ S4096x256.size (by sl_kernel_rfl))).trans ?_
  rw [View.canon_unit_zero (S := S4096x256) zeros3]
  simp only [View.readAt_eq_ld, View.read_rep, View.ld_unit_zero (S := S1x256) zeros3, View.ld_unit_zero (S := S4096x256) zeros3]
  rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare (iblk3 V c 0 t)
    ∗ owns (c : Thread nD τ) (st3_1 t) fullShare (iblk3 V c 1 t)
    ∗ owns (c : Thread nD τ) (st3_2 t) fullShare (iblk3 V c 2 t)
    ∗ owns (c : Thread nD τ) (st3_3 t) fullShare (iblk3 V c 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  obtain ⟨b0, b1, b2, b3⟩ := before3 V c t
  simp only [b0, b1, b2, b3]
  rw [show (dat3 V c).Φ t.succ = (dat3 V c).Φ t.castSucc from rfl,
    show (dat3 V c).owesAt () t.succ = (dat3 V c).owesAt () t.castSucc from rfl,
    after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ (iblk3 V c 0 t) (iblk3 V c 1 t) (iblk3 V c 2 t) (iblk3 V c 3 t) _)
  iframe H0 H1 H2 H3
  isplitl [H4]; · iexists _; iexact H4
  iintro ⟨H0, H1, H2, H3, H4⟩
  iframe

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) := .rfl

end Cert.Kernel.Hand

end
-- ==== Proof.K.Run.lean ====
import proofs.«163270_g1194000908387_cont_fleet_524_12_alg».proof.Proof.K.Reg0
import proofs.«163270_g1194000908387_cont_fleet_524_12_alg».proof.Proof.K.Reg1
import proofs.«163270_g1194000908387_cont_fleet_524_12_alg».proof.Proof.K.Reg2
import proofs.«163270_g1194000908387_cont_fleet_524_12_alg».proof.Proof.K.Reg3
import proofs.«163270_g1194000908387_cont_fleet_524_12_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Off the output windows' arrays the exit contents equal the entry contents. -/
theorem left_keep {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w))) (r : Ref sig .tc)
    (k : ∀ w, Pipeline.arrRef cfg.spec w = r → (cfg.win w).isOut = false) :
    Pipeline.withArrays cfg.spec c V (fun w => dat.arrAt w cfg.N) (Proc.devRef .tc r) = V (Proc.devRef .tc r) := by
  by_cases h : ∃ w, Pipeline.arrRef cfg.spec w = r
  · obtain ⟨w, rfl⟩ := h
    exact (Pipeline.withArrays_arr _ hinj c _ _ w).trans ((dat.arrAt_in w (k w rfl) _).trans (hA w))
  · exact Pipeline.withArrays_of_ne _ c _ _ r fun w e => h ⟨w, e⟩

theorem left_rest {gr W : ℕ} (win : Fin W → Pipeline.WinSpec sig gr) (c : Dev nD) (V : Valuation τ sig (Elt F))
    (A : (w : Fin W) → Buf (Elt F) ((win w).arr.view.loc (c.tc : Thread nD τ))) (b : Ref sig .tc)
    (hb : b ∉ Finset.univ.image (Pipeline.arrRef win)) : Pipeline.withArrays win c V A (Proc.devRef .tc b) = V (Proc.devRef .tc b) :=
  Pipeline.withArrays_of_ne win c V A b fun w e => hb (Finset.mem_image.mpr ⟨w, Finset.mem_univ _, e⟩)

variable (m : (ℓ : Loc nD τ sig) → Buf (Elt F) ℓ) (ρ : Dev nD → PrngReg)

/-- The buffer contents at the nine boundaries, folded from the launch memory. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

section
variable {c : Dev nD} {A Z P O Φ S X lev : sProp (MT nD τ sig Unit (Elt F) ℕ (UR sig nD τ) ℕ)}

theorem entry_of (W : Valuation τ sig (Elt F)) (hs : (unscopedBufs c (fun b => W b) : sProp 𝕄) ⊢ iprop(A ∗ Z))
    (hP : (BI.emp : sProp 𝕄) ⊢ P) (hO : iprop(∃ D, owes (c : Thread nD τ) (0 : CellTallies nD τ sig Unit) D) ⊢ O) :
    iprop((StableHlo.held (c : Thread nD τ) (Pipeline.ucRefs τ sig) W ∗ R c) ∗ BI.emp ∗ lev)
      ⊢ |={Set.univ}=> iprop(A ∗ P ∗ O ∗ (∃ r, prngReg c r) ∗ Z) := by
  rw [Pipeline.unscopedBufs_held] at hs
  iintro ⟨⟨Hub, Hp, HO⟩, -, -⟩
  ihave ⟨Ha, Hrest⟩ := hs $$ Hub
  ihave HO := hO $$ HO
  imodintro; iframe; iapply hP; iempintro

theorem in_of (h : iprop(S ∗ X) ⊢ Φ) : iprop(X ∗ P ∗ S) ⊢ Φ := by
  iintro ⟨Hp, -, Hr⟩; iapply h; iframe

theorem out_of (h : Φ ⊢ iprop(S ∗ X)) : Φ ⊢ iprop(X ∗ BI.emp ∗ S) := by
  iintro H; ihave ⟨Hr, Hp⟩ := h $$ H; iframe; iempintro

theorem exit_of (W : Valuation τ sig (Elt F)) (hj : iprop(A ∗ Z) ⊢ (unscopedBufs c (fun b => W b) : sProp 𝕄))
    (hO : O ⊢ iprop(∃ D, owes (c : Thread nD τ) (0 : CellTallies nD τ sig Unit) D)) :
    iprop(A ∗ O ∗ X ∗ Z) ⊢ |={Set.univ}=> iprop(StableHlo.held (c : Thread nD τ) (Pipeline.ucRefs τ sig) W ∗ X
      ∗ ∃ D, owes (c : Thread nD τ) (0 : CellTallies nD τ sig Unit) D) := by
  rw [Pipeline.unscopedBufs_held] at hj
  iintro ⟨Ha, HO, HY, Hrest⟩
  ihave HO := hO $$ HO
  imodintro; iframe HY HO; iapply hj; iframe
end

theorem pref_none (p : Fin 4) (c : Dev nD) :
    (BI.emp : sProp 𝕄) ⊢ Pipeline.prefHeld (pcfgs (F := F) p).pre c (fun _ => fullShare) (adm p).1 := by
  unfold Pipeline.prefHeld; rw [show (Finset.univ : Finset (Fin 0)) = ∅ from rfl, BI.bigSep_empty]

section
variable {cfg : Cfg sig Λ₀} {c : Dev nD} (dat : Dat τ (Elt F) Unit ℕ (UR sig nD τ) ℕ cfg c) (t : Fin (cfg.N + 1)) (h0 : dat.owed t = 0)
include h0

theorem owes_in (hb : ∀ x, x ∈ dat.bound () t) :
    iprop(∃ D, owes (c : Thread nD τ) (0 : CellTallies nD τ sig Unit) D) ⊢ (dat.owesAt () t : sProp 𝕄) := by
  unfold Pipeline.Dat.owesAt Pipeline.owesWithin; rw [h0]
  iintro ⟨%D, HO⟩; iexists D; iframe; ipureintro; exact fun x _ => hb x

theorem owes_out : (dat.owesAt () t : sProp 𝕄) ⊢ iprop(∃ D, owes (c : Thread nD τ) (0 : CellTallies nD τ sig Unit) D) := by
  unfold Pipeline.Dat.owesAt Pipeline.owesWithin; rw [h0]
  iintro ⟨%D, -, HO⟩; iexists D; iexact HO
end

set_option backward.isDefEq.respectTransparency.types false in
def regOf (p : Fin 4) (lf : Pipeline.LaunchFacts (nD := nD) (τ := τ) cfgs p) (Wi Wo : Dev nD → Valuation τ sig (Elt F))
    (hb : ∀ c, BodyObligation (pdats m ρ p c) (defs₀ (F := F)) Variants.none () Set.univ)
    (h0 : ∀ c t, (pdats m ρ p c).owed t = 0) (hq : ∀ c w, (pdats m ρ p c).q w = fullShare)
    (hbd : ∀ c x, x ∈ (pdats m ρ p c).bound () 0)
    (hA : ∀ c w, (pdats m ρ p c).A w = Wi c (Pipeline.arrRef (cfgs p).spec w))
    (hi : ∀ c, (Pipeline.ΦA (cfgs p).spec c : sProp 𝕄) ⊢ (pdats m ρ p c).Φ 0)
    (ho : ∀ c, (pdats m ρ p c).Φ (Fin.last (cfgs p).N) ⊢ (Pipeline.ΦA (cfgs p).spec c : sProp 𝕄))
    (hF : ∀ c w, (pdats m ρ p c).arrAt w (cfgs p).N = Wo c (Pipeline.arrRef (cfgs p).spec w))
    (hr : ∀ c b, b ∉ Finset.univ.image (Pipeline.arrRef (cfgs p).spec) → Wo c (Proc.devRef .tc b) = Wi c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (cfgs p).spec c fun b => Wi c b
  hentry c := by
    rw [Pipeline.ownSems0_none]
    exact entry_of (Wi c) (Pipeline.arrays_of_unscopedBufs (p := p) (pcfgs (F := F)) adm (pdats m ρ) lf.win lf.arr_whole c
      ((pdats m ρ p c).share_full (hq c)) (fun b => Wi c b) (hA c)) (pref_none p c) (owes_in _ 0 (h0 c 0) (hbd c))
  hin c := in_of (hi c)
  hout c := by rw [Pipeline.ownSems0_none]; exact out_of (ho c)
  hexit c := exit_of (Wo c) (Pipeline.unscopedBufs_of_arrays (p := p) (pcfgs (F := F)) adm
    lf.win lf.arr_whole c (pdats m ρ) ((pdats m ρ p c).share_full (hq c)) (fun b => Wi c b) (fun b => Wo c b)
    ((pdats m ρ p c).arrAt · (cfgs p).N) (hF c) (hr c)) (owes_out _ _ (h0 c _))

set_option backward.isDefEq.respectTransparency.types false in
def reg0 : Pipeline.RegionSeg (pcfgs (F := F)) adm (pdats m ρ) () defs₀ 𝒱₀ L lv 0 :=
  regOf m ρ 0 launch0 (W1 m ρ) (W2 m ρ) (body_obligation0 (V1 m ρ)) (fun _ _ => rfl) (fun _ _ => rfl) (fun _ _ => Or.inl trivial)
    (A_eq0 (V1 m ρ)) (hin0 (V1 m ρ)) (hout0 (V1 m ρ)) (fun c w => (W2_arr m ρ c w).symm) fun c => left_rest spec0 c _ _
set_option backward.isDefEq.respectTransparency.types false in
def reg1 : Pipeline.RegionSeg (pcfgs (F := F)) adm (pdats m ρ) () defs₀ 𝒱₀ L lv 1 :=
  regOf m ρ 1 launch1 (W3 m ρ) (W4 m ρ) (body_obligation1 (V3 m ρ)) (fun _ _ => rfl) (fun _ _ => rfl) (fun _ _ => Or.inl trivial)
    (A_eq1 (V3 m ρ)) (hin1 (V3 m ρ)) (hout1 (V3 m ρ)) (fun c w => (W4_arr m ρ c w).symm) fun c => left_rest spec1 c _ _
set_option backward.isDefEq.respectTransparency.types false in
def reg2 : Pipeline.RegionSeg (pcfgs (F := F)) adm (pdats m ρ) () defs₀ 𝒱₀ L lv 2 :=
  regOf m ρ 2 launch2 (W5 m ρ) (W6 m ρ) (body_obligation2 (V5 m ρ)) (fun _ _ => rfl) (fun _ _ => rfl) (fun _ _ => Or.inl trivial)
    (A_eq2 (V5 m ρ)) (hin2 (V5 m ρ)) (hout2 (V5 m ρ)) (fun c w => (W6_arr m ρ c w).symm) fun c => left_rest spec2 c _ _
set_option backward.isDefEq.respectTransparency.types false in
def reg3 : Pipeline.RegionSeg (pcfgs (F := F)) adm (pdats m ρ) () defs₀ 𝒱₀ L lv 3 :=
  regOf m ρ 3 launch3 (W7 m ρ) (W8 m ρ) (body_obligation3 (V7 m ρ)) (fun _ _ => rfl) (fun _ _ => rfl) (fun _ _ => Or.inl trivial)
    (A_eq3 (V7 m ρ)) (hin3 (V7 m ρ)) (hout3 (V7 m ρ)) (fun c w => (W8_arr m ρ c w).symm) fun c => left_rest spec3 c _ _
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro; iframe; isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      iframe)
    (hQ := fun s h => h)

/-- Written by no host stretch and no output array of any region. -/
abbrev Kept (r : Ref sig .tc) : Prop :=
  ¬ (Proc.devRef .tc r : DevRef τ sig).isScoped
  ∧ r ∉ hostOps0_W ∧ (∀ w, Pipeline.arrRef spec0 w = r → (cfg0.win w).isOut = false)
  ∧ r ∉ hostOps1_W ∧ (∀ w, Pipeline.arrRef spec1 w = r → (cfg1.win w).isOut = false)
  ∧ r ∉ hostOps2_W ∧ (∀ w, Pipeline.arrRef spec2 w = r → (cfg2.win w).isOut = false)
  ∧ r ∉ hostOps3_W ∧ (∀ w, Pipeline.arrRef spec3 w = r → (cfg3.win w).isOut = false)

section
variable (c : Dev nD) (r : Ref sig .tc) (h : Kept r)
include h

theorem W1_kept : W1 m ρ c (Proc.devRef .tc r) = m ((c : Thread nD τ).loc r) :=
  StableHlo.after_of_writes_sub hostOps0 _ hostOps0_writes h.2.1
theorem W2_kept : W2 m ρ c (Proc.devRef .tc r) = m ((c : Thread nD τ).loc r) :=
  (left_keep (dat0 (V1 m ρ) c) launch0.win.arr_inj _ (A_eq0 (V1 m ρ) c) r h.2.2.1).trans (W1_kept m ρ c r h)
theorem W3_kept : W3 m ρ c (Proc.devRef .tc r) = m ((c : Thread nD τ).loc r) :=
  (StableHlo.after_of_writes_sub hostOps1 _ hostOps1_writes h.2.2.2.1).trans (W2_kept m ρ c r h)
theorem W4_kept : W4 m ρ c (Proc.devRef .tc r) = m ((c : Thread nD τ).loc r) :=
  (left_keep (dat1 (V3 m ρ) c) launch1.win.arr_inj _ (A_eq1 (V3 m ρ) c) r h.2.2.2.2.1).trans (W3_kept m ρ c r h)
theorem W5_kept : W5 m ρ c (Proc.devRef .tc r) = m ((c : Thread nD τ).loc r) :=
  (StableHlo.after_of_writes_sub hostOps2 _ hostOps2_writes h.2.2.2.2.2.1).trans (W4_kept m ρ c r h)
theorem W6_kept : W6 m ρ c (Proc.devRef .tc r) = m ((c : Thread nD τ).loc r) :=
  (left_keep (dat2 (V5 m ρ) c) launch2.win.arr_inj _ (A_eq2 (V5 m ρ) c) r h.2.2.2.2.2.2.1).trans (W5_kept m ρ c r h)
theorem W7_kept : W7 m ρ c (Proc.devRef .tc r) = m ((c : Thread nD τ).loc r) :=
  (StableHlo.after_of_writes_sub hostOps3 _ hostOps3_writes h.2.2.2.2.2.2.2.1).trans (W6_kept m ρ c r h)
theorem W8_kept : W8 m ρ c (Proc.devRef .tc r) = m ((c : Thread nD τ).loc r) :=
  (left_keep (dat3 (V7 m ρ) c) launch3.win.arr_inj _ (A_eq3 (V7 m ρ) c) r h.2.2.2.2.2.2.2.2).trans (W7_kept m ρ c r h)

/-- A kept buffer ends at its launch contents in any memory that holds the last boundary's contents. -/
theorem kept_end {mem : (ℓ : Loc nD τ sig) → Buf (Elt F) ℓ}
    (hm : ∀ b ∈ Pipeline.ucRefs τ sig, mem (((c : Thread nD τ)).1, b) = W8 m ρ c b) :
    mem ((c.tc : Thread nD τ).loc r) = m ((c.tc : Thread nD τ).loc r) :=
  (hm _ (mem_uc r h.1)).trans (W8_kept m ρ c r h)
end

/-- Every argument's buffer holds its launch contents. -/
abbrev ArgsKept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)

/-- The run's end: the result array as the last region left it, every argument as launched. -/
theorem run_args : θ_run defs (onTc (τ := τ) (main (F := F))) ⟨m, fun _ => 0, ρ⟩ (fun r => ∀ c : Dev nD,
      r.2.mem ((c.tc : Thread nD τ).loc main_v15) = W8 m ρ c (Proc.devRef .tc main_v15) ∧ ArgsKept m r.2.mem c) :=
  (θ_run defs _ _).mono (fun r h c =>
    have e := fun a k => kept_end m ρ c a k (h c)
    ⟨h c _ (mem_uc main_v15 (by decide)), e main_arg0 (by decide), e main_arg1 (by decide), e main_arg2 (by decide), e main_arg3 (by decide), e main_arg4 (by decide), e main_arg5 (by decide), e main_arg6 (by decide), e main_arg7 (by decide), e main_arg8 (by decide), e main_arg9 (by decide), e main_arg10 (by decide), e main_arg11 (by decide), e main_arg12 (by decide), e main_arg13 (by decide)⟩)
    (run_all m ρ)

theorem frame : θ_run defs (onTc (τ := τ) (main (F := F))) ⟨m, fun _ => 0, ρ⟩ (fun r => ∀ c : Dev nD, ArgsKept m r.2.mem c) :=
  (θ_run defs _ _).mono (fun r h c => (h c).2) (run_args m ρ)

end Cert.Kernel.Hand

end
-- ==== Proof.KI.Defs.lean ====
import proofs.«163270_g1194000908387_cont_fleet_524_12_alg».proof.Proof.Gen.KernelIdeal.Launch
import proofs.«163270_g1194000908387_cont_fleet_524_12_alg».proof.Proof.Gen.KernelIdeal.Skeleton
import proofs.«163270_g1194000908387_cont_fleet_524_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev rowRect0 : Rect S8x256 := Rect.unit (s := S8x256) ![0, 0] S1x256.size inb_S8x256_S1x256_0_0
abbrev rowRect1 : Rect S8x256 := Rect.unit (s := S8x256) ![1, 0] S1x256.size inb_S8x256_S1x256_1_0

structure Out (F : FTy → Type) [FloatOps F] where
  r : Vec F S512x256 .f32
  st : Vec F S8x256 .f32
  yh : Vec F S4096x256 .bf16
  yl : Vec F S4096x256 .bf16
  corr : Vec F S8x256 .f32

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev hblk0 (c : Dev nD) (t : Fin cfg0.N) : Vec F S4096x256 .f32 := iblk0 V c 0 t
abbrev sblk0 (c : Dev nD) (t : Fin cfg0.N) : Vec F S8x256 .f32 := iblk0 V c 1 t
abbrev ablk0 (c : Dev nD) (t : Fin cfg0.N) : Vec F S512x4096 .f32 := iblk0 V c 2 t
abbrev wblk0 (c : Dev nD) (t : Fin cfg0.N) : Vec F S256x256 .f32 := iblk0 V c 3 t
abbrev bblk0 (c : Dev nD) (t : Fin cfg0.N) : Vec F S1x256 .f32 := iblk0 V c 4 t
abbrev gblk0 (c : Dev nD) (t : Fin cfg0.N) : Vec F S1x256 .f32 := iblk0 V c 5 t
abbrev tblk0 (c : Dev nD) (t : Fin cfg0.N) : Vec F S1x256 .f32 := iblk0 V c 6 t

def first0 (h : Vec F S4096x256 .f32) (s : Vec F S8x256 .f32) (a : Vec F S512x4096 .f32) (w : Vec F S256x256 .f32) (b g bt : Vec F S1x256 .f32) : Out F :=
  { r := k0_pay5 a (k0_pay2 h w) (k0_pay3 h w) (View.ld (k0_pay4 h w b) rowRect0)
    st := k0_pay6 a (k0_pay2 h w) (k0_pay3 h w) (View.ld (k0_pay4 h w b) rowRect0)
    yh := k0_pay2 h w
    yl := k0_pay3 h w
    corr := k0_pay4 h w b }

def next0 (a : Vec F S512x4096 .f32) (p : Out F) : Out F :=
  { r := k0_pay5 a p.yh p.yl (View.ld p.corr rowRect0)
    st := k0_pay7 a p.yh p.yl (View.ld p.corr rowRect0) p.st
    yh := p.yh
    yl := p.yl
    corr := p.corr }

def outsAt0 (c : Dev nD) : (n : ℕ) → n < cfg0.N → Out F
  | 0, h => first0 (hblk0 V c ⟨0, h⟩) (sblk0 V c ⟨0, h⟩) (ablk0 V c ⟨0, h⟩) (wblk0 V c ⟨0, h⟩) (bblk0 V c ⟨0, h⟩) (gblk0 V c ⟨0, h⟩) (tblk0 V c ⟨0, h⟩)
  | n + 1, h => next0 (ablk0 V c ⟨n + 1, h⟩) (outsAt0 c n (Nat.lt_of_succ_lt h))

theorem outsAt0_zero (c : Dev nD) (h : 0 < cfg0.N) :
    outsAt0 V c 0 h = first0 (hblk0 V c ⟨0, h⟩) (sblk0 V c ⟨0, h⟩) (ablk0 V c ⟨0, h⟩) (wblk0 V c ⟨0, h⟩) (bblk0 V c ⟨0, h⟩) (gblk0 V c ⟨0, h⟩) (tblk0 V c ⟨0, h⟩) := rfl
theorem outsAt0_succ (c : Dev nD) (n : ℕ) (h : n + 1 < cfg0.N) :
    outsAt0 V c (n + 1) h = next0 (ablk0 V c ⟨n + 1, h⟩) (outsAt0 V c n (Nat.lt_of_succ_lt h)) := rfl

abbrev scM0_0 : Memref sig .tc .vmem S4096x256 .bf16 := Memref.whole cc0_scratch0
abbrev scM0_1 : Memref sig .tc .vmem S4096x256 .bf16 := Memref.whole cc0_scratch1
abbrev scM0_2 : Memref sig .tc .vmem S8x256 .f32 := Memref.whole cc0_scratch2

def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).yh
        ∗ owns (c : Thread nD τ) scM0_1 fullShare (outsAt0 V c n hn).yl
        ∗ owns (c : Thread nD τ) scM0_2 fullShare (outsAt0 V c n hn).corr)
      ∗ Pipeline.scopedRestBut (Ix := Unit) (Name := ℕ) (U := UR sig nD τ) (Lvl := ℕ) (Val := Elt F) spec0 c [cc0_scratch0, cc0_scratch1, cc0_scratch2])
      ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).r
    | ⟨8, _⟩ => (outsAt0 V c t.val t.isLt).st
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_7 (c : Dev nD) (t : Fin cfg0.N) : (dat0 V c).after 7 t = (outsAt0 V c t.val t.isLt).r := by dsimp only [dat0]
theorem after0_8 (c : Dev nD) (t : Fin cfg0.N) : (dat0 V c).after 8 t = (outsAt0 V c t.val t.isLt).st := by dsimp only [dat0]

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev hblk1 (c : Dev nD) (t : Fin cfg1.N) : Vec F S4096x256 .f32 := iblk1 V c 0 t
abbrev sblk1 (c : Dev nD) (t : Fin cfg1.N) : Vec F S8x256 .f32 := iblk1 V c 1 t
abbrev ablk1 (c : Dev nD) (t : Fin cfg1.N) : Vec F S512x4096 .f32 := iblk1 V c 2 t
abbrev wblk1 (c : Dev nD) (t : Fin cfg1.N) : Vec F S256x256 .f32 := iblk1 V c 3 t
abbrev bblk1 (c : Dev nD) (t : Fin cfg1.N) : Vec F S1x256 .f32 := iblk1 V c 4 t
abbrev gblk1 (c : Dev nD) (t : Fin cfg1.N) : Vec F S1x256 .f32 := iblk1 V c 5 t
abbrev tblk1 (c : Dev nD) (t : Fin cfg1.N) : Vec F S1x256 .f32 := iblk1 V c 6 t

def first1 (h : Vec F S4096x256 .f32) (s : Vec F S8x256 .f32) (a : Vec F S512x4096 .f32) (w : Vec F S256x256 .f32) (b g bt : Vec F S1x256 .f32) : Out F :=
  { r := k1_pay4 a (k1_pay1 (k1_pay8 (View.ld s rowRect0) (View.ld s rowRect1) g bt h w))
          (k1_pay2 (k1_pay7 (View.ld s rowRect0) (View.ld s rowRect1) g bt h w) (k1_pay9 (View.ld s rowRect0) (View.ld s rowRect1) g bt h w))
          (View.ld (k1_pay3 (k1_pay7 (View.ld s rowRect0) (View.ld s rowRect1) g bt h w) b) rowRect0)
    st := k1_pay5 a (k1_pay1 (k1_pay8 (View.ld s rowRect0) (View.ld s rowRect1) g bt h w))
          (k1_pay2 (k1_pay7 (View.ld s rowRect0) (View.ld s rowRect1) g bt h w) (k1_pay9 (View.ld s rowRect0) (View.ld s rowRect1) g bt h w))
          (View.ld (k1_pay3 (k1_pay7 (View.ld s rowRect0) (View.ld s rowRect1) g bt h w) b) rowRect0)
    yh := k1_pay1 (k1_pay8 (View.ld s rowRect0) (View.ld s rowRect1) g bt h w)
    yl := k1_pay2 (k1_pay7 (View.ld s rowRect0) (View.ld s rowRect1) g bt h w) (k1_pay9 (View.ld s rowRect0) (View.ld s rowRect1) g bt h w)
    corr := k1_pay3 (k1_pay7 (View.ld s rowRect0) (View.ld s rowRect1) g bt h w) b }

def next1 (a : Vec F S512x4096 .f32) (p : Out F) : Out F :=
  { r := k1_pay4 a p.yh p.yl (View.ld p.corr rowRect0)
    st := k1_pay6 a p.yh p.yl (View.ld p.corr rowRect0) p.st
    yh := p.yh
    yl := p.yl
    corr := p.corr }

def outsAt1 (c : Dev nD) : (n : ℕ) → n < cfg1.N → Out F
  | 0, h => first1 (hblk1 V c ⟨0, h⟩) (sblk1 V c ⟨0, h⟩) (ablk1 V c ⟨0, h⟩) (wblk1 V c ⟨0, h⟩) (bblk1 V c ⟨0, h⟩) (gblk1 V c ⟨0, h⟩) (tblk1 V c ⟨0, h⟩)
  | n + 1, h => next1 (ablk1 V c ⟨n + 1, h⟩) (outsAt1 c n (Nat.lt_of_succ_lt h))

theorem outsAt1_zero (c : Dev nD) (h : 0 < cfg1.N) :
    outsAt1 V c 0 h = first1 (hblk1 V c ⟨0, h⟩) (sblk1 V c ⟨0, h⟩) (ablk1 V c ⟨0, h⟩) (wblk1 V c ⟨0, h⟩) (bblk1 V c ⟨0, h⟩) (gblk1 V c ⟨0, h⟩) (tblk1 V c ⟨0, h⟩) := rfl
theorem outsAt1_succ (c : Dev nD) (n : ℕ) (h : n + 1 < cfg1.N) :
    outsAt1 V c (n + 1) h = next1 (ablk1 V c ⟨n + 1, h⟩) (outsAt1 V c n (Nat.lt_of_succ_lt h)) := rfl

abbrev scM1_0 : Memref sig .tc .vmem S4096x256 .bf16 := Memref.whole cc1_scratch0
abbrev scM1_1 : Memref sig .tc .vmem S4096x256 .bf16 := Memref.whole cc1_scratch1
abbrev scM1_2 : Memref sig .tc .vmem S8x256 .f32 := Memref.whole cc1_scratch2

def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).yh
        ∗ owns (c : Thread nD τ) scM1_1 fullShare (outsAt1 V c n hn).yl
        ∗ owns (c : Thread nD τ) scM1_2 fullShare (outsAt1 V c n hn).corr)
      ∗ Pipeline.scopedRestBut (Ix := Unit) (Name := ℕ) (U := UR sig nD τ) (Lvl := ℕ) (Val := Elt F) spec1 c [cc1_scratch0, cc1_scratch1, cc1_scratch2])
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).r
    | ⟨8, _⟩ => (outsAt1 V c t.val t.isLt).st
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).r := by dsimp only [dat1]
theorem after1_8 (c : Dev nD) (t : Fin cfg1.N) : (dat1 V c).after 8 t = (outsAt1 V c t.val t.isLt).st := by dsimp only [dat1]

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev hblk2 (c : Dev nD) (t : Fin cfg2.N) : Vec F S4096x256 .f32 := iblk2 V c 0 t
abbrev sblk2 (c : Dev nD) (t : Fin cfg2.N) : Vec F S8x256 .f32 := iblk2 V c 1 t
abbrev ablk2 (c : Dev nD) (t : Fin cfg2.N) : Vec F S512x4096 .f32 := iblk2 V c 2 t
abbrev wblk2 (c : Dev nD) (t : Fin cfg2.N) : Vec F S256x256 .f32 := iblk2 V c 3 t
abbrev bblk2 (c : Dev nD) (t : Fin cfg2.N) : Vec F S1x256 .f32 := iblk2 V c 4 t
abbrev gblk2 (c : Dev nD) (t : Fin cfg2.N) : Vec F S1x256 .f32 := iblk2 V c 5 t
abbrev tblk2 (c : Dev nD) (t : Fin cfg2.N) : Vec F S1x256 .f32 := iblk2 V c 6 t

def outsAt2 (c : Dev nD) : (n : ℕ) → n < cfg2.N → Out F
  | 0, h => first1 (hblk2 V c ⟨0, h⟩) (sblk2 V c ⟨0, h⟩) (ablk2 V c ⟨0, h⟩) (wblk2 V c ⟨0, h⟩) (bblk2 V c ⟨0, h⟩) (gblk2 V c ⟨0, h⟩) (tblk2 V c ⟨0, h⟩)
  | n + 1, h => next1 (ablk2 V c ⟨n + 1, h⟩) (outsAt2 c n (Nat.lt_of_succ_lt h))

theorem outsAt2_zero (c : Dev nD) (h : 0 < cfg2.N) :
    outsAt2 V c 0 h = first1 (hblk2 V c ⟨0, h⟩) (sblk2 V c ⟨0, h⟩) (ablk2 V c ⟨0, h⟩) (wblk2 V c ⟨0, h⟩) (bblk2 V c ⟨0, h⟩) (gblk2 V c ⟨0, h⟩) (tblk2 V c ⟨0, h⟩) := rfl
theorem outsAt2_succ (c : Dev nD) (n : ℕ) (h : n + 1 < cfg2.N) :
    outsAt2 V c (n + 1) h = next1 (ablk2 V c ⟨n + 1, h⟩) (outsAt2 V c n (Nat.lt_of_succ_lt h)) := rfl

abbrev scM2_0 : Memref sig .tc .vmem S4096x256 .bf16 := Memref.whole cc2_scratch0
abbrev scM2_1 : Memref sig .tc .vmem S4096x256 .bf16 := Memref.whole cc2_scratch1
abbrev scM2_2 : Memref sig .tc .vmem S8x256 .f32 := Memref.whole cc2_scratch2

def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).yh
        ∗ owns (c : Thread nD τ) scM2_1 fullShare (outsAt2 V c n hn).yl
        ∗ owns (c : Thread nD τ) scM2_2 fullShare (outsAt2 V c n hn).corr)
      ∗ Pipeline.scopedRestBut (Ix := Unit) (Name := ℕ) (U := UR sig nD τ) (Lvl := ℕ) (Val := Elt F) spec2 c [cc2_scratch0, cc2_scratch1, cc2_scratch2])
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).r
    | ⟨8, _⟩ => (outsAt2 V c t.val t.isLt).st
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).r := by dsimp only [dat2]
theorem after2_8 (c : Dev nD) (t : Fin cfg2.N) : (dat2 V c).after 8 t = (outsAt2 V c t.val t.isLt).st := by dsimp only [dat2]

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rblk3 (c : Dev nD) (t : Fin cfg3.N) : Vec F S4096x256 .f32 := iblk3 V c 0 t
abbrev sblk3 (c : Dev nD) (t : Fin cfg3.N) : Vec F S8x256 .f32 := iblk3 V c 1 t
abbrev gblk3 (c : Dev nD) (t : Fin cfg3.N) : Vec F S1x256 .f32 := iblk3 V c 2 t
abbrev tblk3 (c : Dev nD) (t : Fin cfg3.N) : Vec F S1x256 .f32 := iblk3 V c 3 t

def out3 (r : Vec F S4096x256 .f32) (s : Vec F S8x256 .f32) (g bt : Vec F S1x256 .f32) : Vec F S4096x256 .f32 :=
  k3_pay1 (View.ld s rowRect0) (View.ld s rowRect1) g bt r

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (rblk3 V c t) (sblk3 V c t) (gblk3 V c t) (tblk3 V c t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_4 (c : Dev nD) (t : Fin cfg3.N) : (dat3 V c).after 4 t = out3 (rblk3 V c t) (sblk3 V c t) (gblk3 V c t) (tblk3 V c t) := by dsimp only [dat3]

end Cert.KernelIdeal.Hand

end
-- ==== Proof.KI.Reg0Runs.lean ====
import proofs.«163270_g1194000908387_cont_fleet_524_12_alg».proof.Proof.KI.Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1
theorem hcond0_1 : ∀ t : Fin cfg0.N, cond0_1 (grid0.coords t) ↔ t.val = 0 :=
  (by decide +kernel : ∀ t : Fin grid0.N, cond0_1 (grid0.coords t) ↔ t.val = 0)

abbrev cond0_2 (i : grid0.Coords) : Prop := k0_cond3 i = 1#1
theorem hcond0_2 : ∀ t : Fin cfg0.N, cond0_2 (grid0.coords t) ↔ t.val ≠ 0 :=
  (by decide +kernel : ∀ t : Fin grid0.N, cond0_2 (grid0.coords t) ↔ t.val ≠ 0)

theorem liveAt0_7 : ∀ t : Fin cfg0.N, cfg0.idle 7 (grid0.coords t) = false := by decide +kernel
theorem liveAt0_8 : ∀ t : Fin cfg0.N, cfg0.idle 8 (grid0.coords t) = false := by decide +kernel
theorem liveAll0_8 : ∀ i : grid0.Coords, cfg0.idle 8 i = false := by decide +kernel

abbrev ms0_0 (t : Fin cfg0.N) : Memref sig .tc .vmem S4096x256 .f32 := win0_0.stage (cfg0.slots t 0)
abbrev ms0_1 (t : Fin cfg0.N) : Memref sig .tc .vmem S8x256 .f32 := win0_1.stage (cfg0.slots t 1)
abbrev ms0_2 (t : Fin cfg0.N) : Memref sig .tc .vmem S512x4096 .f32 := win0_2.stage (cfg0.slots t 2)
abbrev ms0_3 (t : Fin cfg0.N) : Memref sig .tc .vmem S256x256 .f32 := win0_3.stage (cfg0.slots t 3)
abbrev ms0_4 (t : Fin cfg0.N) : Memref sig .tc .vmem S1x256 .f32 := win0_4.stage (cfg0.slots t 4)
abbrev ms0_5 (t : Fin cfg0.N) : Memref sig .tc .vmem S1x256 .f32 := win0_5.stage (cfg0.slots t 5)
abbrev ms0_6 (t : Fin cfg0.N) : Memref sig .tc .vmem S1x256 .f32 := win0_6.stage (cfg0.slots t 6)
abbrev ms0_7 (t : Fin cfg0.N) : Memref sig .tc .vmem S512x256 .f32 := win0_7.stage (cfg0.slots t 7)
abbrev ms0_8 (t : Fin cfg0.N) : Memref sig .tc .vmem S8x256 .f32 := win0_8.stage (cfg0.slots t 8)

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d
theorem before0_6 (c : Dev nD) (t : Fin cfg0.N) (d) : (dat0 V c).before 6 t d = iblk0 V c 6 t :=
  (dat0 V c).before_in_eq_fetched 6 rfl (fun _ => rfl) (fun _ _ _ => rfl) (fun _ => rfl) t d

theorem before0_8_B (c : Dev nD) (n : ℕ) (hn : n + 1 < cfg0.N) (d) :
    (dat0 V c).before 8 ⟨n + 1, hn⟩ d = (outsAt0 V c n (Nat.lt_of_succ_lt hn)).st := by
  have hN : n + 1 < 8 := lt_of_lt_of_eq hn (show cfg0.N = 8 from N_0)
  rw [Dat.before_out_kept _ 8 rfl ⟨n + 1, hn⟩ (Nat.succ_ne_zero n)
    (Bool.eq_false_iff.mpr fun h => by have := (flush0_8 _).mp h; dsimp only at this; omega)
    liveAll0_8 (fun _ _ => rfl)]
  rw [after0_8]
  simp only [Nat.add_sub_cancel]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d))
          ∗ Pipeline.scopedRestBut (Ix := Unit) (Name := ℕ) (U := UR sig nD τ) (Lvl := ℕ) (Val := Elt F) spec0 c [cc0_scratch0, cc0_scratch1, cc0_scratch2])
        ∗ (∃ r, prngReg c r)) := by
  unfold Pipeline.ΦA; rw [scopedRest0_split]; simp only [scM0_0, scM0_1, scM0_2, owns_whole]; try rfl

theorem PhiS0_zero (c : Dev nD) (h : 0 ≤ cfg0.N) : PhiS0 V c 0 h = Pipeline.ΦA spec0 c := rfl

theorem PhiS0_succ (c : Dev nD) (n : ℕ) (hn : n < cfg0.N) :
    PhiS0 V c (n + 1) hn = iprop(iprop(iprop(owns (c : Thread nD τ) scM0_0 fullShare (outsAt0 V c n hn).yh
        ∗ owns (c : Thread nD τ) scM0_1 fullShare (outsAt0 V c n hn).yl
        ∗ owns (c : Thread nD τ) scM0_2 fullShare (outsAt0 V c n hn).corr)
      ∗ Pipeline.scopedRestBut (Ix := Unit) (Name := ℕ) (U := UR sig nD τ) (Lvl := ℕ) (Val := Elt F) spec0 c [cc0_scratch0, cc0_scratch1, cc0_scratch2])
      ∗ (∃ r, prngReg c r)) := rfl

theorem PhiS0_pos_out (c : Dev nD) (n : ℕ) (h : n ≤ cfg0.N) (hz : n ≠ 0) : PhiS0 V c n h ⊢ (Pipeline.ΦA spec0 c : sProp 𝕄) := by
  cases n with
  | zero => exact absurd rfl hz
  | succ n =>
    rw [PhiS0_succ, PhiA0_eq]
    iintro ⟨⟨⟨H0, H1, H2⟩, Hr⟩, Hg⟩
    iframe Hr Hg
    isplitl [H0]; · iexists _; iexact H0
    isplitl [H1]; · iexists _; iexact H1
    iexists _; iexact H2

end Cert.KernelIdeal.Hand

end
-- ==== Proof.KI.Reg0RunA.lean ====
import proofs.«163270_g1194000908387_cont_fleet_524_12_alg».proof.Proof.KI.Reg0Runs
import Idealize.ShloMosaic.Lib.Pipeline.TableIdle
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz0 : (![0, 0] : Fin 2 → Nat) = fun _ => 0 := funext fun a => by fin_cases a <;> rfl

theorem readCov_whole_ld0 {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩), View.canon_unit_zero h]

set_option maxHeartbeats 1000000 in
theorem kernelRun0_A (c : Dev nD) (i : grid0.Coords) (arg1 : Memref sig .tc .vmem S4096x256 .f32) (harg1 : arg1.IsWhole) (arg2 : Memref sig .tc .vmem S8x256 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S8x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S8x256 .f32) (harg12 : arg12.IsWhole) (hc0 : cond0_0 i) (hc1 : cond0_1 i) (hc2 : ¬cond0_2 i)
    (x0 : Vec F S4096x256 .f32) (x1 : Vec F S8x256 .f32) (x2 : Vec F S512x4096 .f32) (x3 : Vec F S256x256 .f32) (x4 : Vec F S1x256 .f32) (x5 : Vec F S1x256 .f32) (x6 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay5 x2 (k0_pay2 x0 x3) (k0_pay3 x0 x3) (View.ld (k0_pay4 x0 x3 x4) rowRect0)) ∗ owns (c : Thread nD τ) arg9 fullShare (k0_pay6 x2 (k0_pay2 x0 x3) (k0_pay3 x0 x3) (View.ld (k0_pay4 x0 x3 x4) rowRect0)) ∗ owns (c : Thread nD τ) arg10 fullShare (k0_pay2 x0 x3) ∗ owns (c : Thread nD τ) arg11 fullShare (k0_pay3 x0 x3) ∗ owns (c : Thread nD τ) arg12 fullShare (k0_pay4 x0 x3 x4)) -∗ K ⟨⟩))
      ⊢ wp frame (wpE (defs₀ (F := F)) Variants.none c none) E (cc0__layer_body i arg1 harg1 arg2 harg2 arg3 harg3 arg4 harg4 arg5 harg5 arg6 harg6 arg7 harg7 arg8 harg8 arg9 harg9 arg10 harg10 arg11 harg11 arg12 harg12) K := by
  simp only [cc0__layer_body_eq_skeleton]; unfold cc0__layer_body_skel
  simp only [owns_eq_rep (c : Thread nD τ) arg1, owns_eq_rep (c : Thread nD τ) arg2, owns_eq_rep (c : Thread nD τ) arg3, owns_eq_rep (c : Thread nD τ) arg4, owns_eq_rep (c : Thread nD τ) arg5, owns_eq_rep (c : Thread nD τ) arg6, owns_eq_rep (c : Thread nD τ) arg7]
  unfold owns
  iintro ⟨H0, H1, H2, H3, H4, H5, H6, ⟨%d7, %f7, -, H7⟩, ⟨%d8, %f8, -, H8⟩, ⟨%d9, %f9, -, H9⟩, ⟨%d10, %f10, -, H10⟩, ⟨%d11, %f11, -, H11⟩, Hk⟩
  sl_exec (disch := first | exact hc0 | exact hc1 | exact hc2)
  sl_step
  iapply Hk
  iframe H0 H1 H2 H3 H4 H5 H6
  isplitl [H7]
  · iexists _; isplitr; swap; · iexact H7
    ipureintro
    refine (View.read_writes_eq_canon _ _ _ (View.cover_of_tiledL _ S512x256.size (by sl_kernel_rfl))).trans ?_
    sl_unfold_words
    rw [View.canon_unit_zero (S := S512x256) hz0]
    simp only [View.readAt_eq_ld, View.read_rep,
      View.readCov_unit_zero (S := S4096x256) _ hz0, readCov_whole_ld0 (S := S8x256) _ hz0,
      View.ld_unit_zero (S := S4096x256) hz0, View.ld_unit_zero (S := S256x256) hz0, View.ld_unit_zero (S := S1x256) hz0, View.ld_unit_zero (S := S512x4096) hz0]
  isplitl [H8]
  · iexists _; isplitr; swap; · iexact H8
    ipureintro
    refine (View.read_writes_eq_canon _ _ _ (View.cover_of_tiledL _ S8x256.size (by sl_kernel_rfl))).trans ?_
    sl_unfold_words
    rw [View.canon_unit_zero (S := S8x256) hz0]
    simp only [View.readAt_eq_ld, View.read_rep,
      View.readCov_unit_zero (S := S4096x256) _ hz0, readCov_whole_ld0 (S := S8x256) _ hz0,
      View.ld_unit_zero (S := S4096x256) hz0, View.ld_unit_zero (S := S256x256) hz0, View.ld_unit_zero (S := S1x256) hz0, View.ld_unit_zero (S := S512x4096) hz0]
  isplitl [H9]
  · iexists _; isplitr; swap; · iexact H9
    ipureintro
    refine (View.read_writes_eq_canon _ _ _ (View.cover_of_tiledL _ S4096x256.size (by sl_kernel_rfl))).trans ?_
    sl_unfold_words
    rw [View.canon_unit_zero (S := S4096x256) hz0]
    simp only [View.readAt_eq_ld, View.read_rep,
      View.ld_unit_zero (S := S4096x256) hz0, View.ld_unit_zero (S := S256x256) hz0]
  isplitl [H10]
  · iexists _; isplitr; swap; · iexact H10
    ipureintro
    refine (View.read_writes_eq_canon _ _ _ (View.cover_of_tiledL _ S4096x256.size (by sl_kernel_rfl))).trans ?_
    sl_unfold_words
    rw [View.canon_unit_zero (S := S4096x256) hz0]
    simp only [View.readAt_eq_ld, View.read_rep,
      View.ld_unit_zero (S := S4096x256) hz0, View.ld_unit_zero (S := S256x256) hz0]
  iexists _; isplitr; swap; · iexact H11
  ipureintro
  refine (View.read_writes_eq_canon _ _ _ (View.cover_of_tiledL _ S8x256.size (by sl_kernel_rfl))).trans ?_
  sl_unfold_words
  rw [View.canon_unit_zero (S := S8x256) hz0]
  simp only [View.readAt_eq_ld, View.read_rep,
    View.ld_unit_zero (S := S4096x256) hz0, View.ld_unit_zero (S := S256x256) hz0, View.ld_unit_zero (S := S1x256) hz0]

end Cert.KernelIdeal.Hand

end
-- ==== Proof.KI.Reg0RunB.lean ====
import proofs.«163270_g1194000908387_cont_fleet_524_12_alg».proof.Proof.KI.Reg0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
theorem kernelRun0_B (c : Dev nD) (i : grid0.Coords) (arg1 : Memref sig .tc .vmem S4096x256 .f32) (harg1 : arg1.IsWhole) (arg2 : Memref sig .tc .vmem S8x256 .f32) (harg2 : arg2.IsWhole) (arg3 : Memref sig .tc .vmem S512x4096 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S8x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S8x256 .f32) (harg12 : arg12.IsWhole) (hc0 : ¬cond0_0 i) (hc1 : ¬cond0_1 i) (hc2 : cond0_2 i)
    (x0 : Vec F S4096x256 .f32) (x1 : Vec F S8x256 .f32) (x2 : Vec F S512x4096 .f32) (x3 : Vec F S256x256 .f32) (x4 : Vec F S1x256 .f32) (x5 : Vec F S1x256 .f32) (x6 : Vec F S1x256 .f32) (xo8 : Vec F S8x256 .f32) (xs0 : Vec F S4096x256 .bf16) (xs1 : Vec F S4096x256 .bf16) (xs2 : Vec F S8x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xs0 ∗ owns (c : Thread nD τ) arg11 fullShare xs1 ∗ owns (c : Thread nD τ) arg12 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay5 x2 xs0 xs1 (View.ld xs2 rowRect0)) ∗ owns (c : Thread nD τ) arg9 fullShare (k0_pay7 x2 xs0 xs1 (View.ld xs2 rowRect0) xo8) ∗ owns (c : Thread nD τ) arg10 fullShare xs0 ∗ owns (c : Thread nD τ) arg11 fullShare xs1 ∗ owns (c : Thread nD τ) arg12 fullShare xs2) -∗ K ⟨⟩))
      ⊢ wp frame (wpE (defs₀ (F := F)) Variants.none c none) E (cc0__layer_body i arg1 harg1 arg2 harg2 arg3 harg3 arg4 harg4 arg5 harg5 arg6 harg6 arg7 harg7 arg8 harg8 arg9 harg9 arg10 harg10 arg11 harg11 arg12 harg12) K := by
  simp only [cc0__layer_body_eq_skeleton]; unfold cc0__layer_body_skel
  simp only [owns_eq_rep (c : Thread nD τ) arg1, owns_eq_rep (c : Thread nD τ) arg2, owns_eq_rep (c : Thread nD τ) arg3, owns_eq_rep (c : Thread nD τ) arg4, owns_eq_rep (c : Thread nD τ) arg5, owns_eq_rep (c : Thread nD τ) arg6, owns_eq_rep (c : Thread nD τ) arg7, owns_eq_rep (c : Thread nD τ) arg10, owns_eq_rep (c : Thread nD τ) arg11, owns_eq_rep (c : Thread nD τ) arg12, owns_eq_rep (c : Thread nD τ) arg9 fullShare xo8]
  unfold owns
  iintro ⟨H0, H1, H2, H3, H4, H5, H6, ⟨%d7, %f7, -, H7⟩, H8, H9, H10, H11, Hk⟩
  sl_exec (disch := first | exact hc0 | exact hc1 | exact hc2)
  sl_step
  iapply Hk
  iframe H0 H1 H2 H3 H4 H5 H6 H9 H10 H11
  isplitl [H7]
  · iexists _; isplitr; swap; · iexact H7
    ipureintro
    refine (View.read_writes_eq_canon _ _ _ (View.cover_of_tiledL _ S512x256.size (by sl_kernel_rfl))).trans ?_
    sl_unfold_words
    rw [View.canon_unit_zero (S := S512x256) hz0]
    simp only [View.readAt_eq_ld, View.read_rep,
      View.ld_unit_zero (S := S512x4096) hz0, View.ld_unit_zero (S := S4096x256) hz0]
  iexists _; isplitr; swap; · iexact H8
  ipureintro
  refine (View.read_writes_eq_canon _ _ _ (View.cover_of_tiledL _ S8x256.size (by sl_kernel_rfl))).trans ?_
  sl_unfold_words
  rw [View.canon_unit_zero (S := S8x256) hz0]
  simp only [View.readAt_eq_ld, View.read_rep,
    View.ld_unit_zero (S := S512x4096) hz0, View.ld_unit_zero (S := S4096x256) hz0, View.ld_unit_zero (S := S8x256) hz0]

end Cert.KernelIdeal.Hand

end
-- ==== Proof.KI.Reg0.lean ====
import proofs.«163270_g1194000908387_cont_fleet_524_12_alg».proof.Proof.KI.Defs
import proofs.«163270_g1194000908387_cont_fleet_524_12_alg».proof.Proof.KI.Reg0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem leaves0 (c : Dev nD) (t : Fin cfg0.N) (w : Fin cfg0.W) (h : cfg0.idle w (grid0.coords t) = false) :
    (dat0 V c).leavesExact w t = owns (c : Thread nD τ) ((cfg0.win w).stage (cfg0.slots t w)) fullShare ((dat0 V c).after w t) := by
  unfold Dat.leavesExact; rw [h]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (ms0_0 t) fullShare (iblk0 V c 0 t)
    ∗ owns (c : Thread nD τ) (ms0_1 t) fullShare (iblk0 V c 1 t)
    ∗ owns (c : Thread nD τ) (ms0_2 t) fullShare (iblk0 V c 2 t)
    ∗ owns (c : Thread nD τ) (ms0_3 t) fullShare (iblk0 V c 3 t)
    ∗ owns (c : Thread nD τ) (ms0_4 t) fullShare (iblk0 V c 4 t)
    ∗ owns (c : Thread nD τ) (ms0_5 t) fullShare (iblk0 V c 5 t)
    ∗ owns (c : Thread nD τ) (ms0_6 t) fullShare (iblk0 V c 6 t)
    ∗ (dat0 V c).leavesExact 7 t
    ∗ (dat0 V c).leavesExact 8 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    leaves0 V c t 7 (liveAt0_7 t), after0_7, leaves0 V c t 8 (liveAt0_8 t), after0_8]
  obtain ⟨n, hn⟩ := t
  cases n with
  | zero =>
    rw [show (dat0 V c).Φ (Fin.castSucc ⟨0, hn⟩) = Pipeline.ΦA spec0 c from rfl, PhiA0_eq,
      show (dat0 V c).Φ (Fin.succ ⟨0, hn⟩) = PhiS0 V c (0 + 1) hn from rfl, PhiS0_succ]
    dsimp only
    rw [outsAt0_zero]
    dsimp only [first0]
    iintro ⟨⟨⟨⟨S0, S1, S2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (kernelRun0_A c (grid0.coords ⟨0, hn⟩) _ _ _ _ _ _ _ _ _ _ _ _ _ _ _ _ _ _ _ _ _ _ _ _ ((hcond0_0 ⟨0, hn⟩).mpr rfl) ((hcond0_1 ⟨0, hn⟩).mpr rfl) (fun h => (hcond0_2 ⟨0, hn⟩).mp h rfl)
      (hblk0 V c ⟨0, hn⟩) (sblk0 V c ⟨0, hn⟩) (ablk0 V c ⟨0, hn⟩) (wblk0 V c ⟨0, hn⟩) (bblk0 V c ⟨0, hn⟩) (gblk0 V c ⟨0, hn⟩) (tblk0 V c ⟨0, hn⟩) Set.univ _)
    iframe H0 H1 H2 H3 H4 H5 H6 S0 S1 S2
    isplitl [H7]; · iexists _; iexact H7
    isplitl [H8]; · iexists _; iexact H8
    iintro ⟨H0, H1, H2, H3, H4, H5, H6, H7, H8, S0, S1, S2⟩
    iframe
  | succ n =>
    simp only [before0_8_B]
    rw [show (dat0 V c).Φ (Fin.castSucc ⟨n + 1, hn⟩) = PhiS0 V c (n + 1) (Nat.lt_of_succ_lt hn) from rfl, PhiS0_succ,
      show (dat0 V c).Φ (Fin.succ ⟨n + 1, hn⟩) = PhiS0 V c (n + 1 + 1) hn from rfl, PhiS0_succ]
    dsimp only
    rw [outsAt0_succ]
    dsimp only [next0]
    iintro ⟨⟨⟨⟨S0, S1, S2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (kernelRun0_B c (grid0.coords ⟨n + 1, hn⟩) _ _ _ _ _ _ _ _ _ _ _ _ _ _ _ _ _ _ _ _ _ _ _ _ (fun h => Nat.succ_ne_zero n ((hcond0_0 ⟨n + 1, hn⟩).mp h)) (fun h => Nat.succ_ne_zero n ((hcond0_1 ⟨n + 1, hn⟩).mp h)) ((hcond0_2 ⟨n + 1, hn⟩).mpr (Nat.succ_ne_zero n))
      (hblk0 V c ⟨n + 1, hn⟩) (sblk0 V c ⟨n + 1, hn⟩) (ablk0 V c ⟨n + 1, hn⟩) (wblk0 V c ⟨n + 1, hn⟩) (bblk0 V c ⟨n + 1, hn⟩) (gblk0 V c ⟨n + 1, hn⟩) (tblk0 V c ⟨n + 1, hn⟩)
      (outsAt0 V c n (Nat.lt_of_succ_lt hn)).st (outsAt0 V c n (Nat.lt_of_succ_lt hn)).yh (outsAt0 V c n (Nat.lt_of_succ_lt hn)).yl (outsAt0 V c n (Nat.lt_of_succ_lt hn)).corr Set.univ _)
    iframe H0 H1 H2 H3 H4 H5 H6 H8 S0 S1 S2
    isplitl [H7]; · iexists _; iexact H7
    iintro ⟨H0, H1, H2, H3, H4, H5, H6, H7, H8, S0, S1, S2⟩
    iframe

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero]
  try exact Idealize.SL.BI.Entails.refl _

theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl]
  exact PhiS0_pos_out V c _ _ (by rw [Fin.val_last]; have : cfg0.N = 8 := N_0; omega)

end Cert.KernelIdeal.Hand

end
-- ==== Proof.KI.Reg1Runs.lean ====
import proofs.«163270_g1194000908387_cont_fleet_524_12_alg».proof.Proof.KI.Defs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 0).val) 0#32)) 0#32) = 1#1
theorem hcond1_0 : ∀ t : Fin grid1.N, cond1_0 (grid1.coords t) ↔ t.val = 0 := by decide +kernel

abbrev cond1_1 (i : grid1.Coords) : Prop := k1_cond2 i = 1#1
theorem hcond1_1 : ∀ t : Fin grid1.N, cond1_1 (grid1.coords t) ↔ t.val = 0 := by decide +kernel

abbrev cond1_2 (i : grid1.Coords) : Prop := k1_cond3 i = 1#1
theorem hcond1_2 : ∀ t : Fin grid1.N, cond1_2 (grid1.coords t) ↔ t.val ≠ 0 := by decide +kernel

theorem live1 : ∀ (w : Fin cfg1.W) (i : grid1.Coords), cfg1.idle w i = false := by decide +kernel

theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t)
    ∧ (∀ d, (dat1 V c).before 6 t d = iblk1 V c 6 t) := by
  refine ⟨?_, ?_, ?_, ?_, ?_, ?_, ?_⟩ <;> intro d <;>
  exact (dat1 V c).before_in_eq_fetched _ rfl (live1 _) (fun _ _ _ => rfl) (fun _ => rfl) t d

theorem before1_8_B (c : Dev nD) (t : Fin cfg1.N) (hz : t.val ≠ 0) (d) :
    (dat1 V c).before 8 t d = (outsAt1 V c (t.val - 1) (Nat.lt_of_le_of_lt (Nat.sub_le _ _) t.isLt)).st := by
  have hN : t.val < 8 := lt_of_lt_of_eq t.isLt (show cfg1.N = 8 from N_1)
  rw [Dat.before_out_kept _ 8 rfl t hz (Bool.eq_false_iff.mpr fun h => by have := (flush1_8 _).mp h; dsimp only at this; omega)
    (live1 8) (fun _ _ => rfl)]
  dsimp only [dat1]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2])
          ∗ (∃ r, prngReg c r)) := by
  unfold Pipeline.ΦA; rw [scopedRest1_split]; simp only [scM1_0, scM1_1, scM1_2, owns_whole]; try rfl

end Cert.KernelIdeal.Hand

end
-- ==== Proof.KI.Reg1RunA.lean ====
import proofs.«163270_g1194000908387_cont_fleet_524_12_alg».proof.Proof.KI.Reg1Runs
import Idealize.ShloMosaic.Lib.Pipeline.Value
import Idealize.ShloMosaic.Lib.Pipeline.TableIdle

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

theorem hzero1 : (![0, 0] : Fin 2 → Nat) = fun _ => 0 := funext fun a => by fin_cases a <;> rfl

-- One store through the whole-buffer rectangle covers the buffer: it reads back as the payload, whatever was there.
theorem stored1 {s : Shape} {e : EltTy} (v : View sig .tc .vmem s e) (f : v.ty.Contents (Elt F)) {off : Fin s.rank → Nat} (h : off = fun _ => 0) (inb) (w : Vec F s e) :
    v.read (Elt F) (v.writes (Elt F) f [⟨Rect.unit off s.size inb, w⟩]) = w := by
  rw [View.read_writes_eq_canon _ _ _ fun y => ⟨_, List.mem_singleton_self _, View.mem_set_unit_zero h inb y⟩, View.canon_unit_zero h]

set_option maxHeartbeats 4000000 in
-- At the first point the body keeps its seven inputs and fills the five written buffers with what `first1` names.
theorem kernelRun1_A (c : Dev nD) (i : grid1.Coords)
    (mh : Memref sig .tc .vmem S4096x256 .f32) (wh : mh.IsWhole) (ms : Memref sig .tc .vmem S8x256 .f32) (ws : ms.IsWhole)
    (ma : Memref sig .tc .vmem S512x4096 .f32) (wa : ma.IsWhole) (mw : Memref sig .tc .vmem S256x256 .f32) (ww : mw.IsWhole)
    (mb : Memref sig .tc .vmem S1x256 .f32) (wb : mb.IsWhole) (mg : Memref sig .tc .vmem S1x256 .f32) (wg : mg.IsWhole)
    (mt : Memref sig .tc .vmem S1x256 .f32) (wt : mt.IsWhole)
    (mr : Memref sig .tc .vmem S512x256 .f32) (wr : mr.IsWhole) (mq : Memref sig .tc .vmem S8x256 .f32) (wq : mq.IsWhole)
    (mu : Memref sig .tc .vmem S4096x256 .bf16) (wu : mu.IsWhole) (mv : Memref sig .tc .vmem S4096x256 .bf16) (wv : mv.IsWhole)
    (mz : Memref sig .tc .vmem S8x256 .f32) (wz : mz.IsWhole)
    (hcp : cond1_0 i) (hcq : cond1_1 i) (hcr : ¬cond1_2 i)
    (xh : Vec F S4096x256 .f32) (xs : Vec F S8x256 .f32) (xa : Vec F S512x4096 .f32) (xw : Vec F S256x256 .f32)
    (xb xg xt : Vec F S1x256 .f32) (E : Set ℕ) (K : PUnit → sProp 𝕄) :
    iprop(owns (c : Thread nD τ) mh fullShare xh ∗ owns (c : Thread nD τ) ms fullShare xs ∗ owns (c : Thread nD τ) ma fullShare xa
        ∗ owns (c : Thread nD τ) mw fullShare xw ∗ owns (c : Thread nD τ) mb fullShare xb ∗ owns (c : Thread nD τ) mg fullShare xg
        ∗ owns (c : Thread nD τ) mt fullShare xt
        ∗ (∃ d, owns (c : Thread nD τ) mr fullShare d) ∗ (∃ d, owns (c : Thread nD τ) mq fullShare d)
        ∗ (∃ d, owns (c : Thread nD τ) mu fullShare d) ∗ (∃ d, owns (c : Thread nD τ) mv fullShare d) ∗ (∃ d, owns (c : Thread nD τ) mz fullShare d)
        ∗ (iprop(owns (c : Thread nD τ) mh fullShare xh ∗ owns (c : Thread nD τ) ms fullShare xs ∗ owns (c : Thread nD τ) ma fullShare xa
        ∗ owns (c : Thread nD τ) mw fullShare xw ∗ owns (c : Thread nD τ) mb fullShare xb ∗ owns (c : Thread nD τ) mg fullShare xg
        ∗ owns (c : Thread nD τ) mt fullShare xt
            ∗ owns (c : Thread nD τ) mr fullShare (first1 xh xs xa xw xb xg xt).r ∗ owns (c : Thread nD τ) mq fullShare (first1 xh xs xa xw xb xg xt).st
            ∗ owns (c : Thread nD τ) mu fullShare (first1 xh xs xa xw xb xg xt).yh ∗ owns (c : Thread nD τ) mv fullShare (first1 xh xs xa xw xb xg xt).yl
            ∗ owns (c : Thread nD τ) mz fullShare (first1 xh xs xa xw xb xg xt).corr) -∗ K ⟨⟩))
      ⊢ wp frame (wpE (defs₀ (F := F)) Variants.none c none) E (cc1__layer_body i mh wh ms ws ma wa mw ww mb wb mg wg mt wt mr wr mq wq mu wu mv wv mz wz) K := by
  simp only [cc1__layer_body_eq_skeleton]; unfold cc1__layer_body_skel
  simp only [k1_part1_eq_skeleton, owns_eq_rep]
  iintro ⟨Hh, Hs, Ha, Hw, Hb, Hg, Ht, ⟨%dr, Hr⟩, ⟨%dq, Hq⟩, ⟨%du, Hu⟩, ⟨%dv, Hv⟩, ⟨%dz, Hz⟩, Hk⟩
  sl_exec (disch := first | exact hcp | exact hcq | exact hcr)
  sl_step
  iapply Hk
  iframe Hh Hs Ha Hw Hb Hg Ht
  sl_unfold_words
  rw [View.readCov_unit_zero (S := S4096x256) mu.view hzero1, View.readCov_unit_zero (S := S4096x256) mv.view hzero1,
    View.readCov_eq_canon', View.canon_unit_zero (S := S8x256) hzero1]
  simp only [← owns_eq_rep, View.readAt_eq_ld, View.read_rep, View.ld_unit_zero (S := S4096x256) hzero1, View.ld_unit_zero (S := S512x4096) hzero1,
    View.ld_unit_zero (S := S256x256) hzero1, View.ld_unit_zero (S := S1x256) hzero1]
  unfold owns
  isplitl [Hr]; rotate_left
  isplitl [Hq]; rotate_left
  isplitl [Hu]; rotate_left
  isplitl [Hv]; rotate_left
  all_goals
    iexists _; isplitr; swap; · iassumption
    ipureintro; exact stored1 _ _ hzero1 _ _

end Cert.KernelIdeal.Hand

end
-- ==== Proof.KI.Reg1RunB.lean ====
import proofs.«163270_g1194000908387_cont_fleet_524_12_alg».proof.Proof.KI.Reg1RunA

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 4000000 in
-- At a later point the body keeps its inputs and the three scratch buffers and leaves what `next1` names of the point before.
theorem kernelRun1_B (c : Dev nD) (i : grid1.Coords)
    (mh : Memref sig .tc .vmem S4096x256 .f32) (wh : mh.IsWhole) (ms : Memref sig .tc .vmem S8x256 .f32) (ws : ms.IsWhole)
    (ma : Memref sig .tc .vmem S512x4096 .f32) (wa : ma.IsWhole) (mw : Memref sig .tc .vmem S256x256 .f32) (ww : mw.IsWhole)
    (mb : Memref sig .tc .vmem S1x256 .f32) (wb : mb.IsWhole) (mg : Memref sig .tc .vmem S1x256 .f32) (wg : mg.IsWhole)
    (mt : Memref sig .tc .vmem S1x256 .f32) (wt : mt.IsWhole)
    (mr : Memref sig .tc .vmem S512x256 .f32) (wr : mr.IsWhole) (mq : Memref sig .tc .vmem S8x256 .f32) (wq : mq.IsWhole)
    (mu : Memref sig .tc .vmem S4096x256 .bf16) (wu : mu.IsWhole) (mv : Memref sig .tc .vmem S4096x256 .bf16) (wv : mv.IsWhole)
    (mz : Memref sig .tc .vmem S8x256 .f32) (wz : mz.IsWhole)
    (hcp : ¬cond1_0 i) (hcq : ¬cond1_1 i) (hcr : cond1_2 i)
    (xh : Vec F S4096x256 .f32) (xs : Vec F S8x256 .f32) (xa : Vec F S512x4096 .f32) (xw : Vec F S256x256 .f32)
    (xb xg xt : Vec F S1x256 .f32) (p : Out F) (E : Set ℕ) (K : PUnit → sProp 𝕄) :
    iprop(owns (c : Thread nD τ) mh fullShare xh ∗ owns (c : Thread nD τ) ms fullShare xs ∗ owns (c : Thread nD τ) ma fullShare xa
        ∗ owns (c : Thread nD τ) mw fullShare xw ∗ owns (c : Thread nD τ) mb fullShare xb ∗ owns (c : Thread nD τ) mg fullShare xg
        ∗ owns (c : Thread nD τ) mt fullShare xt
        ∗ (∃ d, owns (c : Thread nD τ) mr fullShare d) ∗ owns (c : Thread nD τ) mq fullShare p.st
        ∗ owns (c : Thread nD τ) mu fullShare p.yh ∗ owns (c : Thread nD τ) mv fullShare p.yl ∗ owns (c : Thread nD τ) mz fullShare p.corr
        ∗ (iprop(owns (c : Thread nD τ) mh fullShare xh ∗ owns (c : Thread nD τ) ms fullShare xs ∗ owns (c : Thread nD τ) ma fullShare xa
        ∗ owns (c : Thread nD τ) mw fullShare xw ∗ owns (c : Thread nD τ) mb fullShare xb ∗ owns (c : Thread nD τ) mg fullShare xg
        ∗ owns (c : Thread nD τ) mt fullShare xt
            ∗ owns (c : Thread nD τ) mr fullShare (next1 xa p).r ∗ owns (c : Thread nD τ) mq fullShare (next1 xa p).st
            ∗ owns (c : Thread nD τ) mu fullShare (next1 xa p).yh ∗ owns (c : Thread nD τ) mv fullShare (next1 xa p).yl
            ∗ owns (c : Thread nD τ) mz fullShare (next1 xa p).corr) -∗ K ⟨⟩))
      ⊢ wp frame (wpE (defs₀ (F := F)) Variants.none c none) E (cc1__layer_body i mh wh ms ws ma wa mw ww mb wb mg wg mt wt mr wr mq wq mu wu mv wv mz wz) K := by
  simp only [cc1__layer_body_eq_skeleton]; unfold cc1__layer_body_skel
  simp only [k1_part1_eq_skeleton, owns_eq_rep]
  dsimp only [next1]
  iintro ⟨Hh, Hs, Ha, Hw, Hb, Hg, Ht, ⟨%dr, Hr⟩, Hq, Hu, Hv, Hz, Hk⟩
  sl_exec (disch := first | exact hcp | exact hcq | exact hcr)
  sl_step
  iapply Hk
  iframe Hh Hs Ha Hw Hb Hg Ht Hu Hv Hz
  sl_unfold_words
  simp only [← owns_eq_rep, View.readAt_eq_ld, View.read_rep, View.ld_unit_zero (S := S4096x256) hzero1, View.ld_unit_zero (S := S512x4096) hzero1,
    View.ld_unit_zero (S := S256x256) hzero1, View.ld_unit_zero (S := S1x256) hzero1, View.ld_unit_zero (S := S8x256) hzero1]
  unfold owns
  isplitl [Hr]
  all_goals
    iexists _; isplitr; swap; · iassumption
    ipureintro; exact stored1 _ _ hzero1 _ _

-- The third region's kernel function is the second's.
theorem layer_body_eq : @cc2__layer_body = @cc1__layer_body := rfl

end Cert.KernelIdeal.Hand

end
-- ==== Proof.KI.Reg1.lean ====
import proofs.«163270_g1194000908387_cont_fleet_524_12_alg».proof.Proof.KI.Reg1Runs
import proofs.«163270_g1194000908387_cont_fleet_524_12_alg».proof.Proof.KI.Reg1RunB

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem outsAt1_A (c : Dev nD) (t : Fin cfg1.N) (hz : t.val = 0) :
    outsAt1 V c t.val t.isLt = first1 (hblk1 V c t) (sblk1 V c t) (ablk1 V c t) (wblk1 V c t) (bblk1 V c t) (gblk1 V c t) (tblk1 V c t) := by
  obtain ⟨_ | n, hn⟩ := t
  exacts [rfl, absurd hz (Nat.succ_ne_zero n)]

theorem outsAt1_B (c : Dev nD) (t : Fin cfg1.N) (hz : t.val ≠ 0) :
    outsAt1 V c t.val t.isLt = next1 (ablk1 V c t) (outsAt1 V c (t.val - 1) (Nat.lt_of_le_of_lt (Nat.sub_le _ _) t.isLt)) := by
  obtain ⟨_ | n, hn⟩ := t
  exacts [absurd rfl hz, rfl]

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) : PhiS1 V c n h = PhiS1 V c (n - 1 + 1) (by omega) := by
  obtain _ | n := n
  exacts [absurd rfl hz, rfl]

set_option maxHeartbeats 4000000 in
-- The body at every point: the first point fills the three scratch buffers, a later one finds them as the point before left them.
theorem body_obligation1 (c : Dev nD) : BodyObligation (dat1 (F := F) V c) (defs₀ (F := F)) Variants.none () Set.univ := fun t => by
  rw [bigSep_W1, bigSep_W1]
  simp only [before1 V c t, after1_0, after1_1, after1_2, after1_3, after1_4, after1_5, after1_6, after1_7, after1_8]
  rw [show idle1 8 (grid1.coords t) = false from live1 8 _]
  rw [show (dat1 V c).owesAt () t.succ = (dat1 V c).owesAt () t.castSucc from rfl]
  rw [show (dat1 V c).Φ t.succ = PhiS1 V c (t.val + 1) t.isLt from rfl, show (dat1 V c).Φ t.castSucc = PhiS1 V c t.val (Nat.le_of_lt t.isLt) from rfl]
  change _ ⊢ wp frame _ _ (bodyAt1 t) _
  by_cases hz : t.val = 0
  · rw [PhiS1_zero V c _ _ hz, PhiA1_eq]
    simp only [PhiS1, outsAt1_A V c t hz]
    iintro ⟨⟨⟨⟨Hu, Hv, Hz⟩, Hrest⟩, Hprng⟩, Ho, ⟨%dh, Gh⟩, ⟨%ds, Gs⟩, ⟨%da, Ga⟩, ⟨%dw, Gw⟩, ⟨%db, Gb⟩, ⟨%dg, Gg⟩, ⟨%dt, Gt⟩, ⟨%dr, Gr⟩, ⟨%dq, Gq⟩⟩
    simp only [bodyAt1, layer_body_eq]
    iapply (kernelRun1_A c _ _ _ _ _ _ _ _ _ _ _ _ _ _ _ _ _ _ _ _ _ _ _ _ _ ((hcond1_0 t).mpr hz) ((hcond1_1 t).mpr hz) (fun h => (hcond1_2 t).mp h hz)
      (hblk1 V c t) (sblk1 V c t) (ablk1 V c t) (wblk1 V c t) (bblk1 V c t) (gblk1 V c t) (tblk1 V c t) Set.univ _)
    iframe Gh Gs Ga Gw Gb Gg Gt Hu Hv Hz
    isplitl [Gr]; · iexists _; iexact Gr
    isplitl [Gq]; · iexists _; iexact Gq
    iintro ⟨Gh, Gs, Ga, Gw, Gb, Gg, Gt, Gr, Gq, Hu, Hv, Hz⟩
    iframe
  · rw [PhiS1_pos V c _ _ hz]
    simp only [PhiS1, outsAt1_B V c t hz, before1_8_B V c t hz]
    iintro ⟨⟨⟨⟨Hu, Hv, Hz⟩, Hrest⟩, Hprng⟩, Ho, ⟨%dh, Gh⟩, ⟨%ds, Gs⟩, ⟨%da, Ga⟩, ⟨%dw, Gw⟩, ⟨%db, Gb⟩, ⟨%dg, Gg⟩, ⟨%dt, Gt⟩, ⟨%dr, Gr⟩, ⟨%dq, Gq⟩⟩
    simp only [bodyAt1, layer_body_eq]
    iapply (kernelRun1_B c _ _ _ _ _ _ _ _ _ _ _ _ _ _ _ _ _ _ _ _ _ _ _ _ _ (fun h => hz ((hcond1_0 t).mp h)) (fun h => hz ((hcond1_1 t).mp h)) ((hcond1_2 t).mpr hz)
      (hblk1 V c t) (sblk1 V c t) (ablk1 V c t) (wblk1 V c t) (bblk1 V c t) (gblk1 V c t) (tblk1 V c t) (outsAt1 V c (t.val - 1) (Nat.lt_of_le_of_lt (Nat.sub_le _ _) t.isLt)) Set.univ _)
    iframe Gh Gs Ga Gw Gb Gg Gt Gq Hu Hv Hz
    isplitl [Gr]; · iexists _; iexact Gr
    iintro ⟨Gh, Gs, Ga, Gw, Gb, Gg, Gt, Gr, Gq, Hu, Hv, Hz⟩
    iframe

theorem hin1 (c : Dev nD) : (Pipeline.ΦA spec1 c : sProp 𝕄) ⊢ (dat1 V c).Φ 0 := Entails.refl _

-- After any point but the first the named contents of the three scratch buffers are forgotten.
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega), PhiA1_eq]
  simp only [PhiS1]
  iintro ⟨⟨⟨Hu, Hv, Hz⟩, Hrest⟩, Hprng⟩
  iframe Hrest Hprng
  isplitl [Hu]; · iexists _; iexact Hu
  isplitl [Hv]; · iexists _; iexact Hv
  iexists _; iexact Hz

end Cert.KernelIdeal.Hand

end
-- ==== Proof.KI.Reg2Runs.lean ====
import proofs.«163270_g1194000908387_cont_fleet_524_12_alg».proof.Proof.KI.Defs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 0).val) 0#32)) 0#32) = 1#1
theorem hcond2_0 : ∀ t : Fin grid2.N, cond2_0 (grid2.coords t) ↔ t.val = 0 := by decide +kernel

abbrev cond2_1 (i : grid2.Coords) : Prop := k2_cond2 i = 1#1
theorem hcond2_1 : ∀ t : Fin grid2.N, cond2_1 (grid2.coords t) ↔ t.val = 0 := by decide +kernel

abbrev cond2_2 (i : grid2.Coords) : Prop := k2_cond3 i = 1#1
theorem hcond2_2 : ∀ t : Fin grid2.N, cond2_2 (grid2.coords t) ↔ t.val ≠ 0 := by decide +kernel

theorem live2 : ∀ (w : Fin cfg2.W) (i : grid2.Coords), cfg2.idle w i = false := by decide +kernel

theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t)
    ∧ (∀ d, (dat2 V c).before 6 t d = iblk2 V c 6 t) := by
  refine ⟨?_, ?_, ?_, ?_, ?_, ?_, ?_⟩ <;> intro d <;>
  exact (dat2 V c).before_in_eq_fetched _ rfl (live2 _) (fun _ _ _ => rfl) (fun _ => rfl) t d

theorem before2_8_B (c : Dev nD) (t : Fin cfg2.N) (hz : t.val ≠ 0) (d) :
    (dat2 V c).before 8 t d = (outsAt2 V c (t.val - 1) (Nat.lt_of_le_of_lt (Nat.sub_le _ _) t.isLt)).st := by
  have hN : t.val < 8 := lt_of_lt_of_eq t.isLt (show cfg2.N = 8 from N_2)
  rw [Dat.before_out_kept _ 8 rfl t hz (Bool.eq_false_iff.mpr fun h => by have := (flush2_8 _).mp h; dsimp only at this; omega)
    (live2 8) (fun _ _ => rfl)]
  dsimp only [dat2]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
          ∗ Pipeline.scopedRestBut (Ix := Unit) (Name := ℕ) (U := UR sig nD τ) (Lvl := ℕ) (Val := Elt F) spec2 c [cc2_scratch0, cc2_scratch1, cc2_scratch2])
          ∗ (∃ r, prngReg c r)) := by
  unfold Pipeline.ΦA; rw [scopedRest2_split]; simp only [scM2_0, scM2_1, scM2_2, owns_whole]; try rfl

end Cert.KernelIdeal.Hand

end
-- ==== Proof.KI.Reg2.lean ====
import proofs.«163270_g1194000908387_cont_fleet_524_12_alg».proof.Proof.KI.Reg2Runs
import proofs.«163270_g1194000908387_cont_fleet_524_12_alg».proof.Proof.KI.Reg1RunB

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem outsAt2_A (c : Dev nD) (t : Fin cfg2.N) (hz : t.val = 0) :
    outsAt2 V c t.val t.isLt = first1 (hblk2 V c t) (sblk2 V c t) (ablk2 V c t) (wblk2 V c t) (bblk2 V c t) (gblk2 V c t) (tblk2 V c t) := by
  obtain ⟨_ | n, hn⟩ := t
  exacts [rfl, absurd hz (Nat.succ_ne_zero n)]

theorem outsAt2_B (c : Dev nD) (t : Fin cfg2.N) (hz : t.val ≠ 0) :
    outsAt2 V c t.val t.isLt = next1 (ablk2 V c t) (outsAt2 V c (t.val - 1) (Nat.lt_of_le_of_lt (Nat.sub_le _ _) t.isLt)) := by
  obtain ⟨_ | n, hn⟩ := t
  exacts [absurd rfl hz, rfl]

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) : PhiS2 V c n h = PhiS2 V c (n - 1 + 1) (by omega) := by
  obtain _ | n := n
  exacts [absurd rfl hz, rfl]

set_option maxHeartbeats 4000000 in
-- The body at every point: the first point fills the three scratch buffers, a later one finds them as the point before left them.
theorem body_obligation2 (c : Dev nD) : BodyObligation (dat2 (F := F) V c) (defs₀ (F := F)) Variants.none () Set.univ := fun t => by
  rw [bigSep_W2, bigSep_W2]
  simp only [before2 V c t, after2_0, after2_1, after2_2, after2_3, after2_4, after2_5, after2_6, after2_7, after2_8]
  rw [show idle2 8 (grid2.coords t) = false from live2 8 _]
  rw [show (dat2 V c).owesAt () t.succ = (dat2 V c).owesAt () t.castSucc from rfl]
  rw [show (dat2 V c).Φ t.succ = PhiS2 V c (t.val + 1) t.isLt from rfl, show (dat2 V c).Φ t.castSucc = PhiS2 V c t.val (Nat.le_of_lt t.isLt) from rfl]
  change _ ⊢ wp frame _ _ (bodyAt2 t) _
  by_cases hz : t.val = 0
  · rw [PhiS2_zero V c _ _ hz, PhiA2_eq]
    simp only [PhiS2, outsAt2_A V c t hz]
    iintro ⟨⟨⟨⟨Hu, Hv, Hz⟩, Hrest⟩, Hprng⟩, Ho, ⟨%dh, Gh⟩, ⟨%ds, Gs⟩, ⟨%da, Ga⟩, ⟨%dw, Gw⟩, ⟨%db, Gb⟩, ⟨%dg, Gg⟩, ⟨%dt, Gt⟩, ⟨%dr, Gr⟩, ⟨%dq, Gq⟩⟩
    simp only [bodyAt2, layer_body_eq]
    iapply (kernelRun1_A c _ _ _ _ _ _ _ _ _ _ _ _ _ _ _ _ _ _ _ _ _ _ _ _ _ ((hcond2_0 t).mpr hz) ((hcond2_1 t).mpr hz) (fun h => (hcond2_2 t).mp h hz)
      (hblk2 V c t) (sblk2 V c t) (ablk2 V c t) (wblk2 V c t) (bblk2 V c t) (gblk2 V c t) (tblk2 V c t) Set.univ _)
    iframe Gh Gs Ga Gw Gb Gg Gt Hu Hv Hz
    isplitl [Gr]; · iexists _; iexact Gr
    isplitl [Gq]; · iexists _; iexact Gq
    iintro ⟨Gh, Gs, Ga, Gw, Gb, Gg, Gt, Gr, Gq, Hu, Hv, Hz⟩
    iframe
  · rw [PhiS2_pos V c _ _ hz]
    simp only [PhiS2, outsAt2_B V c t hz, before2_8_B V c t hz]
    iintro ⟨⟨⟨⟨Hu, Hv, Hz⟩, Hrest⟩, Hprng⟩, Ho, ⟨%dh, Gh⟩, ⟨%ds, Gs⟩, ⟨%da, Ga⟩, ⟨%dw, Gw⟩, ⟨%db, Gb⟩, ⟨%dg, Gg⟩, ⟨%dt, Gt⟩, ⟨%dr, Gr⟩, ⟨%dq, Gq⟩⟩
    simp only [bodyAt2, layer_body_eq]
    iapply (kernelRun1_B c _ _ _ _ _ _ _ _ _ _ _ _ _ _ _ _ _ _ _ _ _ _ _ _ _ (fun h => hz ((hcond2_0 t).mp h)) (fun h => hz ((hcond2_1 t).mp h)) ((hcond2_2 t).mpr hz)
      (hblk2 V c t) (sblk2 V c t) (ablk2 V c t) (wblk2 V c t) (bblk2 V c t) (gblk2 V c t) (tblk2 V c t) (outsAt2 V c (t.val - 1) (Nat.lt_of_le_of_lt (Nat.sub_le _ _) t.isLt)) Set.univ _)
    iframe Gh Gs Ga Gw Gb Gg Gt Gq Hu Hv Hz
    isplitl [Gr]; · iexists _; iexact Gr
    iintro ⟨Gh, Gs, Ga, Gw, Gb, Gg, Gt, Gr, Gq, Hu, Hv, Hz⟩
    iframe

theorem hin2 (c : Dev nD) : (Pipeline.ΦA spec2 c : sProp 𝕄) ⊢ (dat2 V c).Φ 0 := Entails.refl _

-- After any point but the first the named contents of the three scratch buffers are forgotten.
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 8 := N_2; omega), PhiA2_eq]
  simp only [PhiS2]
  iintro ⟨⟨⟨Hu, Hv, Hz⟩, Hrest⟩, Hprng⟩
  iframe Hrest Hprng
  isplitl [Hu]; · iexists _; iexact Hu
  isplitl [Hv]; · iexists _; iexact Hv
  iexists _; iexact Hz

end Cert.KernelIdeal.Hand

end
-- ==== Proof.KI.Reg3.lean ====
import proofs.«163270_g1194000908387_cont_fleet_524_12_alg».proof.Proof.KI.Defs
import Idealize.ShloMosaic.Lib.Pipeline.Value
import Idealize.ShloMosaic.Lib.Pipeline.TableIdle

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zeros3 : (![0, 0] : Fin 2 → ℕ) = fun _ => 0 := funext fun a => by fin_cases a <;> rfl

theorem before3 (c : Dev nD) (t : Fin cfg3.N) :
    (∀ d, (dat3 V c).before 0 t d = iblk3 V c 0 t) ∧ (∀ d, (dat3 V c).before 1 t d = iblk3 V c 1 t)
    ∧ (∀ d, (dat3 V c).before 2 t d = iblk3 V c 2 t) ∧ (∀ d, (dat3 V c).before 3 t d = iblk3 V c 3 t) := by
  refine ⟨?_, ?_, ?_, ?_⟩ <;> exact fun d => (dat3 V c).before_in_eq_fetched _ rfl (fun _ => rfl) (fun _ _ _ => rfl) (fun _ => rfl) t d

set_option maxHeartbeats 1000000 in
theorem sound_kernel3 (c : Dev nD) (E : Set ℕ)
    (arg0 : Memref sig .tc .vmem S4096x256 .f32) (harg0 : arg0.IsWhole)
    (arg1 : Memref sig .tc .vmem S8x256 .f32) (harg1 : arg1.IsWhole)
    (arg2 : Memref sig .tc .vmem S1x256 .f32) (harg2 : arg2.IsWhole)
    (arg3 : Memref sig .tc .vmem S1x256 .f32) (harg3 : arg3.IsWhole)
    (arg4 : Memref sig .tc .vmem S4096x256 .f32) (harg4 : arg4.IsWhole)
    (x0 : Vec F S4096x256 .f32) (x1 : Vec F S8x256 .f32) (x2 x3 : Vec F S1x256 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out3 x0 x1 x2 x3)) -∗ K ⟨⟩))
      ⊢ wp frame (wpE (defs₀ (F := F)) Variants.none c none) E
          (cc3__final_bn_body arg0 harg0 arg1 harg1 arg2 harg2 arg3 harg3 arg4 harg4) K := by
  simp only [cc3__final_bn_body_eq_skeleton]; unfold cc3__final_bn_body_skel
  simp only [owns_eq_rep (c : Thread nD τ) arg0, owns_eq_rep (c : Thread nD τ) arg1, owns_eq_rep (c : Thread nD τ) arg2, owns_eq_rep (c : Thread nD τ) arg3]
  unfold owns
  iintro ⟨H0, H1, H2, H3, ⟨%d4, %f4, -, H4⟩, Hk⟩
  sl_exec
  sl_step
  iapply Hk
  iframe H0 H1 H2 H3
  iexists _; isplitr
  swap; · iexact H4
  ipureintro
  refine (View.read_writes_eq_canon _ _ _ (View.cover_of_tiledL _ S4096x256.size (by sl_kernel_rfl))).trans ?_
  rw [View.canon_unit_zero (S := S4096x256) zeros3]
  simp only [View.readAt_eq_ld, View.read_rep, View.ld_unit_zero (S := S1x256) zeros3, View.ld_unit_zero (S := S4096x256) zeros3]
  rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare (iblk3 V c 0 t)
    ∗ owns (c : Thread nD τ) (st3_1 t) fullShare (iblk3 V c 1 t)
    ∗ owns (c : Thread nD τ) (st3_2 t) fullShare (iblk3 V c 2 t)
    ∗ owns (c : Thread nD τ) (st3_3 t) fullShare (iblk3 V c 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  obtain ⟨b0, b1, b2, b3⟩ := before3 V c t
  simp only [b0, b1, b2, b3]
  rw [show (dat3 V c).Φ t.succ = (dat3 V c).Φ t.castSucc from rfl,
    show (dat3 V c).owesAt () t.succ = (dat3 V c).owesAt () t.castSucc from rfl,
    after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ (iblk3 V c 0 t) (iblk3 V c 1 t) (iblk3 V c 2 t) (iblk3 V c 3 t) _)
  iframe H0 H1 H2 H3
  isplitl [H4]; · iexists _; iexact H4
  iintro ⟨H0, H1, H2, H3, H4⟩
  iframe

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) := .rfl

end Cert.KernelIdeal.Hand

end
-- ==== Proof.KI.Run.lean ====
import proofs.«163270_g1194000908387_cont_fleet_524_12_alg».proof.Proof.KI.Reg0
import proofs.«163270_g1194000908387_cont_fleet_524_12_alg».proof.Proof.KI.Reg1
import proofs.«163270_g1194000908387_cont_fleet_524_12_alg».proof.Proof.KI.Reg2
import proofs.«163270_g1194000908387_cont_fleet_524_12_alg».proof.Proof.KI.Reg3
import proofs.«163270_g1194000908387_cont_fleet_524_12_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Off the output windows' arrays the exit contents equal the entry contents. -/
theorem left_keep {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Proc.devRef .tc (Pipeline.arrRef cfg.spec w))) (r : Ref sig .tc)
    (k : ∀ w, Pipeline.arrRef cfg.spec w = r → (cfg.win w).isOut = false) :
    Pipeline.withArrays cfg.spec c V (fun w => dat.arrAt w cfg.N) (Proc.devRef .tc r) = V (Proc.devRef .tc r) := by
  by_cases h : ∃ w, Pipeline.arrRef cfg.spec w = r
  · obtain ⟨w, rfl⟩ := h
    exact (Pipeline.withArrays_arr _ hinj c _ _ w).trans ((dat.arrAt_in w (k w rfl) _).trans (hA w))
  · exact Pipeline.withArrays_of_ne _ c _ _ r fun w e => h ⟨w, e⟩

theorem left_rest {gr W : ℕ} (win : Fin W → Pipeline.WinSpec sig gr) (c : Dev nD) (V : Valuation τ sig (Elt F))
    (A : (w : Fin W) → Buf (Elt F) ((win w).arr.view.loc (c.tc : Thread nD τ))) (b : Ref sig .tc)
    (hb : b ∉ Finset.univ.image (Pipeline.arrRef win)) : Pipeline.withArrays win c V A (Proc.devRef .tc b) = V (Proc.devRef .tc b) :=
  Pipeline.withArrays_of_ne win c V A b fun w e => hb (Finset.mem_image.mpr ⟨w, Finset.mem_univ _, e⟩)

variable (m : (ℓ : Loc nD τ sig) → Buf (Elt F) ℓ) (ρ : Dev nD → PrngReg)

/-- The buffer contents at the nine boundaries, folded from the launch memory. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

section
variable {c : Dev nD} {A Z P O Φ S X lev : sProp (MT nD τ sig Unit (Elt F) ℕ (UR sig nD τ) ℕ)}

theorem entry_of (W : Valuation τ sig (Elt F)) (hs : (unscopedBufs c (fun b => W b) : sProp 𝕄) ⊢ iprop(A ∗ Z))
    (hP : (BI.emp : sProp 𝕄) ⊢ P) (hO : iprop(∃ D, owes (c : Thread nD τ) (0 : CellTallies nD τ sig Unit) D) ⊢ O) :
    iprop((StableHlo.held (c : Thread nD τ) (Pipeline.ucRefs τ sig) W ∗ R c) ∗ BI.emp ∗ lev)
      ⊢ |={Set.univ}=> iprop(A ∗ P ∗ O ∗ (∃ r, prngReg c r) ∗ Z) := by
  rw [Pipeline.unscopedBufs_held] at hs
  iintro ⟨⟨Hub, Hp, HO⟩, -, -⟩
  ihave ⟨Ha, Hrest⟩ := hs $$ Hub
  ihave HO := hO $$ HO
  imodintro; iframe; iapply hP; iempintro

theorem in_of (h : iprop(S ∗ X) ⊢ Φ) : iprop(X ∗ P ∗ S) ⊢ Φ := by
  iintro ⟨Hp, -, Hr⟩; iapply h; iframe

theorem out_of (h : Φ ⊢ iprop(S ∗ X)) : Φ ⊢ iprop(X ∗ BI.emp ∗ S) := by
  iintro H; ihave ⟨Hr, Hp⟩ := h $$ H; iframe; iempintro

theorem exit_of (W : Valuation τ sig (Elt F)) (hj : iprop(A ∗ Z) ⊢ (unscopedBufs c (fun b => W b) : sProp 𝕄))
    (hO : O ⊢ iprop(∃ D, owes (c : Thread nD τ) (0 : CellTallies nD τ sig Unit) D)) :
    iprop(A ∗ O ∗ X ∗ Z) ⊢ |={Set.univ}=> iprop(StableHlo.held (c : Thread nD τ) (Pipeline.ucRefs τ sig) W ∗ X
      ∗ ∃ D, owes (c : Thread nD τ) (0 : CellTallies nD τ sig Unit) D) := by
  rw [Pipeline.unscopedBufs_held] at hj
  iintro ⟨Ha, HO, HY, Hrest⟩
  ihave HO := hO $$ HO
  imodintro; iframe HY HO; iapply hj; iframe
end

theorem pref_none (p : Fin 4) (c : Dev nD) :
    (BI.emp : sProp 𝕄) ⊢ Pipeline.prefHeld (pcfgs (F := F) p).pre c (fun _ => fullShare) (adm p).1 := by
  unfold Pipeline.prefHeld; rw [show (Finset.univ : Finset (Fin 0)) = ∅ from rfl, BI.bigSep_empty]

section
variable {cfg : Cfg sig Λ₀} {c : Dev nD} (dat : Dat τ (Elt F) Unit ℕ (UR sig nD τ) ℕ cfg c) (t : Fin (cfg.N + 1)) (h0 : dat.owed t = 0)
include h0

theorem owes_in (hb : ∀ x, x ∈ dat.bound () t) :
    iprop(∃ D, owes (c : Thread nD τ) (0 : CellTallies nD τ sig Unit) D) ⊢ (dat.owesAt () t : sProp 𝕄) := by
  unfold Pipeline.Dat.owesAt Pipeline.owesWithin; rw [h0]
  iintro ⟨%D, HO⟩; iexists D; iframe; ipureintro; exact fun x _ => hb x

theorem owes_out : (dat.owesAt () t : sProp 𝕄) ⊢ iprop(∃ D, owes (c : Thread nD τ) (0 : CellTallies nD τ sig Unit) D) := by
  unfold Pipeline.Dat.owesAt Pipeline.owesWithin; rw [h0]
  iintro ⟨%D, -, HO⟩; iexists D; iexact HO
end

set_option backward.isDefEq.respectTransparency.types false in
def regOf (p : Fin 4) (lf : Pipeline.LaunchFacts (nD := nD) (τ := τ) cfgs p) (Wi Wo : Dev nD → Valuation τ sig (Elt F))
    (hb : ∀ c, BodyObligation (pdats m ρ p c) (defs₀ (F := F)) Variants.none () Set.univ)
    (h0 : ∀ c t, (pdats m ρ p c).owed t = 0) (hq : ∀ c w, (pdats m ρ p c).q w = fullShare)
    (hbd : ∀ c x, x ∈ (pdats m ρ p c).bound () 0)
    (hA : ∀ c w, (pdats m ρ p c).A w = Wi c (Pipeline.arrRef (cfgs p).spec w))
    (hi : ∀ c, (Pipeline.ΦA (cfgs p).spec c : sProp 𝕄) ⊢ (pdats m ρ p c).Φ 0)
    (ho : ∀ c, (pdats m ρ p c).Φ (Fin.last (cfgs p).N) ⊢ (Pipeline.ΦA (cfgs p).spec c : sProp 𝕄))
    (hF : ∀ c w, (pdats m ρ p c).arrAt w (cfgs p).N = Wo c (Pipeline.arrRef (cfgs p).spec w))
    (hr : ∀ c b, b ∉ Finset.univ.image (Pipeline.arrRef (cfgs p).spec) → Wo c (Proc.devRef .tc b) = Wi c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (cfgs p).spec c fun b => Wi c b
  hentry c := by
    rw [Pipeline.ownSems0_none]
    exact entry_of (Wi c) (Pipeline.arrays_of_unscopedBufs (p := p) (pcfgs (F := F)) adm (pdats m ρ) lf.win lf.arr_whole c
      ((pdats m ρ p c).share_full (hq c)) (fun b => Wi c b) (hA c)) (pref_none p c) (owes_in _ 0 (h0 c 0) (hbd c))
  hin c := in_of (hi c)
  hout c := by rw [Pipeline.ownSems0_none]; exact out_of (ho c)
  hexit c := exit_of (Wo c) (Pipeline.unscopedBufs_of_arrays (p := p) (pcfgs (F := F)) adm
    lf.win lf.arr_whole c (pdats m ρ) ((pdats m ρ p c).share_full (hq c)) (fun b => Wi c b) (fun b => Wo c b)
    ((pdats m ρ p c).arrAt · (cfgs p).N) (hF c) (hr c)) (owes_out _ _ (h0 c _))

set_option backward.isDefEq.respectTransparency.types false in
def reg0 : Pipeline.RegionSeg (pcfgs (F := F)) adm (pdats m ρ) () defs₀ 𝒱₀ L lv 0 :=
  regOf m ρ 0 launch0 (W1 m ρ) (W2 m ρ) (body_obligation0 (V1 m ρ)) (fun _ _ => rfl) (fun _ _ => rfl) (fun _ _ => Or.inl trivial)
    (A_eq0 (V1 m ρ)) (hin0 (V1 m ρ)) (hout0 (V1 m ρ)) (fun c w => (W2_arr m ρ c w).symm) fun c => left_rest spec0 c _ _
set_option backward.isDefEq.respectTransparency.types false in
def reg1 : Pipeline.RegionSeg (pcfgs (F := F)) adm (pdats m ρ) () defs₀ 𝒱₀ L lv 1 :=
  regOf m ρ 1 launch1 (W3 m ρ) (W4 m ρ) (body_obligation1 (V3 m ρ)) (fun _ _ => rfl) (fun _ _ => rfl) (fun _ _ => Or.inl trivial)
    (A_eq1 (V3 m ρ)) (hin1 (V3 m ρ)) (hout1 (V3 m ρ)) (fun c w => (W4_arr m ρ c w).symm) fun c => left_rest spec1 c _ _
set_option backward.isDefEq.respectTransparency.types false in
def reg2 : Pipeline.RegionSeg (pcfgs (F := F)) adm (pdats m ρ) () defs₀ 𝒱₀ L lv 2 :=
  regOf m ρ 2 launch2 (W5 m ρ) (W6 m ρ) (body_obligation2 (V5 m ρ)) (fun _ _ => rfl) (fun _ _ => rfl) (fun _ _ => Or.inl trivial)
    (A_eq2 (V5 m ρ)) (hin2 (V5 m ρ)) (hout2 (V5 m ρ)) (fun c w => (W6_arr m ρ c w).symm) fun c => left_rest spec2 c _ _
set_option backward.isDefEq.respectTransparency.types false in
def reg3 : Pipeline.RegionSeg (pcfgs (F := F)) adm (pdats m ρ) () defs₀ 𝒱₀ L lv 3 :=
  regOf m ρ 3 launch3 (W7 m ρ) (W8 m ρ) (body_obligation3 (V7 m ρ)) (fun _ _ => rfl) (fun _ _ => rfl) (fun _ _ => Or.inl trivial)
    (A_eq3 (V7 m ρ)) (hin3 (V7 m ρ)) (hout3 (V7 m ρ)) (fun c w => (W8_arr m ρ c w).symm) fun c => left_rest spec3 c _ _
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro; iframe; isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      iframe)
    (hQ := fun s h => h)

/-- Written by no host stretch and no output array of any region. -/
abbrev Kept (r : Ref sig .tc) : Prop :=
  ¬ (Proc.devRef .tc r : DevRef τ sig).isScoped
  ∧ r ∉ hostOps0_W ∧ (∀ w, Pipeline.arrRef spec0 w = r → (cfg0.win w).isOut = false)
  ∧ r ∉ hostOps1_W ∧ (∀ w, Pipeline.arrRef spec1 w = r → (cfg1.win w).isOut = false)
  ∧ r ∉ hostOps2_W ∧ (∀ w, Pipeline.arrRef spec2 w = r → (cfg2.win w).isOut = false)
  ∧ r ∉ hostOps3_W ∧ (∀ w, Pipeline.arrRef spec3 w = r → (cfg3.win w).isOut = false)

section
variable (c : Dev nD) (r : Ref sig .tc) (h : Kept r)
include h

theorem W1_kept : W1 m ρ c (Proc.devRef .tc r) = m ((c : Thread nD τ).loc r) :=
  StableHlo.after_of_writes_sub hostOps0 _ hostOps0_writes h.2.1
theorem W2_kept : W2 m ρ c (Proc.devRef .tc r) = m ((c : Thread nD τ).loc r) :=
  (left_keep (dat0 (V1 m ρ) c) launch0.win.arr_inj _ (A_eq0 (V1 m ρ) c) r h.2.2.1).trans (W1_kept m ρ c r h)
theorem W3_kept : W3 m ρ c (Proc.devRef .tc r) = m ((c : Thread nD τ).loc r) :=
  (StableHlo.after_of_writes_sub hostOps1 _ hostOps1_writes h.2.2.2.1).trans (W2_kept m ρ c r h)
theorem W4_kept : W4 m ρ c (Proc.devRef .tc r) = m ((c : Thread nD τ).loc r) :=
  (left_keep (dat1 (V3 m ρ) c) launch1.win.arr_inj _ (A_eq1 (V3 m ρ) c) r h.2.2.2.2.1).trans (W3_kept m ρ c r h)
theorem W5_kept : W5 m ρ c (Proc.devRef .tc r) = m ((c : Thread nD τ).loc r) :=
  (StableHlo.after_of_writes_sub hostOps2 _ hostOps2_writes h.2.2.2.2.2.1).trans (W4_kept m ρ c r h)
theorem W6_kept : W6 m ρ c (Proc.devRef .tc r) = m ((c : Thread nD τ).loc r) :=
  (left_keep (dat2 (V5 m ρ) c) launch2.win.arr_inj _ (A_eq2 (V5 m ρ) c) r h.2.2.2.2.2.2.1).trans (W5_kept m ρ c r h)
theorem W7_kept : W7 m ρ c (Proc.devRef .tc r) = m ((c : Thread nD τ).loc r) :=
  (StableHlo.after_of_writes_sub hostOps3 _ hostOps3_writes h.2.2.2.2.2.2.2.1).trans (W6_kept m ρ c r h)
theorem W8_kept : W8 m ρ c (Proc.devRef .tc r) = m ((c : Thread nD τ).loc r) :=
  (left_keep (dat3 (V7 m ρ) c) launch3.win.arr_inj _ (A_eq3 (V7 m ρ) c) r h.2.2.2.2.2.2.2.2).trans (W7_kept m ρ c r h)

/-- A kept buffer ends at its launch contents in any memory that holds the last boundary's contents. -/
theorem kept_end {mem : (ℓ : Loc nD τ sig) → Buf (Elt F) ℓ}
    (hm : ∀ b ∈ Pipeline.ucRefs τ sig, mem (((c : Thread nD τ)).1, b) = W8 m ρ c b) :
    mem ((c.tc : Thread nD τ).loc r) = m ((c.tc : Thread nD τ).loc r) :=
  (hm _ (mem_uc r h.1)).trans (W8_kept m ρ c r h)
end

/-- Every argument's buffer holds its launch contents. -/
abbrev ArgsKept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)

/-- The run's end: the result array as the last region left it, every argument as launched. -/
theorem run_args : θ_run defs (onTc (τ := τ) (main (F := F))) ⟨m, fun _ => 0, ρ⟩ (fun r => ∀ c : Dev nD,
      r.2.mem ((c.tc : Thread nD τ).loc main_v15) = W8 m ρ c (Proc.devRef .tc main_v15) ∧ ArgsKept m r.2.mem c) :=
  (θ_run defs _ _).mono (fun r h c =>
    have e := fun a k => kept_end m ρ c a k (h c)
    ⟨h c _ (mem_uc main_v15 (by decide)), e main_arg0 (by decide), e main_arg1 (by decide), e main_arg2 (by decide), e main_arg3 (by decide), e main_arg4 (by decide), e main_arg5 (by decide), e main_arg6 (by decide), e main_arg7 (by decide), e main_arg8 (by decide), e main_arg9 (by decide), e main_arg10 (by decide), e main_arg11 (by decide), e main_arg12 (by decide), e main_arg13 (by decide)⟩)
    (run_all m ρ)

theorem frame : θ_run defs (onTc (τ := τ) (main (F := F))) ⟨m, fun _ => 0, ρ⟩ (fun r => ∀ c : Dev nD, ArgsKept m r.2.mem c) :=
  (θ_run defs _ _).mono (fun r h c => (h c).2) (run_args m ρ)

end Cert.KernelIdeal.Hand

end
-- ==== Proof.KI.RunVals.lean ====
import proofs.«163270_g1194000908387_cont_fleet_524_12_alg».proof.Proof.KI.Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W8_main_v15 (c : Dev nD) : W8 m ρ c (Proc.devRef .tc main_v15) = (dat3 (V7 m ρ) c).arrAt 4 cfg3.N := W8_arr m ρ c 4

theorem V7_main_v12_0 (c : Dev nD) : V7 m ρ c main_v12_0 = (dat2 (V5 m ρ) c).arrAt 7 cfg2.N :=
  (StableHlo.after_of_writes_sub hostOps3 _ hostOps3_writes (by decide)).trans (W6_arr m ρ c 7)
theorem V7_main_v12_1 (c : Dev nD) : V7 m ρ c main_v12_1 = (dat2 (V5 m ρ) c).arrAt 8 cfg2.N :=
  (StableHlo.after_of_writes_sub hostOps3 _ hostOps3_writes (by decide)).trans (W6_arr m ρ c 8)
theorem V5_main_v8_0 (c : Dev nD) : V5 m ρ c main_v8_0 = (dat1 (V3 m ρ) c).arrAt 7 cfg1.N :=
  (StableHlo.after_of_writes_sub hostOps2 _ hostOps2_writes (by decide)).trans (W4_arr m ρ c 7)
theorem V5_main_v8_1 (c : Dev nD) : V5 m ρ c main_v8_1 = (dat1 (V3 m ρ) c).arrAt 8 cfg1.N :=
  (StableHlo.after_of_writes_sub hostOps2 _ hostOps2_writes (by decide)).trans (W4_arr m ρ c 8)
theorem V3_main_v4_0 (c : Dev nD) : V3 m ρ c main_v4_0 = (dat0 (V1 m ρ) c).arrAt 7 cfg0.N :=
  (StableHlo.after_of_writes_sub hostOps1 _ hostOps1_writes (by decide)).trans (W2_arr m ρ c 7)
theorem V3_main_v4_1 (c : Dev nD) : V3 m ρ c main_v4_1 = (dat0 (V1 m ρ) c).arrAt 8 cfg0.N :=
  (StableHlo.after_of_writes_sub hostOps1 _ hostOps1_writes (by decide)).trans (W2_arr m ρ c 8)

theorem V1_main_arg0 (c : Dev nD) : V1 m ρ c main_arg0 = m ((c : Thread nD τ).loc main_arg0) := W1_kept m ρ c _ (by decide)
theorem V1_main_arg1 (c : Dev nD) : V1 m ρ c main_arg1 = m ((c : Thread nD τ).loc main_arg1) := W1_kept m ρ c _ (by decide)
theorem V1_main_arg2 (c : Dev nD) : V1 m ρ c main_arg2 = m ((c : Thread nD τ).loc main_arg2) := W1_kept m ρ c _ (by decide)
theorem V3_main_arg1 (c : Dev nD) : V3 m ρ c main_arg1 = m ((c : Thread nD τ).loc main_arg1) := W3_kept m ρ c _ (by decide)
theorem V3_main_arg6 (c : Dev nD) : V3 m ρ c main_arg6 = m ((c : Thread nD τ).loc main_arg6) := W3_kept m ρ c _ (by decide)
theorem V5_main_arg1 (c : Dev nD) : V5 m ρ c main_arg1 = m ((c : Thread nD τ).loc main_arg1) := W5_kept m ρ c _ (by decide)
theorem V5_main_arg10 (c : Dev nD) : V5 m ρ c main_arg10 = m ((c : Thread nD τ).loc main_arg10) := W5_kept m ρ c _ (by decide)

theorem V1_main_v1 (c : Dev nD) : V1 m ρ c main_v1 = shapeCast S1x256 (m ((c : Thread nD τ).loc main_arg3)) shapeCasts_S256_S1x256 := by
  show StableHlo.after hostOps0 (W0 m ρ c) (Proc.devRef .tc main_v1) = _; after_results; rfl
theorem V3_main_v5 (c : Dev nD) : V3 m ρ c main_v5 = shapeCast S1x256 (m ((c : Thread nD τ).loc main_arg7)) shapeCasts_S256_S1x256 := by
  rw [← W2_kept m ρ c main_arg7 (by decide)]; show StableHlo.after hostOps1 (W2 m ρ c) (Proc.devRef .tc main_v5) = _; after_results; rfl
theorem V3_main_v6 (c : Dev nD) : V3 m ρ c main_v6 = shapeCast S1x256 (m ((c : Thread nD τ).loc main_arg4)) shapeCasts_S256_S1x256 := by
  rw [← W2_kept m ρ c main_arg4 (by decide)]; show StableHlo.after hostOps1 (W2 m ρ c) (Proc.devRef .tc main_v6) = _; after_results; rfl
theorem V3_main_v7 (c : Dev nD) : V3 m ρ c main_v7 = shapeCast S1x256 (m ((c : Thread nD τ).loc main_arg5)) shapeCasts_S256_S1x256 := by
  rw [← W2_kept m ρ c main_arg5 (by decide)]; show StableHlo.after hostOps1 (W2 m ρ c) (Proc.devRef .tc main_v7) = _; after_results; rfl
theorem V5_main_v9 (c : Dev nD) : V5 m ρ c main_v9 = shapeCast S1x256 (m ((c : Thread nD τ).loc main_arg11)) shapeCasts_S256_S1x256 := by
  rw [← W4_kept m ρ c main_arg11 (by decide)]; show StableHlo.after hostOps2 (W4 m ρ c) (Proc.devRef .tc main_v9) = _; after_results; rfl
theorem V5_main_v10 (c : Dev nD) : V5 m ρ c main_v10 = shapeCast S1x256 (m ((c : Thread nD τ).loc main_arg8)) shapeCasts_S256_S1x256 := by
  rw [← W4_kept m ρ c main_arg8 (by decide)]; show StableHlo.after hostOps2 (W4 m ρ c) (Proc.devRef .tc main_v10) = _; after_results; rfl
theorem V5_main_v11 (c : Dev nD) : V5 m ρ c main_v11 = shapeCast S1x256 (m ((c : Thread nD τ).loc main_arg9)) shapeCasts_S256_S1x256 := by
  rw [← W4_kept m ρ c main_arg9 (by decide)]; show StableHlo.after hostOps2 (W4 m ρ c) (Proc.devRef .tc main_v11) = _; after_results; rfl
theorem V7_main_v13 (c : Dev nD) : V7 m ρ c main_v13 = shapeCast S1x256 (m ((c : Thread nD τ).loc main_arg12)) shapeCasts_S256_S1x256 := by
  rw [← W6_kept m ρ c main_arg12 (by decide)]; show StableHlo.after hostOps3 (W6 m ρ c) (Proc.devRef .tc main_v13) = _; after_results; rfl
theorem V7_main_v14 (c : Dev nD) : V7 m ρ c main_v14 = shapeCast S1x256 (m ((c : Thread nD τ).loc main_arg13)) shapeCasts_S256_S1x256 := by
  rw [← W6_kept m ρ c main_arg13 (by decide)]; show StableHlo.after hostOps3 (W6 m ρ c) (Proc.devRef .tc main_v14) = _; after_results; rfl

end Cert.KernelIdeal.Hand

end
-- ==== Proof.Spec.lean ====
import Idealize.ShloMosaic.PureOps.Ideal

noncomputable section

namespace Cert.Spec

open Idealize.ShloMosaic

def lin (h : Fin 4096 → Fin 256 → ℝ) (W : Fin 256 → Fin 256 → ℝ) : Fin 4096 → Fin 256 → ℝ :=
  fun i j => ∑ k : Fin 256, h i k * W k j

def gcn (adj : Fin 4096 → Fin 4096 → ℝ) (y : Fin 4096 → Fin 256 → ℝ) (b : Fin 256 → ℝ) : Fin 4096 → Fin 256 → ℝ :=
  fun i j => (∑ k : Fin 4096, adj i k * y k j) + b j

def layer (adj : Fin 4096 → Fin 4096 → ℝ) (h : Fin 4096 → Fin 256 → ℝ) (W : Fin 256 → Fin 256 → ℝ) (b : Fin 256 → ℝ) :
    Fin 4096 → Fin 256 → ℝ :=
  fun i j => max (gcn adj (lin h W) b i j) 0

def colSum (r : Fin 4096 → Fin 256 → ℝ) : Fin 256 → ℝ := fun j => ∑ i : Fin 4096, r i j
def colSq (r : Fin 4096 → Fin 256 → ℝ) : Fin 256 → ℝ := fun j => ∑ i : Fin 4096, r i j * r i j

def kMean (r : Fin 4096 → Fin 256 → ℝ) : Fin 256 → ℝ := fun j => colSum r j / 4096
def kVar (r : Fin 4096 → Fin 256 → ℝ) : Fin 256 → ℝ := fun j => colSq r j / 4096 - kMean r j * kMean r j
def kScale (ε : ℝ) (r : Fin 4096 → Fin 256 → ℝ) (g : Fin 256 → ℝ) : Fin 256 → ℝ :=
  fun j => g j * (Real.sqrt (kVar r j + ε))⁻¹
def kShift (ε : ℝ) (r : Fin 4096 → Fin 256 → ℝ) (g bt : Fin 256 → ℝ) : Fin 256 → ℝ :=
  fun j => bt j - kMean r j * kScale ε r g j
def kBN (ε : ℝ) (r : Fin 4096 → Fin 256 → ℝ) (g bt : Fin 256 → ℝ) : Fin 4096 → Fin 256 → ℝ :=
  fun i j => r i j * kScale ε r g j + kShift ε r g bt j

def rMean (r : Fin 4096 → Fin 256 → ℝ) : Fin 256 → ℝ := fun j => colSum r j / 4096
def rVar (r : Fin 4096 → Fin 256 → ℝ) : Fin 256 → ℝ :=
  fun j => (∑ i : Fin 4096, (r i j - rMean r j) * (r i j - rMean r j)) / 4096
def rBN (ε : ℝ) (r : Fin 4096 → Fin 256 → ℝ) (g bt : Fin 256 → ℝ) : Fin 4096 → Fin 256 → ℝ :=
  fun i j => g j * (r i j - rMean r j) / Real.sqrt (rVar r j + ε) + bt j

def kernelOut (ε : ℝ) (x : Fin 4096 → Fin 256 → ℝ) (adj : Fin 4096 → Fin 4096 → ℝ)
    (W1 : Fin 256 → Fin 256 → ℝ) (b1 g1 bt1 : Fin 256 → ℝ) (W2 : Fin 256 → Fin 256 → ℝ) (b2 g2 bt2 : Fin 256 → ℝ)
    (W3 : Fin 256 → Fin 256 → ℝ) (b3 g3 bt3 : Fin 256 → ℝ) : Fin 4096 → Fin 256 → ℝ :=
  kBN ε (layer adj (kBN ε (layer adj (kBN ε (layer adj x W1 b1) g1 bt1) W2 b2) g2 bt2) W3 b3) g3 bt3

def refOut (ε : ℝ) (x : Fin 4096 → Fin 256 → ℝ) (adj : Fin 4096 → Fin 4096 → ℝ)
    (W1 : Fin 256 → Fin 256 → ℝ) (b1 g1 bt1 : Fin 256 → ℝ) (W2 : Fin 256 → Fin 256 → ℝ) (b2 g2 bt2 : Fin 256 → ℝ)
    (W3 : Fin 256 → Fin 256 → ℝ) (b3 g3 bt3 : Fin 256 → ℝ) : Fin 4096 → Fin 256 → ℝ :=
  rBN ε (layer adj (rBN ε (layer adj (rBN ε (layer adj x W1 b1) g1 bt1) W2 b2) g2 bt2) W3 b3) g3 bt3

def lift2 {a b : Nat} (x : Fin a → Fin b → ℝ) : (⟨2, ![a, b]⟩ : Shape).Idx → EReal :=
  fun i => ((x (i 0) (i 1) : ℝ) : EReal)

def lift1 {a : Nat} (x : Fin a → ℝ) : (⟨1, ![a]⟩ : Shape).Idx → EReal :=
  fun i => ((x (i 0) : ℝ) : EReal)

end Cert.Spec

end
-- ==== Proof.Lifts.lean ====
import proofs.«163270_g1194000908387_cont_fleet_524_12_alg».proof.Proof.Spec

noncomputable section

namespace Cert.Spec

open Idealize.ShloMosaic

def rowsBlk {b : Nat} (t : Fin 8) (x : Fin 4096 → Fin b → ℝ) : Fin 512 → Fin b → ℝ :=
  fun p q => x ⟨512 * t.val + p.val, by have := t.isLt; have := p.isLt; omega⟩ q

def liftRow (f : Fin 256 → ℝ) : (⟨2, ![1, 256]⟩ : Shape).Idx → EReal :=
  fun i => ((f (i 1) : ℝ) : EReal)

def statRows (s1 s2 : Fin 256 → ℝ) : (⟨2, ![8, 256]⟩ : Shape).Idx → EReal :=
  fun i => if (i 0).val = 0 then ((s1 (i 1) : ℝ) : EReal) else if (i 0).val = 1 then ((s2 (i 1) : ℝ) : EReal) else ((0 : ℝ) : EReal)

def constRows8 (f : Fin 256 → ℝ) : (⟨2, ![8, 256]⟩ : Shape).Idx → EReal :=
  fun i => ((f (i 1) : ℝ) : EReal)

def blockOut (a : Fin 512 → Fin 4096 → ℝ) (y : Fin 4096 → Fin 256 → ℝ) (b : Fin 256 → ℝ) : Fin 512 → Fin 256 → ℝ :=
  fun p j => max ((∑ k : Fin 4096, a p k * y k j) + b j) 0

def blockSum (R : Fin 512 → Fin 256 → ℝ) : Fin 256 → ℝ := fun j => ∑ p : Fin 512, R p j
def blockSq (R : Fin 512 → Fin 256 → ℝ) : Fin 256 → ℝ := fun j => ∑ p : Fin 512, R p j * R p j

def corrRow (y : Fin 4096 → Fin 256 → ℝ) (b : Fin 256 → ℝ) : Fin 256 → ℝ :=
  fun j => 1 / 2 * (∑ k : Fin 4096, y k j) + b j

def meanOf (s1 : Fin 256 → ℝ) : Fin 256 → ℝ := fun j => s1 j / 4096
def varOf (s1 s2 : Fin 256 → ℝ) : Fin 256 → ℝ := fun j => s2 j / 4096 - meanOf s1 j * meanOf s1 j
def scaleOf (ε : ℝ) (s1 s2 g : Fin 256 → ℝ) : Fin 256 → ℝ := fun j => g j * (Real.sqrt (varOf s1 s2 j + ε))⁻¹
def shiftOf (ε : ℝ) (s1 s2 g bt : Fin 256 → ℝ) : Fin 256 → ℝ := fun j => bt j - meanOf s1 j * scaleOf ε s1 s2 g j

def kBNof (ε : ℝ) (s1 s2 : Fin 256 → ℝ) (r : Fin 4096 → Fin 256 → ℝ) (g bt : Fin 256 → ℝ) : Fin 4096 → Fin 256 → ℝ :=
  fun i j => r i j * scaleOf ε s1 s2 g j + shiftOf ε s1 s2 g bt j

theorem kBNof_colSum (ε : ℝ) (r : Fin 4096 → Fin 256 → ℝ) (g bt : Fin 256 → ℝ) :
    kBNof ε (colSum r) (colSq r) r g bt = kBN ε r g bt := rfl

theorem varOf_colSum (r : Fin 4096 → Fin 256 → ℝ) : varOf (colSum r) (colSq r) = kVar r := rfl

end Cert.Spec

end
-- ==== Proof.Consts.lean ====
import Idealize.ShloMosaic.PureOps.Ideal

noncomputable section

namespace Cert.Consts

open Idealize.ShloMosaic

def eps : ℝ := 10995116 / 1099511627776

theorem ofBits_eps : Ideal.ofBits .f32 0x3727C5AC#32 = ((eps : ℝ) : EReal) := by
  simp [Ideal.ofBits, Ideal.ieee, -EReal.coe_mul, eps]; norm_num

theorem eps_pos : 0 < eps := by
  unfold eps; norm_num

theorem ofBits_4096 : Ideal.ofBits .f32 0x45800000#32 = ((4096 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee]

theorem scalar_eps : Scalar.ofBits (F := Ideal) .f32 0x3727C5AC#32 = ((eps : ℝ) : EReal) := by
  rw [Ideal.ofBits_def]; exact ofBits_eps

theorem scalar_4096 : Scalar.ofBits (F := Ideal) .f32 0x45800000#32 = ((4096 : ℝ) : EReal) := by
  rw [Ideal.ofBits_def]; exact ofBits_4096

theorem scalar_half : Scalar.ofBits (F := Ideal) .f32 0x3F000000#32 = ((1 / 2 : ℝ) : EReal) := by
  rw [Ideal.ofBits_def]; exact ofBits_half

theorem scalar_zero : Scalar.ofBits (F := Ideal) .f32 0x00000000#32 = ((0 : ℝ) : EReal) := by
  rw [Ideal.ofBits_def]; exact ofBits_zero

end Cert.Consts

end
-- ==== Proof.KI.OutIs.lean ====
import proofs.«163270_g1194000908387_cont_fleet_524_12_alg».proof.Proof.KI.Defs
import proofs.«163270_g1194000908387_cont_fleet_524_12_alg».proof.Proof.Lifts
import proofs.«163270_g1194000908387_cont_fleet_524_12_alg».proof.Proof.Consts
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Spec

def OutIs (o : Out Ideal) (y : Fin 4096 → Fin 256 → ℝ) (b : Fin 256 → ℝ) (R : Fin 512 → Fin 256 → ℝ) (s1 s2 : Fin 256 → ℝ) : Prop :=
  o.yh = lift2 y ∧ o.yl = lift2 (fun (_ : Fin 4096) (_ : Fin 256) => (0 : ℝ)) ∧ o.corr = constRows8 (corrRow y b)
    ∧ o.r = lift2 R ∧ o.st = statRows s1 s2

end Cert.KernelIdeal.Hand

end
-- ==== Proof.SpecAlgebra.lean ====
import proofs.«163270_g1194000908387_cont_fleet_524_12_alg».proof.Proof.Spec

noncomputable section

namespace Cert.Spec

theorem var_identity {ι : Type} [Fintype ι] (f : ι → ℝ) (n : ℝ) (hn : n ≠ 0) (hcard : (Fintype.card ι : ℝ) = n) :
    (∑ i, f i * f i) / n - (∑ i, f i) / n * ((∑ i, f i) / n)
      = (∑ i, (f i - (∑ i, f i) / n) * (f i - (∑ i, f i) / n)) / n := by
  have hexp : ∀ i, (f i - (∑ i, f i) / n) * (f i - (∑ i, f i) / n)
      = f i * f i - 2 * ((∑ i, f i) / n) * f i + (∑ i, f i) / n * ((∑ i, f i) / n) := fun i => by ring
  rw [Finset.sum_congr rfl fun i _ => hexp i, Finset.sum_add_distrib, Finset.sum_sub_distrib, ← Finset.mul_sum,
    Finset.sum_const, Finset.card_univ, nsmul_eq_mul, hcard]
  field_simp
  ring

theorem kVar_eq_rVar (r : Fin 4096 → Fin 256 → ℝ) : kVar r = rVar r := by
  funext j
  unfold kVar rVar kMean rMean colSq colSum
  exact var_identity (fun i => r i j) 4096 (by norm_num) (by rw [Fintype.card_fin]; norm_num)

theorem rVar_nonneg (r : Fin 4096 → Fin 256 → ℝ) (j : Fin 256) : 0 ≤ rVar r j := by
  unfold rVar
  exact div_nonneg (Finset.sum_nonneg fun i _ => mul_self_nonneg _) (by norm_num)

theorem kVar_nonneg (r : Fin 4096 → Fin 256 → ℝ) (j : Fin 256) : 0 ≤ kVar r j := by
  rw [kVar_eq_rVar]; exact rVar_nonneg r j

theorem kVar_add_pos (ε : ℝ) (hε : 0 < ε) (r : Fin 4096 → Fin 256 → ℝ) (j : Fin 256) : 0 < kVar r j + ε :=
  add_pos_of_nonneg_of_pos (kVar_nonneg r j) hε

theorem rVar_add_pos (ε : ℝ) (hε : 0 < ε) (r : Fin 4096 → Fin 256 → ℝ) (j : Fin 256) : 0 < rVar r j + ε :=
  add_pos_of_nonneg_of_pos (rVar_nonneg r j) hε

theorem kBN_eq_rBN (ε : ℝ) (hε : 0 < ε) (r : Fin 4096 → Fin 256 → ℝ) (g bt : Fin 256 → ℝ) :
    kBN ε r g bt = rBN ε r g bt := by
  have _ := hε
  funext i j
  unfold kBN kShift kScale rBN
  rw [kVar_eq_rVar]
  unfold kMean rMean
  rw [div_eq_mul_inv]
  ring

theorem kernelOut_eq_refOut (ε : ℝ) (hε : 0 < ε) (x : Fin 4096 → Fin 256 → ℝ) (adj : Fin 4096 → Fin 4096 → ℝ)
    (W1 : Fin 256 → Fin 256 → ℝ) (b1 g1 bt1 : Fin 256 → ℝ) (W2 : Fin 256 → Fin 256 → ℝ) (b2 g2 bt2 : Fin 256 → ℝ)
    (W3 : Fin 256 → Fin 256 → ℝ) (b3 g3 bt3 : Fin 256 → ℝ) :
    kernelOut ε x adj W1 b1 g1 bt1 W2 b2 g2 bt2 W3 b3 g3 bt3 = refOut ε x adj W1 b1 g1 bt1 W2 b2 g2 bt2 W3 b3 g3 bt3 := by
  unfold kernelOut refOut
  rw [kBN_eq_rBN ε hε, kBN_eq_rBN ε hε, kBN_eq_rBN ε hε]

theorem split_cancel (adj : Fin 4096 → Fin 4096 → ℝ) (y : Fin 4096 → Fin 256 → ℝ) (b : Fin 256 → ℝ)
    (i : Fin 4096) (j : Fin 256) :
    (∑ k : Fin 4096, (adj i k - 1 / 2) * y k j) + (1 / 2 * (∑ k : Fin 4096, y k j) + b j)
      = (∑ k : Fin 4096, adj i k * y k j) + b j := by
  have hexp : ∀ k : Fin 4096, (adj i k - 1 / 2) * y k j = adj i k * y k j - 1 / 2 * y k j := fun k => by ring
  rw [Finset.sum_congr rfl fun k _ => hexp k, Finset.sum_sub_distrib, ← Finset.mul_sum]
  ring

theorem split_cancel_gcn (adj : Fin 4096 → Fin 4096 → ℝ) (y : Fin 4096 → Fin 256 → ℝ) (b : Fin 256 → ℝ)
    (i : Fin 4096) (j : Fin 256) :
    (∑ k : Fin 4096, (adj i k - 1 / 2) * y k j) + (1 / 2 * (∑ k : Fin 4096, y k j) + b j) = gcn adj y b i j :=
  split_cancel adj y b i j

theorem split_cancel_rem (adj : Fin 4096 → Fin 4096 → ℝ) (y : Fin 4096 → Fin 256 → ℝ) (b : Fin 256 → ℝ)
    (i : Fin 4096) (j : Fin 256) :
    (∑ k : Fin 4096, (adj i k - 1 / 2) * y k j) + (∑ k : Fin 4096, (adj i k - 1 / 2) * (y k j - y k j))
        + (1 / 2 * (∑ k : Fin 4096, y k j) + b j)
      = gcn adj y b i j := by
  have hz : ∀ k : Fin 4096, (adj i k - 1 / 2) * (y k j - y k j) = 0 := fun k => by ring
  rw [Finset.sum_congr rfl fun k _ => hz k, Finset.sum_const_zero, add_zero]
  exact split_cancel adj y b i j

theorem split_lin (h : Fin 4096 → Fin 256 → ℝ) (W : Fin 256 → Fin 256 → ℝ) (i : Fin 4096) (j : Fin 256) :
    (∑ k : Fin 256, h i k * W k j) + (∑ k : Fin 256, (h i k - h i k) * W k j)
        + (∑ k : Fin 256, h i k * (W k j - W k j))
      = lin h W i j := by
  have hz1 : ∀ k : Fin 256, (h i k - h i k) * W k j = 0 := fun k => by ring
  have hz2 : ∀ k : Fin 256, h i k * (W k j - W k j) = 0 := fun k => by ring
  rw [Finset.sum_congr rfl fun k _ => hz1 k, Finset.sum_congr rfl fun k _ => hz2 k, Finset.sum_const_zero, add_zero,
    add_zero]
  rfl

end Cert.Spec

end
-- ==== Proof.LibERealSums.lean ====
import Idealize.ShloMosaic.PureOps.Ideal

universe u

noncomputable section

namespace Cert.LibEReal

open Idealize.ShloMosaic

theorem coe_sum {ι : Type u} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem sum_coe {ι : Type u} (s : Finset ι) (f : ι → ℝ) :
    ∑ i ∈ s, ((f i : ℝ) : EReal) = ((∑ i ∈ s, f i : ℝ) : EReal) :=
  (coe_sum s f).symm

theorem sum_coe_mul_coe {ι : Type u} (s : Finset ι) (f g : ι → ℝ) :
    ∑ i ∈ s, ((f i : ℝ) : EReal) * ((g i : ℝ) : EReal) = ((∑ i ∈ s, f i * g i : ℝ) : EReal) := by
  rw [coe_sum]
  exact Finset.sum_congr rfl fun i _ => (EReal.coe_mul (f i) (g i)).symm

theorem zero_add_coe_sum {ι : Type u} (s : Finset ι) (f : ι → ℝ) :
    (0 : EReal) + ∑ i ∈ s, ((f i : ℝ) : EReal) = ((∑ i ∈ s, f i : ℝ) : EReal) := by
  rw [zero_add, coe_sum]

theorem coe_zero_add_coe_sum {ι : Type u} (s : Finset ι) (f : ι → ℝ) :
    ((0 : ℝ) : EReal) + ∑ i ∈ s, ((f i : ℝ) : EReal) = ((∑ i ∈ s, f i : ℝ) : EReal) := by
  rw [EReal.coe_zero, zero_add, coe_sum]

theorem zero_add_sum_coe_mul_coe {ι : Type u} (s : Finset ι) (f g : ι → ℝ) :
    (0 : EReal) + ∑ i ∈ s, ((f i : ℝ) : EReal) * ((g i : ℝ) : EReal) = ((∑ i ∈ s, f i * g i : ℝ) : EReal) := by
  rw [zero_add, sum_coe_mul_coe]

theorem coe_add_coe (a b : ℝ) : ((a : ℝ) : EReal) + (b : EReal) = ((a + b : ℝ) : EReal) :=
  (EReal.coe_add a b).symm

theorem coe_sub_coe (a b : ℝ) : ((a : ℝ) : EReal) - (b : EReal) = ((a - b : ℝ) : EReal) :=
  (EReal.coe_sub a b).symm

theorem coe_mul_coe (a b : ℝ) : ((a : ℝ) : EReal) * (b : EReal) = ((a * b : ℝ) : EReal) :=
  (EReal.coe_mul a b).symm

theorem neg_coe (a : ℝ) : -((a : ℝ) : EReal) = ((-a : ℝ) : EReal) :=
  (EReal.coe_neg a).symm

theorem coe_sub_self (a : ℝ) : ((a : ℝ) : EReal) - (a : EReal) = 0 := by
  rw [← EReal.coe_sub, sub_self, EReal.coe_zero]

theorem coe_sub_self' (a : ℝ) : ((a : ℝ) : EReal) - (a : EReal) = ((0 : ℝ) : EReal) := by
  rw [← EReal.coe_sub, sub_self]

theorem coe_max (a b : ℝ) : max ((a : ℝ) : EReal) (b : EReal) = ((max a b : ℝ) : EReal) :=
  (EReal.coe_strictMono.monotone.map_max (a := a) (b := b)).symm

theorem coe_min (a b : ℝ) : min ((a : ℝ) : EReal) (b : EReal) = ((min a b : ℝ) : EReal) :=
  (EReal.coe_strictMono.monotone.map_min (a := a) (b := b)).symm

theorem coe_max_zero (a : ℝ) : max ((a : ℝ) : EReal) 0 = ((max a 0 : ℝ) : EReal) := by
  rw [← EReal.coe_zero, coe_max]

theorem zero_max_coe (a : ℝ) : max 0 ((a : ℝ) : EReal) = ((max 0 a : ℝ) : EReal) := by
  rw [← EReal.coe_zero, coe_max]

theorem div_coe_coe {y : ℝ} (hy : y ≠ 0) (x : ℝ) :
    Ideal.div (x : EReal) (y : EReal) = ((x / y : ℝ) : EReal) := by
  rw [Ideal.div_coe hy, ← EReal.coe_mul, mul_one_div]

theorem sqrt_coe_nonneg {r : ℝ} (h : 0 ≤ r) : Ideal.sqrt (r : EReal) = ((Real.sqrt r : ℝ) : EReal) := by
  rw [Ideal.sqrt_coe, if_neg (not_lt.mpr h)]

theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

end Cert.LibEReal

end
-- ==== Proof.KI.Pay1Ops.lean ====
import proofs.«163270_g1194000908387_cont_fleet_524_12_alg».proof.Proof.KI.OutIs
import proofs.«163270_g1194000908387_cont_fleet_524_12_alg».proof.Proof.SpecAlgebra
import proofs.«163270_g1194000908387_cont_fleet_524_12_alg».proof.Proof.LibERealSums
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.KernelVsHost

noncomputable section

namespace Cert.KernelIdeal.Hand.PayOps

open Idealize.ShloMosaic Idealize.ShloMosaic.TcCoe Idealize.SL.Sem Idealize.ShloMosaic.ValueIdx
open Cert.KernelIdeal Cert.KernelIdeal.Gen Cert.KernelIdeal.Hand Cert.Spec Cert

theorem liftRow_apply (f : Fin 256 → ℝ) (x : S1x256.Idx) : liftRow f x = ((f (x 1) : ℝ) : EReal) := rfl

theorem lift2_ix2 {m n : Nat} (x : Fin m → Fin n → ℝ) (a : Fin m) (b : Fin n) :
    lift2 x (ix2 a b) = ((x a b : ℝ) : EReal) := rfl

theorem ld_constRows8 (f : Fin 256 → ℝ) (X : Vec Ideal S8x256 .f32) (hX : X = constRows8 f) :
    View.ld X rowRect0 = liftRow f := by
  subst hX
  funext x
  show ((f ((rowRect0.emb x) 1) : ℝ) : EReal) = ((f (x 1) : ℝ) : EReal)
  exact congrArg (fun k => ((f k : ℝ) : EReal)) (Fin.ext (by show 0 + 1 * (x 1).val = (x 1).val; omega))

theorem truncf_id {s : Shape} (v : FVec Ideal s .f32) (h : FTy.bf16.bits < FTy.f32.bits) :
    (truncf .bf16 v h : FVec Ideal s .bf16) = v := rfl

theorem rowDivConst (s : Fin 256 → ℝ) (c : Ideal .f32) (d : ℝ) (hd : d ≠ 0) (hc : c = ((d : ℝ) : EReal)) :
    divf (F := Ideal) (φ := .f32) (liftRow s) (broadcast S1x256 c) = liftRow (fun j => s j / d) := by
  subst hc; exact funext fun x => LibEReal.div_coe_coe hd _

theorem rowAddConst (s : Fin 256 → ℝ) (c : Ideal .f32) (d : ℝ) (hc : c = ((d : ℝ) : EReal)) :
    addf (F := Ideal) (φ := .f32) (liftRow s) (broadcast S1x256 c) = liftRow (fun j => s j + d) := by
  subst hc; exact funext fun x => LibEReal.coe_add_coe _ _

theorem constMulRow (s : Fin 256 → ℝ) (c : Ideal .f32) (d : ℝ) (hc : c = ((d : ℝ) : EReal)) :
    mulf (F := Ideal) (φ := .f32) (broadcast S1x256 c) (liftRow s) = liftRow (fun j => d * s j) := by
  subst hc; exact funext fun x => LibEReal.coe_mul_coe _ _

theorem rowMul (a b : Fin 256 → ℝ) :
    mulf (F := Ideal) (φ := .f32) (liftRow a) (liftRow b) = liftRow (fun j => a j * b j) :=
  funext fun x => LibEReal.coe_mul_coe _ _

theorem rowSub (a b : Fin 256 → ℝ) :
    subf (F := Ideal) (φ := .f32) (liftRow a) (liftRow b) = liftRow (fun j => a j - b j) :=
  funext fun x => LibEReal.coe_sub_coe _ _

theorem rowAdd (a b : Fin 256 → ℝ) :
    addf (F := Ideal) (φ := .f32) (liftRow a) (liftRow b) = liftRow (fun j => a j + b j) :=
  funext fun x => LibEReal.coe_add_coe _ _

theorem rowRsqrt (v : Fin 256 → ℝ) (hv : ∀ j, 0 < v j) :
    rsqrt (F := Ideal) (φ := .f32) (liftRow v) = liftRow (fun j => (Real.sqrt (v j))⁻¹) :=
  funext fun x => LibEReal.rsqrt_coe_pos (hv (x 1))

theorem matMul {m n : Nat} {φ : FTy} (a b : Fin m → Fin n → ℝ) :
    mulf (F := Ideal) (s := ⟨2, ![m, n]⟩) (φ := φ) (lift2 a) (lift2 b) = lift2 (fun i j => a i j * b i j) :=
  funext fun x => LibEReal.coe_mul_coe _ _

theorem matAdd {m n : Nat} {φ : FTy} (a b : Fin m → Fin n → ℝ) :
    addf (F := Ideal) (s := ⟨2, ![m, n]⟩) (φ := φ) (lift2 a) (lift2 b) = lift2 (fun i j => a i j + b i j) :=
  funext fun x => LibEReal.coe_add_coe _ _

theorem matSub {m n : Nat} {φ : FTy} (a b : Fin m → Fin n → ℝ) :
    subf (F := Ideal) (s := ⟨2, ![m, n]⟩) (φ := φ) (lift2 a) (lift2 b) = lift2 (fun i j => a i j - b i j) :=
  funext fun x => LibEReal.coe_sub_coe _ _

theorem matSubConst {m n : Nat} {φ : FTy} (a : Fin m → Fin n → ℝ) (c : Ideal φ) (d : ℝ) (hc : c = ((d : ℝ) : EReal)) :
    subf (F := Ideal) (s := ⟨2, ![m, n]⟩) (φ := φ) (lift2 a) (broadcast ⟨2, ![m, n]⟩ c) = lift2 (fun i j => a i j - d) := by
  subst hc; exact funext fun x => LibEReal.coe_sub_coe _ _

theorem matMaxZero {m n : Nat} {φ : FTy} (a : Fin m → Fin n → ℝ) (c : Ideal φ) (hc : c = ((0 : ℝ) : EReal)) :
    maximumf (F := Ideal) (s := ⟨2, ![m, n]⟩) (φ := φ) (lift2 a) (broadcast ⟨2, ![m, n]⟩ c)
      = lift2 (fun i j => max (a i j) 0) := by
  subst hc; exact funext fun x => LibEReal.coe_max _ _

theorem rowsOfN {n : ℕ} (v : Fin 256 → ℝ) (h : S1x256.Broadcasts ⟨2, ![n, 256]⟩) :
    broadcastTo ⟨2, ![n, 256]⟩ (liftRow v) h = lift2 (fun (_ : Fin n) j => v j) := by
  funext x
  obtain ⟨p, q, rfl⟩ : ∃ (p : Fin n) (q : Fin 256), x = ix2 p q := ⟨x 0, x 1, eq_ix2 x⟩
  rw [broadcastTo_1b_ab_apply]; rfl

theorem rowsOf4096 (v : Fin 256 → ℝ) :
    broadcastTo S4096x256 (liftRow v) broadcasts_S1x256_S4096x256 = lift2 (fun (_ : Fin 4096) j => v j) := rowsOfN v _

theorem rowsOf512 (v : Fin 256 → ℝ) :
    broadcastTo S512x256 (liftRow v) broadcasts_S1x256_S512x256 = lift2 (fun (_ : Fin 512) j => v j) := rowsOfN v _

theorem rowsOf8 (v : Fin 256 → ℝ) :
    broadcastTo S8x256 (liftRow v) broadcasts_S1x256_S8x256 = constRows8 v := rowsOfN v _

/-- With accumulator zero, entry (p, j) of the product is Σ_c a p c · y c j. -/
theorem mmPlain {m k n : ℕ} {φ₁ φ₂ : FTy} (a : Fin m → Fin k → ℝ) (y : Fin k → Fin n → ℝ) :
    matmul (F := Ideal) (φ₁ := φ₁) (φ₂ := φ₂) (DotDims.plain m k n) none (lift2 a) (lift2 y)
        (constant ⟨2, ![m, n]⟩ .f32 0x00000000#32)
      = lift2 (fun p j => ∑ c : Fin k, a p c * y c j) := by
  funext x
  obtain ⟨p, q, rfl⟩ : ∃ (p : Fin m) (q : Fin n), x = ix2 p q := ⟨x 0, x 1, eq_ix2 x⟩
  rw [matmul_zero_eq_dotGeneral, StackMember.dotGeneral_plain_apply]
  simp only [lift2_ix2]
  exact LibEReal.sum_coe_mul_coe _ _ _

theorem mmAgg {φ₁ φ₂ : FTy} (a : Fin 512 → Fin 4096 → ℝ) (y : Fin 4096 → Fin 256 → ℝ) :
    matmul (F := Ideal) (φ₁ := φ₁) (φ₂ := φ₂) dot_S512x4096_S4096x256_S512x256_1_0_0_1_n_n none (lift2 a) (lift2 y)
        (constant S512x256 .f32 0x00000000#32)
      = lift2 (fun p j => ∑ k : Fin 4096, a p k * y k j) := mmPlain a y

theorem mmLin {φ₁ φ₂ : FTy} (h : Fin 4096 → Fin 256 → ℝ) (W : Fin 256 → Fin 256 → ℝ) :
    matmul (F := Ideal) (φ₁ := φ₁) (φ₂ := φ₂) dot_S4096x256_S256x256_S4096x256_1_0_0_1_n_n none (lift2 h) (lift2 W)
        (constant S4096x256 .f32 0x00000000#32)
      = lift2 (fun i j => ∑ k : Fin 256, h i k * W k j) := mmPlain h W

/-- Each entry of the reduced row is the real sum down its column. -/
theorem colSumRows {n : ℕ} (x : Fin n → Fin 256 → ℝ) (h : (⟨2, ![n, 256]⟩ : Shape).Reduces [0] S256)
    (hφ : FKind.Formats FTy.f32) (hacc : (0x00000000#32 : BitVec 32) = 0x00000000#32) :
    shapeCast S1x256 (multiReduction (F := Ideal) .add [0] S256 (lift2 x) 0x00000000#32 h hφ hacc) shapeCasts_S256_S1x256
      = liftRow (fun j => ∑ p : Fin n, x p j) := by
  funext i
  obtain ⟨u, q, rfl⟩ : ∃ (u : Fin 1) (q : Fin 256), i = ix2 u q := ⟨i 0, i 1, eq_ix2 i⟩
  rw [shapeCast_a_1a_apply]
  refine (Ideal.multiReduction_add_single (lift2 x) _ h hφ hacc (ix1 q)).trans ?_
  show _ = ((∑ p : Fin n, x p q : ℝ) : EReal)
  rw [LibEReal.coe_sum]
  exact Finset.sum_congr rfl fun p _ => rfl

theorem colSum512 (x : Fin 512 → Fin 256 → ℝ) :
    shapeCast S1x256 (multiReduction (F := Ideal) (φ := .f32) .add [0] S256 (lift2 x) 0x00000000#32 reduces_S512x256_S256
        (.inl rfl) rfl) shapeCasts_S256_S1x256
      = liftRow (fun j => ∑ p : Fin 512, x p j) := colSumRows x _ _ _

theorem colSum4096 (x : Fin 4096 → Fin 256 → ℝ) :
    shapeCast S1x256 (multiReduction (F := Ideal) (φ := .f32) .add [0] S256 (lift2 x) 0x00000000#32 reduces_S4096x256_S256
        (.inl rfl) rfl) shapeCasts_S256_S1x256
      = liftRow (fun j => ∑ p : Fin 4096, x p j) := colSumRows x _ _ _

theorem statConcat (u v : Fin 256 → ℝ) (z : Ideal .f32) (hz : z = ((0 : ℝ) : EReal)) :
    concatenate (α := Ideal .f32) S8x256 0 [⟨S1x256, liftRow u⟩, ⟨S1x256, liftRow v⟩, ⟨S6x256, broadcast S6x256 z⟩]
      concatenates_S1x256_S1x256_S6x256_S8x256_d0 = statRows u v := by
  funext i
  obtain ⟨r, q, rfl⟩ : ∃ (r : Fin 8) (q : Fin 256), i = ix2 r q := ⟨i 0, i 1, eq_ix2 i⟩
  have P := concatenate_apply_piece (α := Ideal .f32) (t := S8x256) (0 : Fin 2)
    [⟨S1x256, liftRow u⟩, ⟨S1x256, liftRow v⟩, ⟨S6x256, broadcast S6x256 z⟩]
    concatenates_S1x256_S1x256_S6x256_S8x256_d0 (ix2 r q)
  have hb : ∀ {m : ℕ} (y : Fin m) (b : Fin 2), b ≠ 0 → ((ix2 y q) b).val = ((ix2 r q) b).val := fun y b hb => by
    match b with
    | ⟨0, _⟩ => exact absurd rfl hb
    | ⟨1, _⟩ => rfl
  show _ = if r.val = 0 then ((u q : ℝ) : EReal) else if r.val = 1 then ((v q : ℝ) : EReal) else ((0 : ℝ) : EReal)
  by_cases h0 : r.val = 0
  · rw [if_pos h0]
    exact (P 0 (by simp) S1x256 (liftRow u) rfl rfl 0 rfl (ix2 (0 : Fin 1) q) (hb _) (by show 0 + 0 = r.val; omega)).trans rfl
  · rw [if_neg h0]
    by_cases h1 : r.val = 1
    · rw [if_pos h1]
      exact (P 1 (by simp) S1x256 (liftRow v) rfl rfl 1 rfl (ix2 (0 : Fin 1) q) (hb _) (by show 1 + 0 = r.val; omega)).trans rfl
    · rw [if_neg h1]
      have hr : r.val - 2 < 6 := by have := r.isLt; omega
      exact (P 2 (by simp) S6x256 (broadcast S6x256 z) rfl rfl 2 rfl (ix2 (⟨r.val - 2, hr⟩ : Fin 6) q) (hb _)
        (by show 2 + (r.val - 2) = r.val; omega)).trans hz

theorem statAdd (s1 s2 u v : Fin 256 → ℝ) :
    addf (F := Ideal) (φ := .f32) (statRows s1 s2) (statRows u v)
      = statRows (fun j => s1 j + u j) (fun j => s2 j + v j) := by
  funext i
  rw [addf_apply]
  unfold statRows
  by_cases h0 : (i 0).val = 0
  · simp only [if_pos h0]; exact LibEReal.coe_add_coe _ _
  · by_cases h1 : (i 0).val = 1
    · simp only [if_neg h0, if_pos h1]; exact LibEReal.coe_add_coe _ _
    · simp only [if_neg h0, if_neg h1]; rw [LibEReal.coe_add_coe, add_zero]

theorem agg_point (a y : Fin 4096 → ℝ) (b : ℝ) :
    (∑ k, (a k - 1 / 2) * y k) + (∑ k, (a k - 1 / 2) * (0 : ℝ)) + (1 / 2 * (∑ k, y k) + b) = (∑ k, a k * y k) + b := by
  have hexp : ∀ k : Fin 4096, (a k - 1 / 2) * y k = a k * y k - 1 / 2 * y k := fun k => by ring
  rw [Finset.sum_congr rfl fun k _ => hexp k, Finset.sum_sub_distrib, ← Finset.mul_sum]
  simp only [mul_zero, Finset.sum_const_zero, add_zero]
  ring

theorem projSplit {φ₁ φ₂ : FTy} (h : Fin 4096 → Fin 256 → ℝ) (W : Fin 256 → Fin 256 → ℝ) :
    addf (F := Ideal)
      (addf
        (matmul (F := Ideal) (φ₁ := φ₁) (φ₂ := φ₂) dot_S4096x256_S256x256_S4096x256_1_0_0_1_n_n none (lift2 h) (lift2 W)
          (constant S4096x256 .f32 0x00000000#32))
        (matmul (F := Ideal) (φ₁ := φ₁) (φ₂ := φ₂) dot_S4096x256_S256x256_S4096x256_1_0_0_1_n_n none
          (lift2 (fun i j => h i j - h i j)) (lift2 W) (constant S4096x256 .f32 0x00000000#32)))
      (matmul (F := Ideal) (φ₁ := φ₁) (φ₂ := φ₂) dot_S4096x256_S256x256_S4096x256_1_0_0_1_n_n none (lift2 h)
        (lift2 (fun i j => W i j - W i j)) (constant S4096x256 .f32 0x00000000#32))
      = lift2 (lin h W) := by
  rw [mmLin, mmLin, mmLin, matAdd, matAdd]
  refine congrArg lift2 ?_
  funext i j
  exact split_lin h W i j

end Cert.KernelIdeal.Hand.PayOps

end
-- ==== Proof.KI.Pay0.lean ====
import proofs.«163270_g1194000908387_cont_fleet_524_12_alg».proof.Proof.KI.OutIs
import proofs.«163270_g1194000908387_cont_fleet_524_12_alg».proof.Proof.KI.Pay1Ops
import proofs.«163270_g1194000908387_cont_fleet_524_12_alg».proof.Proof.SpecAlgebra
import proofs.«163270_g1194000908387_cont_fleet_524_12_alg».proof.Proof.LibERealSums
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Spec
open Cert.KernelIdeal.Hand.PayOps

namespace Pay0

theorem half_eq : FloatOps.ofBits (F := Ideal) .f32 0x3F000000#32 = ((1 / 2 : ℝ) : EReal) := Cert.Consts.ofBits_half
theorem zero_eq : FloatOps.ofBits (F := Ideal) .f32 0x00000000#32 = ((0 : ℝ) : EReal) := Cert.Consts.ofBits_zero

/-- Two of the three products have an operand of the form z − z, so only x · W is left. -/
theorem pay1_eq (x : Fin 4096 → Fin 256 → ℝ) (W : Fin 256 → Fin 256 → ℝ) :
    k0_pay1 (F := Ideal) (lift2 x) (lift2 W) = lift2 (lin x W) := by
  unfold k0_pay1
  dsimp only
  rw [matSub, matSub, truncf_id, truncf_id, truncf_id, truncf_id]
  exact projSplit x W

theorem pay2_eq (x : Fin 4096 → Fin 256 → ℝ) (W : Fin 256 → Fin 256 → ℝ) :
    k0_pay2 (F := Ideal) (lift2 x) (lift2 W) = lift2 (lin x W) := by
  unfold k0_pay2
  dsimp only
  rw [shapeCast_self, pay1_eq]
  rfl

theorem pay3_eq (x : Fin 4096 → Fin 256 → ℝ) (W : Fin 256 → Fin 256 → ℝ) :
    k0_pay3 (F := Ideal) (lift2 x) (lift2 W) = lift2 (fun (_ : Fin 4096) (_ : Fin 256) => (0 : ℝ)) := by
  unfold k0_pay3
  dsimp only
  rw [pay1_eq, matSub, truncf_id, shapeCast_self]
  exact congrArg lift2 (funext fun i => funext fun j => sub_self _)

theorem pay4_eq (x : Fin 4096 → Fin 256 → ℝ) (W : Fin 256 → Fin 256 → ℝ) (b : Fin 256 → ℝ) :
    k0_pay4 (F := Ideal) (lift2 x) (lift2 W) (liftRow b) = constRows8 (corrRow (lin x W) b) := by
  unfold k0_pay4
  dsimp only
  rw [pay1_eq, colSum4096, constMulRow _ _ (1 / 2) half_eq, shapeCast_self (liftRow b), rowAdd,
    shapeCast_self, shapeCast_self, rowsOf8]
  rfl

/-- The half taken off every entry of a comes back through the correction row, leaving a · y + b under the clip. -/
theorem pay5_eq (a : Fin 512 → Fin 4096 → ℝ) (y : Fin 4096 → Fin 256 → ℝ) (b : Fin 256 → ℝ) :
    k0_pay5 (F := Ideal) (lift2 a) (lift2 y) (lift2 (fun (_ : Fin 4096) (_ : Fin 256) => (0 : ℝ))) (liftRow (corrRow y b))
      = lift2 (blockOut a y b) := by
  unfold k0_pay5
  dsimp only
  rw [matSubConst a _ (1 / 2) half_eq, truncf_id, mmAgg, mmAgg, matAdd, rowsOf512, matAdd,
    matMaxZero _ _ zero_eq]
  refine congrArg lift2 ?_
  funext p j
  unfold blockOut
  exact congrArg (fun t => max t 0) (agg_point (fun k => a p k) (fun k => y k j) (b j))

theorem pay6_eq (a : Fin 512 → Fin 4096 → ℝ) (y : Fin 4096 → Fin 256 → ℝ) (b : Fin 256 → ℝ) :
    k0_pay6 (F := Ideal) (lift2 a) (lift2 y) (lift2 (fun (_ : Fin 4096) (_ : Fin 256) => (0 : ℝ))) (liftRow (corrRow y b))
      = statRows (blockSum (blockOut a y b)) (blockSq (blockOut a y b)) := by
  unfold k0_pay6
  dsimp only
  rw [pay5_eq, matMul, colSum512, colSum512, statConcat _ _ _ zero_eq]
  rfl

theorem pay7_eq (a : Fin 512 → Fin 4096 → ℝ) (y : Fin 4096 → Fin 256 → ℝ) (b : Fin 256 → ℝ) (s1 s2 : Fin 256 → ℝ) :
    k0_pay7 (F := Ideal) (lift2 a) (lift2 y) (lift2 (fun (_ : Fin 4096) (_ : Fin 256) => (0 : ℝ))) (liftRow (corrRow y b))
        (statRows s1 s2)
      = statRows (fun j => s1 j + blockSum (blockOut a y b) j) (fun j => s2 j + blockSq (blockOut a y b) j) := by
  unfold k0_pay7
  dsimp only
  rw [pay6_eq, shapeCast_self, statAdd]

end Pay0

open Pay0

theorem first0_is (x : Fin 4096 → Fin 256 → ℝ) (W : Fin 256 → Fin 256 → ℝ) (b : Fin 256 → ℝ) (a : Fin 512 → Fin 4096 → ℝ)
    (s : Vec Ideal S8x256 .f32) (g bt : Vec Ideal S1x256 .f32) :
    OutIs (first0 (F := Ideal) (lift2 x) s (lift2 a) (lift2 W) (liftRow b) g bt) (lin x W) b (blockOut a (lin x W) b)
      (blockSum (blockOut a (lin x W) b)) (blockSq (blockOut a (lin x W) b)) := by
  dsimp only [OutIs, first0]
  rw [pay2_eq, pay3_eq, pay4_eq, ld_constRows8 _ _ rfl, pay5_eq, pay6_eq]
  exact ⟨rfl, rfl, rfl, rfl, rfl⟩

theorem next0_is (a : Fin 512 → Fin 4096 → ℝ) (o : Out Ideal) (y : Fin 4096 → Fin 256 → ℝ) (b : Fin 256 → ℝ)
    (R : Fin 512 → Fin 256 → ℝ) (s1 s2 : Fin 256 → ℝ) (h : OutIs o y b R s1 s2) :
    OutIs (next0 (F := Ideal) (lift2 a) o) y b (blockOut a y b)
      (fun j => s1 j + blockSum (blockOut a y b) j) (fun j => s2 j + blockSq (blockOut a y b) j) := by
  dsimp only [OutIs, next0] at h ⊢
  obtain ⟨hyh, hyl, hcorr, hr, hst⟩ := h
  rw [hyh, hyl, hcorr, hst, ld_constRows8 _ _ rfl, pay5_eq, pay7_eq]
  exact ⟨rfl, rfl, rfl, rfl, rfl⟩

end Cert.KernelIdeal.Hand

end
-- ==== Proof.LibBlockSum.lean ====
import Mathlib.Algebra.BigOperators.Fin
import Mathlib.Data.Fintype.BigOperators
import Mathlib.Logic.Equiv.Fin.Basic
import Mathlib.Data.Real.Basic

namespace Cert.LibBlockSum

theorem blk_lt {m n : ℕ} (t : Fin m) (p : Fin n) : n * t.val + p.val < m * n := by
  have h1 : n * t.val + p.val < n * t.val + n := Nat.add_lt_add_left p.isLt _
  have h2 : n * t.val + n = n * (t.val + 1) := (Nat.mul_succ n t.val).symm
  have h3 : n * (t.val + 1) ≤ n * m := Nat.mul_le_mul_left _ t.isLt
  have h4 : n * m = m * n := Nat.mul_comm _ _
  omega

theorem sum_blocks {M : Type*} [AddCommMonoid M] (m n : ℕ) (f : Fin (m * n) → M) :
    ∑ i : Fin (m * n), f i = ∑ t : Fin m, ∑ p : Fin n, f ⟨n * t.val + p.val, blk_lt t p⟩ := by
  rw [← (finProdFinEquiv : Fin m × Fin n ≃ Fin (m * n)).sum_comp f, Fintype.sum_prod_type]
  refine Finset.sum_congr rfl fun t _ => Finset.sum_congr rfl fun p _ => ?_
  congr 1
  apply Fin.ext
  show p.val + n * t.val = n * t.val + p.val
  exact Nat.add_comm _ _

theorem sum_rows_blocks (f : Fin 4096 → ℝ) :
    ∑ i : Fin 4096, f i
      = ∑ t : Fin 8, ∑ p : Fin 512, f ⟨512 * t.val + p.val, by have := t.isLt; have := p.isLt; omega⟩ :=
  sum_blocks 8 512 f

end Cert.LibBlockSum
-- ==== Proof.KI.Val1Rows.lean ====
import proofs.«163270_g1194000908387_cont_fleet_524_12_alg».proof.Proof.KI.OutIs
import proofs.«163270_g1194000908387_cont_fleet_524_12_alg».proof.Proof.LibBlockSum
import Mathlib.Algebra.BigOperators.Fin
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Spec

theorem statRows_ld0 (s1 s2 : Fin 256 → ℝ) : View.ld (Val := Elt Ideal) (e' := .f32) (statRows s1 s2) rowRect0 = liftRow s1 := by
  funext x
  show statRows s1 s2 (rowRect0.idx x) = liftRow s1 x
  have h0 : ((rowRect0.idx x) 0).val = 0 := by
    show 0 + 1 * (x 0).val = 0
    have h : (x 0).val < 1 := (x 0).isLt
    omega
  have h1 : (rowRect0.idx x) 1 = (x 1 : Fin 256) := by
    apply Fin.ext
    show 0 + 1 * (x 1).val = (x 1).val
    omega
  unfold statRows liftRow
  rw [if_pos h0, h1]

theorem statRows_ld1 (s1 s2 : Fin 256 → ℝ) : View.ld (Val := Elt Ideal) (e' := .f32) (statRows s1 s2) rowRect1 = liftRow s2 := by
  funext x
  show statRows s1 s2 (rowRect1.idx x) = liftRow s2 x
  have h0 : ((rowRect1.idx x) 0).val = 1 := by
    show 1 + 1 * (x 0).val = 1
    have h : (x 0).val < 1 := (x 0).isLt
    omega
  have h1 : (rowRect1.idx x) 1 = (x 1 : Fin 256) := by
    apply Fin.ext
    show 0 + 1 * (x 1).val = (x 1).val
    omega
  unfold statRows liftRow
  rw [if_neg (by rw [h0]; decide), if_pos h0, h1]

def runSum (f : Fin 8 → Fin 256 → ℝ) : (n : ℕ) → n < 8 → Fin 256 → ℝ
  | 0, h => f ⟨0, h⟩
  | n + 1, h => fun j => runSum f n (Nat.lt_of_succ_lt h) j + f ⟨n + 1, h⟩ j

theorem runSum_last (f : Fin 8 → Fin 256 → ℝ) : runSum f 7 (by decide) = fun j => ∑ t : Fin 8, f t j := by
  funext j
  rw [Fin.sum_univ_eight]
  rfl

theorem blockOut_rowsBlk (adj : Fin 4096 → Fin 4096 → ℝ) (h : Fin 4096 → Fin 256 → ℝ) (W : Fin 256 → Fin 256 → ℝ) (b : Fin 256 → ℝ)
    (t : Fin 8) (p : Fin 512) (q : Fin 256) :
    blockOut (rowsBlk t adj) (lin h W) b p q
      = layer adj h W b ⟨512 * t.val + p.val, by have := t.isLt; have := p.isLt; omega⟩ q := rfl

theorem runSum_blockSum (adj : Fin 4096 → Fin 4096 → ℝ) (h : Fin 4096 → Fin 256 → ℝ) (W : Fin 256 → Fin 256 → ℝ) (b : Fin 256 → ℝ) :
    runSum (fun t => blockSum (blockOut (rowsBlk t adj) (lin h W) b)) 7 (by decide) = colSum (layer adj h W b) := by
  rw [runSum_last]
  funext j
  show _ = ∑ i : Fin 4096, layer adj h W b i j
  rw [Cert.LibBlockSum.sum_rows_blocks (fun i => layer adj h W b i j)]
  rfl

theorem runSum_blockSq (adj : Fin 4096 → Fin 4096 → ℝ) (h : Fin 4096 → Fin 256 → ℝ) (W : Fin 256 → Fin 256 → ℝ) (b : Fin 256 → ℝ) :
    runSum (fun t => blockSq (blockOut (rowsBlk t adj) (lin h W) b)) 7 (by decide) = colSq (layer adj h W b) := by
  rw [runSum_last]
  funext j
  show _ = ∑ i : Fin 4096, layer adj h W b i j * layer adj h W b i j
  rw [Cert.LibBlockSum.sum_rows_blocks (fun i => layer adj h W b i j * layer adj h W b i j)]
  rfl

end Cert.KernelIdeal.Hand

end
-- ==== Proof.KI.Val0.lean ====
import proofs.«163270_g1194000908387_cont_fleet_524_12_alg».proof.Proof.KI.Pay0
import proofs.«163270_g1194000908387_cont_fleet_524_12_alg».proof.Proof.KI.Val1Rows
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

namespace Val0

abbrev pt (t : Fin cfg0.N) : Fin 8 := ⟨t.val, lt_of_lt_of_eq t.isLt N_0⟩

theorem idx_facts0 : ∀ t : Fin cfg0.N,
    (∀ a, win0_0.index t a = 0) ∧ win0_2.index t (0 : Fin 2) = t.val ∧ win0_2.index t (1 : Fin 2) = 0
  ∧ (∀ a, win0_3.index t a = 0) ∧ (∀ a, win0_4.index t a = 0)
  ∧ win0_7.index t (0 : Fin 2) = t.val ∧ win0_7.index t (1 : Fin 2) = 0 ∧ ∀ a, win0_8.index t a = 0 :=
  (by decide +kernel : ∀ t : Fin grid0.N, _)

theorem blk0_whole (c : Dev nD) (t : Fin cfg0.N) :
    hblk0 V c t = V c main_arg0 ∧ wblk0 V c t = V c main_arg2 ∧ bblk0 V c t = V c main_v1 := by
  obtain ⟨z0, -, -, z3, z4, -⟩ := idx_facts0 t
  unfold hblk0 wblk0 bblk0 iblk0
  refine ⟨?_, ?_, ?_⟩ <;> funext j <;> rw [View.read_apply]
  · exact congrArg (V c _) (funext fun a => Fin.ext (win0_0.rect_emb_val_of_index_zero t a (z0 a) j))
  · exact congrArg (V c _) (funext fun a => Fin.ext (win0_3.rect_emb_val_of_index_zero t a (z3 a) j))
  · exact congrArg (V c _) (funext fun a => Fin.ext (win0_4.rect_emb_val_of_index_zero t a (z4 a) j))

theorem ablk0_eq (c : Dev nD) (t : Fin cfg0.N) (adj : Fin 4096 → Fin 4096 → ℝ)
    (h1 : (V c main_arg1 : S4096x4096.Idx → EReal) = lift2 adj) :
    ablk0 V c t = lift2 (rowsBlk (pt t) adj) := by
  obtain ⟨-, e0, e1, -⟩ := idx_facts0 t
  funext j
  unfold ablk0 iblk0
  rw [View.read_apply]
  refine (congrFun h1 _).trans (congrArg (fun r : ℝ => (r : EReal)) (congrArg₂ adj (Fin.ext ?_) (Fin.ext ?_)))
  · exact (win0_2.rect_emb_val t j 0).trans (by rw [e0]; exact Nat.mul_comm _ _ ▸ rfl)
  · exact win0_2.rect_emb_val_of_index_zero t 1 e1 j

end Val0

open Val0

variable (c : Dev nD) (x : Fin 4096 → Fin 256 → ℝ) (adj : Fin 4096 → Fin 4096 → ℝ) (W : Fin 256 → Fin 256 → ℝ) (b : Fin 256 → ℝ)
  (h0 : (V c main_arg0 : S4096x256.Idx → EReal) = lift2 x) (h1 : (V c main_arg1 : S4096x4096.Idx → EReal) = lift2 adj)
  (h2 : (V c main_arg2 : S256x256.Idx → EReal) = lift2 W) (h4 : (V c main_v1 : S1x256.Idx → EReal) = liftRow b)
include h0 h1 h2 h4

/-- Induction on n: point 0 fills all five buffers; point n + 1 overwrites the block and adds its column sums to the running rows. -/
theorem Val0.inv0 : ∀ (n : ℕ) (hn : n < cfg0.N),
    OutIs (outsAt0 V c n hn) (lin x W) b (blockOut (rowsBlk (pt ⟨n, hn⟩) adj) (lin x W) b)
      (runSum (fun t => blockSum (blockOut (rowsBlk t adj) (lin x W) b)) n (lt_of_lt_of_eq hn N_0))
      (runSum (fun t => blockSq (blockOut (rowsBlk t adj) (lin x W) b)) n (lt_of_lt_of_eq hn N_0))
  | 0, hn => by
    obtain ⟨a0, a3, a4⟩ := blk0_whole V c ⟨0, hn⟩
    rw [outsAt0_zero, a0, a3, a4, h0, h2, h4, ablk0_eq V c ⟨0, hn⟩ adj h1]
    exact first0_is x W b _ _ _ _
  | n + 1, hn => by
    rw [outsAt0_succ, ablk0_eq V c ⟨n + 1, hn⟩ adj h1]
    exact next0_is _ _ _ _ _ _ _ (Val0.inv0 n (Nat.lt_of_succ_lt hn))

theorem arr0_r :
    ((dat0 (F := Ideal) V c).arrAt 7 cfg0.N : S4096x256.Idx → EReal) = lift2 (layer adj x W b) := by
  refine (dat0 (F := Ideal) V c).arrAt_eq_of_cover 7 _ (fun t _ => ?_) (fun i => ?_)
  · obtain ⟨-, -, -, -, -, e0, e1, -⟩ := idx_facts0 t
    show (cfg0.win 7).cut (grid0.coords t) ((dat0 (F := Ideal) V c).after 7 t) = _
    rw [after0_7, (Val0.inv0 V c x adj W b h0 h1 h2 h4 t.val t.isLt).2.2.2.1]
    funext j
    rw [View.read_apply]
    refine congrArg (fun r : ℝ => (r : EReal)) (congrArg₂ (layer adj x W b) (Fin.ext ?_) (Fin.ext ?_)).symm
    · exact (win0_7.rect_emb_val t j 0).trans (by rw [e0]; exact Nat.mul_comm _ _ ▸ rfl)
    · exact win0_7.rect_emb_val_of_index_zero t 1 e1 j
  · have hi0 : (i 0).val < 4096 := (i 0).isLt
    obtain ⟨t, ht⟩ : ∃ t : Fin cfg0.N, t.val = (i 0).val / 512 :=
      ⟨⟨(i 0).val / 512, by rw [show cfg0.N = 8 from N_0]; omega⟩, rfl⟩
    obtain ⟨-, -, -, -, -, e0, e1, -⟩ := idx_facts0 t
    have hy : ((cfg0.win 7).blk t).view.emb (ValueIdx.ix2 (⟨(i 0).val % 512, Nat.mod_lt _ (by decide)⟩ : Fin 512) (i 1)) = i :=
      Shape.idx_ext₂ ((win0_7.rect_emb_val t _ 0).trans (by rw [e0, ht]; exact Nat.div_add_mod' _ _))
        (win0_7.rect_emb_val_of_index_zero t 1 e1 _)
    exact ⟨t, flush0_7 t, hy ▸ View.emb_mem_set _ _⟩

theorem arr0_st :
    ((dat0 (F := Ideal) V c).arrAt 8 cfg0.N : S8x256.Idx → EReal) = statRows (colSum (layer adj x W b)) (colSq (layer adj x W b)) := by
  have hlt : 7 < cfg0.N := by rw [show cfg0.N = 8 from N_0]; decide
  obtain ⟨-, -, -, -, -, -, -, z8⟩ := idx_facts0 ⟨7, hlt⟩
  have hy : ∀ i, ((cfg0.win 8).blk ⟨7, hlt⟩).view.emb i = i := fun i =>
    funext fun a => Fin.ext (win0_8.rect_emb_val_of_index_zero _ a (z8 a) i)
  refine (dat0 (F := Ideal) V c).arrAt_eq_of_cover 8 _ (fun t hf => ?_) (fun i => ⟨⟨7, hlt⟩, (flush0_8 _).mpr rfl, hy i ▸ View.emb_mem_set _ _⟩)
  have h7 : t.val = 7 := by have := (flush0_8 t).mp hf; have := lt_of_lt_of_eq t.isLt N_0; omega
  obtain rfl : t = ⟨7, hlt⟩ := Fin.ext h7
  show (cfg0.win 8).cut (grid0.coords _) ((dat0 (F := Ideal) V c).after 8 _) = _
  rw [after0_8, (Val0.inv0 V c x adj W b h0 h1 h2 h4 7 hlt).2.2.2.2, runSum_blockSum adj x W b, runSum_blockSq adj x W b]
  funext j
  rw [View.read_apply]
  exact (congrArg (statRows _ _) (hy j)).symm

end Cert.KernelIdeal.Hand

end
-- ==== Proof.KI.Pay1.lean ====
import proofs.«163270_g1194000908387_cont_fleet_524_12_alg».proof.Proof.KI.OutIs
import proofs.«163270_g1194000908387_cont_fleet_524_12_alg».proof.Proof.KI.Pay1Ops
import proofs.«163270_g1194000908387_cont_fleet_524_12_alg».proof.Proof.SpecAlgebra
import proofs.«163270_g1194000908387_cont_fleet_524_12_alg».proof.Proof.LibERealSums
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Spec
open Cert.KernelIdeal.Hand.PayOps

theorem pay7_r1 (ε : ℝ) (hε : Ideal.ofBits .f32 0x3727C5AC#32 = ((ε : ℝ) : EReal))
    (rp : Fin 4096 → Fin 256 → ℝ) (s1 s2 g bt : Fin 256 → ℝ) (W : Fin 256 → Fin 256 → ℝ)
    (hpos : ∀ j, 0 < varOf s1 s2 j + ε) :
    k1_pay7 (F := Ideal) (liftRow s1) (liftRow s2) (liftRow g) (liftRow bt) (lift2 rp) (lift2 W)
      = lift2 (lin (kBNof ε s1 s2 rp g bt) W) := by
  have h4096 : FloatOps.ofBits (F := Ideal) .f32 0x45800000#32 = ((4096 : ℝ) : EReal) := Cert.Consts.ofBits_4096
  have heps : FloatOps.ofBits (F := Ideal) .f32 0x3727C5AC#32 = ((ε : ℝ) : EReal) := hε
  have hpos' : ∀ j, 0 < (s2 j / 4096 - s1 j / 4096 * (s1 j / 4096)) + ε := hpos
  unfold k1_pay7
  dsimp only
  rw [shapeCast_self (liftRow s1), shapeCast_self (liftRow s2), shapeCast_self (liftRow g), shapeCast_self (liftRow bt),
    shapeCast_self (lift2 rp), rowDivConst s1 _ 4096 (by norm_num) h4096, rowDivConst s2 _ 4096 (by norm_num) h4096,
    rowMul, rowSub, rowAddConst _ _ ε heps, rowRsqrt _ hpos', rowMul, rowMul, rowSub, rowsOf4096, rowsOf4096, matMul,
    matAdd, matSub, matSub, truncf_id, truncf_id, truncf_id, truncf_id]
  exact projSplit _ W

theorem pay1_r1 (v : FVec Ideal S4096x256 .bf16) : k1_pay1 (F := Ideal) v = v := by
  unfold k1_pay1
  exact shapeCast_self v _

theorem pay2_r1 (y : Fin 4096 → Fin 256 → ℝ) :
    k1_pay2 (F := Ideal) (lift2 y) (lift2 y) = lift2 (fun (_ : Fin 4096) (_ : Fin 256) => (0 : ℝ)) := by
  unfold k1_pay2
  dsimp only
  rw [matSub, truncf_id, shapeCast_self]
  refine congrArg lift2 ?_
  funext i j
  exact sub_self _

theorem pay3_r1 (y : Fin 4096 → Fin 256 → ℝ) (b : Fin 256 → ℝ) :
    k1_pay3 (F := Ideal) (lift2 y) (liftRow b) = constRows8 (corrRow y b) := by
  have hhalf : FloatOps.ofBits (F := Ideal) .f32 0x3F000000#32 = ((1 / 2 : ℝ) : EReal) := Cert.Consts.ofBits_half
  unfold k1_pay3
  dsimp only
  rw [colSum4096, constMulRow _ _ (1 / 2) hhalf, shapeCast_self (liftRow b), rowAdd, shapeCast_self, shapeCast_self,
    rowsOf8]
  rfl

theorem pay4_r1 (a : Fin 512 → Fin 4096 → ℝ) (y : Fin 4096 → Fin 256 → ℝ) (b : Fin 256 → ℝ) :
    k1_pay4 (F := Ideal) (lift2 a) (lift2 y) (lift2 (fun (_ : Fin 4096) (_ : Fin 256) => (0 : ℝ))) (liftRow (corrRow y b))
      = lift2 (blockOut a y b) := by
  have hhalf : FloatOps.ofBits (F := Ideal) .f32 0x3F000000#32 = ((1 / 2 : ℝ) : EReal) := Cert.Consts.ofBits_half
  have hzero : FloatOps.ofBits (F := Ideal) .f32 0x00000000#32 = ((0 : ℝ) : EReal) := Cert.Consts.ofBits_zero
  unfold k1_pay4
  dsimp only
  rw [matSubConst a _ (1 / 2) hhalf, truncf_id, mmAgg, mmAgg, matAdd, rowsOf512, matAdd, matMaxZero _ _ hzero]
  refine congrArg lift2 ?_
  funext p j
  unfold blockOut
  exact congrArg (fun t => max t 0) (agg_point (fun k => a p k) (fun k => y k j) (b j))

theorem pay5_r1 (A : Vec Ideal S512x4096 .f32) (Yh Yl : Vec Ideal S4096x256 .bf16) (C : Vec Ideal S1x256 .f32)
    (R : Fin 512 → Fin 256 → ℝ) (hR : k1_pay4 (F := Ideal) A Yh Yl C = lift2 R) :
    k1_pay5 (F := Ideal) A Yh Yl C = statRows (blockSum R) (blockSq R) := by
  have hzero : FloatOps.ofBits (F := Ideal) .f32 0x00000000#32 = ((0 : ℝ) : EReal) := Cert.Consts.ofBits_zero
  unfold k1_pay5
  dsimp only
  rw [hR, matMul, colSum512, colSum512, statConcat _ _ _ hzero]
  rfl

theorem pay6_r1 (A : Vec Ideal S512x4096 .f32) (Yh Yl : Vec Ideal S4096x256 .bf16) (C : Vec Ideal S1x256 .f32)
    (R : Fin 512 → Fin 256 → ℝ) (hR : k1_pay4 (F := Ideal) A Yh Yl C = lift2 R) (s1 s2 : Fin 256 → ℝ) :
    k1_pay6 (F := Ideal) A Yh Yl C (statRows s1 s2)
      = statRows (fun j => s1 j + blockSum R j) (fun j => s2 j + blockSq R j) := by
  unfold k1_pay6
  dsimp only
  rw [pay5_r1 A Yh Yl C R hR, shapeCast_self, statAdd]

theorem first1_is (ε : ℝ) (hε : Ideal.ofBits .f32 0x3727C5AC#32 = ((ε : ℝ) : EReal))
    (rp : Fin 4096 → Fin 256 → ℝ) (s1 s2 g bt : Fin 256 → ℝ) (W : Fin 256 → Fin 256 → ℝ) (b : Fin 256 → ℝ) (a : Fin 512 → Fin 4096 → ℝ)
    (s : Vec Ideal S8x256 .f32) (hs0 : View.ld s rowRect0 = liftRow s1) (hs1 : View.ld s rowRect1 = liftRow s2)
    (hpos : ∀ j, 0 < varOf s1 s2 j + ε) :
    OutIs (first1 (F := Ideal) (lift2 rp) s (lift2 a) (lift2 W) (liftRow b) (liftRow g) (liftRow bt))
      (lin (kBNof ε s1 s2 rp g bt) W) b (blockOut a (lin (kBNof ε s1 s2 rp g bt) W) b)
      (blockSum (blockOut a (lin (kBNof ε s1 s2 rp g bt) W) b)) (blockSq (blockOut a (lin (kBNof ε s1 s2 rp g bt) W) b)) := by
  have e7 := pay7_r1 ε hε rp s1 s2 g bt W hpos
  have e8 : k1_pay8 (F := Ideal) (liftRow s1) (liftRow s2) (liftRow g) (liftRow bt) (lift2 rp) (lift2 W)
      = lift2 (lin (kBNof ε s1 s2 rp g bt) W) := e7
  have e9 : k1_pay9 (F := Ideal) (liftRow s1) (liftRow s2) (liftRow g) (liftRow bt) (lift2 rp) (lift2 W)
      = lift2 (lin (kBNof ε s1 s2 rp g bt) W) := e7
  unfold first1 OutIs
  dsimp only
  rw [hs0, hs1, e7, e8, e9, pay1_r1, pay2_r1, pay3_r1, ld_constRows8 _ _ rfl]
  exact ⟨rfl, rfl, rfl, pay4_r1 a _ b, pay5_r1 _ _ _ _ _ (pay4_r1 a _ b)⟩

theorem next1_is (a : Fin 512 → Fin 4096 → ℝ) (o : Out Ideal) (y : Fin 4096 → Fin 256 → ℝ) (b : Fin 256 → ℝ)
    (R : Fin 512 → Fin 256 → ℝ) (s1 s2 : Fin 256 → ℝ) (h : OutIs o y b R s1 s2) :
    OutIs (next1 (F := Ideal) (lift2 a) o) y b (blockOut a y b)
      (fun j => s1 j + blockSum (blockOut a y b) j) (fun j => s2 j + blockSq (blockOut a y b) j) := by
  obtain ⟨hyh, hyl, hcorr, hr, hst⟩ := h
  have hc : View.ld o.corr rowRect0 = liftRow (corrRow y b) := ld_constRows8 _ _ hcorr
  have h4 : k1_pay4 (F := Ideal) (lift2 a) o.yh o.yl (View.ld o.corr rowRect0) = lift2 (blockOut a y b) := by
    rw [hyh, hyl, hc]
    exact pay4_r1 a y b
  refine ⟨hyh, hyl, hcorr, h4, ?_⟩
  show k1_pay6 (F := Ideal) (lift2 a) o.yh o.yl (View.ld o.corr rowRect0) o.st = _
  rw [hst]
  exact pay6_r1 _ _ _ _ _ h4 s1 s2

end Cert.KernelIdeal.Hand

end
-- ==== Proof.KI.Val1.lean ====
import proofs.«163270_g1194000908387_cont_fleet_524_12_alg».proof.Proof.KI.Pay1
import proofs.«163270_g1194000908387_cont_fleet_524_12_alg».proof.Proof.KI.Val1Rows
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

abbrev pt1 (t : Fin cfg1.N) : Fin 8 := ⟨t.val, lt_of_lt_of_eq t.isLt N_1⟩

theorem idx_facts1 : ∀ t : Fin cfg1.N,
    (∀ a, win1_0.index t a = 0) ∧ (∀ a, win1_1.index t a = 0)
    ∧ win1_2.index t (0 : Fin 2) = t.val ∧ win1_2.index t (1 : Fin 2) = 0
    ∧ (∀ a, win1_3.index t a = 0) ∧ (∀ a, win1_4.index t a = 0) ∧ (∀ a, win1_5.index t a = 0) ∧ (∀ a, win1_6.index t a = 0)
    ∧ win1_7.index t (0 : Fin 2) = t.val ∧ win1_7.index t (1 : Fin 2) = 0 ∧ ∀ a, win1_8.index t a = 0 :=
  (by decide +kernel : ∀ t : Fin grid1.N, _)

theorem iblk1_whole (c : Dev nD) (t : Fin cfg1.N) :
    hblk1 V c t = V c (Pipeline.arrRef spec1 0) ∧ sblk1 V c t = V c (Pipeline.arrRef spec1 1)
    ∧ wblk1 V c t = V c (Pipeline.arrRef spec1 3) ∧ bblk1 V c t = V c (Pipeline.arrRef spec1 4)
    ∧ gblk1 V c t = V c (Pipeline.arrRef spec1 5) ∧ tblk1 V c t = V c (Pipeline.arrRef spec1 6) := by
  obtain ⟨z0, z1, -, -, z3, z4, z5, z6, -⟩ := idx_facts1 t
  unfold hblk1 sblk1 wblk1 bblk1 gblk1 tblk1 iblk1
  refine ⟨?_, ?_, ?_, ?_, ?_, ?_⟩ <;> funext j <;> rw [View.read_apply]
  · exact congrArg (V c _) (funext fun a => Fin.ext (win1_0.rect_emb_val_of_index_zero t a (z0 a) j))
  · exact congrArg (V c _) (funext fun a => Fin.ext (win1_1.rect_emb_val_of_index_zero t a (z1 a) j))
  · exact congrArg (V c _) (funext fun a => Fin.ext (win1_3.rect_emb_val_of_index_zero t a (z3 a) j))
  · exact congrArg (V c _) (funext fun a => Fin.ext (win1_4.rect_emb_val_of_index_zero t a (z4 a) j))
  · exact congrArg (V c _) (funext fun a => Fin.ext (win1_5.rect_emb_val_of_index_zero t a (z5 a) j))
  · exact congrArg (V c _) (funext fun a => Fin.ext (win1_6.rect_emb_val_of_index_zero t a (z6 a) j))

theorem ablk1_eq (c : Dev nD) (t : Fin cfg1.N) (adj : Fin 4096 → Fin 4096 → ℝ)
    (h1 : (V c main_arg1 : S4096x4096.Idx → EReal) = lift2 adj) :
    ablk1 V c t = lift2 (rowsBlk (pt1 t) adj) := by
  obtain ⟨-, -, e0, e1, -⟩ := idx_facts1 t
  funext j
  unfold ablk1 iblk1
  rw [View.read_apply]
  refine (congrFun h1 _).trans (congrArg (fun r : ℝ => (r : EReal)) (congrArg₂ adj (Fin.ext ?_) (Fin.ext ?_)))
  · exact (win1_2.rect_emb_val t j 0).trans (by rw [e0]; exact Nat.mul_comm _ _ ▸ rfl)
  · exact win1_2.rect_emb_val_of_index_zero t 1 e1 j

section
variable (c : Dev nD) (ε : ℝ) (hε : Ideal.ofBits .f32 0x3727C5AC#32 = ((ε : ℝ) : EReal))
  (rp : Fin 4096 → Fin 256 → ℝ) (s1 s2 g bt : Fin 256 → ℝ) (adj : Fin 4096 → Fin 4096 → ℝ) (W : Fin 256 → Fin 256 → ℝ) (b : Fin 256 → ℝ)
  (hpos : ∀ j, 0 < varOf s1 s2 j + ε)
  (h0 : (V c (Pipeline.arrRef spec1 0) : S4096x256.Idx → EReal) = lift2 rp) (hs : (V c (Pipeline.arrRef spec1 1) : S8x256.Idx → EReal) = statRows s1 s2)
  (h1 : (V c main_arg1 : S4096x4096.Idx → EReal) = lift2 adj) (h2 : (V c (Pipeline.arrRef spec1 3) : S256x256.Idx → EReal) = lift2 W)
  (h4 : (V c (Pipeline.arrRef spec1 4) : S1x256.Idx → EReal) = liftRow b) (h5 : (V c (Pipeline.arrRef spec1 5) : S1x256.Idx → EReal) = liftRow g)
  (h6 : (V c (Pipeline.arrRef spec1 6) : S1x256.Idx → EReal) = liftRow bt)
include hε hpos h0 hs h1 h2 h4 h5 h6

/-- Induction on n: point 0 fills all five buffers; point n + 1 overwrites the block and adds its column sums to the running rows. -/
theorem inv1 : ∀ (n : ℕ) (hn : n < cfg1.N),
    OutIs (outsAt1 V c n hn) (lin (kBNof ε s1 s2 rp g bt) W) b
      (blockOut (rowsBlk (pt1 ⟨n, hn⟩) adj) (lin (kBNof ε s1 s2 rp g bt) W) b)
      (runSum (fun t => blockSum (blockOut (rowsBlk t adj) (lin (kBNof ε s1 s2 rp g bt) W) b)) n (lt_of_lt_of_eq hn N_1))
      (runSum (fun t => blockSq (blockOut (rowsBlk t adj) (lin (kBNof ε s1 s2 rp g bt) W) b)) n (lt_of_lt_of_eq hn N_1))
  | 0, hn => by
    obtain ⟨a0, a1, a3, a4, a5, a6⟩ := iblk1_whole V c ⟨0, hn⟩
    rw [outsAt1_zero, a0, a1, a3, a4, a5, a6, h0, hs, h2, h4, h5, h6, ablk1_eq V c ⟨0, hn⟩ adj h1]
    exact first1_is ε hε rp s1 s2 g bt W b _ _ (statRows_ld0 s1 s2) (statRows_ld1 s1 s2) hpos
  | n + 1, hn => by
    rw [outsAt1_succ, ablk1_eq V c ⟨n + 1, hn⟩ adj h1]
    exact next1_is _ _ _ _ _ _ _ (inv1 n (Nat.lt_of_succ_lt hn))

theorem arr1_r :
    ((dat1 (F := Ideal) V c).arrAt 7 cfg1.N : S4096x256.Idx → EReal) = lift2 (layer adj (kBNof ε s1 s2 rp g bt) W b) := by
  refine (dat1 (F := Ideal) V c).arrAt_eq_of_cover 7 _ (fun t _ => ?_) (fun i => ?_)
  · obtain ⟨-, -, -, -, -, -, -, -, e0, e1, -⟩ := idx_facts1 t
    show (cfg1.win 7).cut (grid1.coords t) ((dat1 (F := Ideal) V c).after 7 t) = _
    rw [after1_7, (inv1 V c ε hε rp s1 s2 g bt adj W b hpos h0 hs h1 h2 h4 h5 h6 t.val t.isLt).2.2.2.1]
    funext j
    rw [View.read_apply]
    refine congrArg (fun r : ℝ => (r : EReal)) (congrArg₂ (layer adj _ W b) (Fin.ext ?_) (Fin.ext ?_)).symm
    · exact (win1_7.rect_emb_val t j 0).trans (by rw [e0]; exact Nat.mul_comm _ _ ▸ rfl)
    · exact win1_7.rect_emb_val_of_index_zero t 1 e1 j
  · have hi0 : (i 0).val < 4096 := (i 0).isLt
    obtain ⟨t, ht⟩ : ∃ t : Fin cfg1.N, t.val = (i 0).val / 512 :=
      ⟨⟨(i 0).val / 512, by rw [show cfg1.N = 8 from N_1]; omega⟩, rfl⟩
    obtain ⟨-, -, -, -, -, -, -, -, e0, e1, -⟩ := idx_facts1 t
    have hy : ((cfg1.win 7).blk t).view.emb (ValueIdx.ix2 (⟨(i 0).val % 512, Nat.mod_lt _ (by decide)⟩ : Fin 512) (i 1)) = i :=
      Shape.idx_ext₂ ((win1_7.rect_emb_val t _ 0).trans (by rw [e0, ht]; exact Nat.div_add_mod' _ _))
        (win1_7.rect_emb_val_of_index_zero t 1 e1 _)
    exact ⟨t, flush1_7 t, hy ▸ View.emb_mem_set _ _⟩

theorem arr1_st :
    ((dat1 (F := Ideal) V c).arrAt 8 cfg1.N : S8x256.Idx → EReal)
      = statRows (colSum (layer adj (kBNof ε s1 s2 rp g bt) W b)) (colSq (layer adj (kBNof ε s1 s2 rp g bt) W b)) := by
  have hlt : 7 < cfg1.N := by rw [show cfg1.N = 8 from N_1]; decide
  obtain ⟨-, -, -, -, -, -, -, -, -, -, z8⟩ := idx_facts1 ⟨7, hlt⟩
  have hy : ∀ i, ((cfg1.win 8).blk ⟨7, hlt⟩).view.emb i = i := fun i =>
    funext fun a => Fin.ext (win1_8.rect_emb_val_of_index_zero _ a (z8 a) i)
  refine (dat1 (F := Ideal) V c).arrAt_eq_of_cover 8 _ (fun t hf => ?_)
    (fun i => ⟨⟨7, hlt⟩, (flush1_8 _).mpr rfl, hy i ▸ View.emb_mem_set _ _⟩)
  have h7 : t.val = 7 := by have := (flush1_8 t).mp hf; have := lt_of_lt_of_eq t.isLt N_1; omega
  obtain rfl : t = ⟨7, hlt⟩ := Fin.ext h7
  show (cfg1.win 8).cut (grid1.coords _) ((dat1 (F := Ideal) V c).after 8 _) = _
  rw [after1_8, (inv1 V c ε hε rp s1 s2 g bt adj W b hpos h0 hs h1 h2 h4 h5 h6 7 hlt).2.2.2.2, runSum_blockSum adj _ W b, runSum_blockSq adj _ W b]
  funext j
  rw [View.read_apply]
  exact (congrArg (statRows _ _) (hy j)).symm

end

end Cert.KernelIdeal.Hand

end
-- ==== Proof.KI.Val2.lean ====
import proofs.«163270_g1194000908387_cont_fleet_524_12_alg».proof.Proof.KI.Pay1
import proofs.«163270_g1194000908387_cont_fleet_524_12_alg».proof.Proof.KI.Val1Rows
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

abbrev pt2 (t : Fin cfg2.N) : Fin 8 := ⟨t.val, lt_of_lt_of_eq t.isLt N_2⟩

theorem idx_facts2 : ∀ t : Fin cfg2.N,
    (∀ a, win2_0.index t a = 0) ∧ (∀ a, win2_1.index t a = 0)
    ∧ win2_2.index t (0 : Fin 2) = t.val ∧ win2_2.index t (1 : Fin 2) = 0
    ∧ (∀ a, win2_3.index t a = 0) ∧ (∀ a, win2_4.index t a = 0) ∧ (∀ a, win2_5.index t a = 0) ∧ (∀ a, win2_6.index t a = 0)
    ∧ win2_7.index t (0 : Fin 2) = t.val ∧ win2_7.index t (1 : Fin 2) = 0 ∧ ∀ a, win2_8.index t a = 0 :=
  (by decide +kernel : ∀ t : Fin grid2.N, _)

theorem iblk2_whole (c : Dev nD) (t : Fin cfg2.N) :
    hblk2 V c t = V c (Pipeline.arrRef spec2 0) ∧ sblk2 V c t = V c (Pipeline.arrRef spec2 1)
    ∧ wblk2 V c t = V c (Pipeline.arrRef spec2 3) ∧ bblk2 V c t = V c (Pipeline.arrRef spec2 4)
    ∧ gblk2 V c t = V c (Pipeline.arrRef spec2 5) ∧ tblk2 V c t = V c (Pipeline.arrRef spec2 6) := by
  obtain ⟨z0, z1, -, -, z3, z4, z5, z6, -⟩ := idx_facts2 t
  unfold hblk2 sblk2 wblk2 bblk2 gblk2 tblk2 iblk2
  refine ⟨?_, ?_, ?_, ?_, ?_, ?_⟩ <;> funext j <;> rw [View.read_apply]
  · exact congrArg (V c _) (funext fun a => Fin.ext (win2_0.rect_emb_val_of_index_zero t a (z0 a) j))
  · exact congrArg (V c _) (funext fun a => Fin.ext (win2_1.rect_emb_val_of_index_zero t a (z1 a) j))
  · exact congrArg (V c _) (funext fun a => Fin.ext (win2_3.rect_emb_val_of_index_zero t a (z3 a) j))
  · exact congrArg (V c _) (funext fun a => Fin.ext (win2_4.rect_emb_val_of_index_zero t a (z4 a) j))
  · exact congrArg (V c _) (funext fun a => Fin.ext (win2_5.rect_emb_val_of_index_zero t a (z5 a) j))
  · exact congrArg (V c _) (funext fun a => Fin.ext (win2_6.rect_emb_val_of_index_zero t a (z6 a) j))

theorem ablk2_eq (c : Dev nD) (t : Fin cfg2.N) (adj : Fin 4096 → Fin 4096 → ℝ)
    (h1 : (V c main_arg1 : S4096x4096.Idx → EReal) = lift2 adj) :
    ablk2 V c t = lift2 (rowsBlk (pt2 t) adj) := by
  obtain ⟨-, -, e0, e1, -⟩ := idx_facts2 t
  funext j
  unfold ablk2 iblk2
  rw [View.read_apply]
  refine (congrFun h1 _).trans (congrArg (fun r : ℝ => (r : EReal)) (congrArg₂ adj (Fin.ext ?_) (Fin.ext ?_)))
  · exact (win2_2.rect_emb_val t j 0).trans (by rw [e0]; exact Nat.mul_comm _ _ ▸ rfl)
  · exact win2_2.rect_emb_val_of_index_zero t 1 e1 j

section
variable (c : Dev nD) (ε : ℝ) (hε : Ideal.ofBits .f32 0x3727C5AC#32 = ((ε : ℝ) : EReal))
  (rp : Fin 4096 → Fin 256 → ℝ) (s1 s2 g bt : Fin 256 → ℝ) (adj : Fin 4096 → Fin 4096 → ℝ) (W : Fin 256 → Fin 256 → ℝ) (b : Fin 256 → ℝ)
  (hpos : ∀ j, 0 < varOf s1 s2 j + ε)
  (h0 : (V c (Pipeline.arrRef spec2 0) : S4096x256.Idx → EReal) = lift2 rp) (hs : (V c (Pipeline.arrRef spec2 1) : S8x256.Idx → EReal) = statRows s1 s2)
  (h1 : (V c main_arg1 : S4096x4096.Idx → EReal) = lift2 adj) (h2 : (V c (Pipeline.arrRef spec2 3) : S256x256.Idx → EReal) = lift2 W)
  (h4 : (V c (Pipeline.arrRef spec2 4) : S1x256.Idx → EReal) = liftRow b) (h5 : (V c (Pipeline.arrRef spec2 5) : S1x256.Idx → EReal) = liftRow g)
  (h6 : (V c (Pipeline.arrRef spec2 6) : S1x256.Idx → EReal) = liftRow bt)
include hε hpos h0 hs h1 h2 h4 h5 h6

/-- Induction on n: point 0 fills all five buffers; point n + 1 overwrites the block and adds its column sums to the running rows. -/
theorem inv2 : ∀ (n : ℕ) (hn : n < cfg2.N),
    OutIs (outsAt2 V c n hn) (lin (kBNof ε s1 s2 rp g bt) W) b
      (blockOut (rowsBlk (pt2 ⟨n, hn⟩) adj) (lin (kBNof ε s1 s2 rp g bt) W) b)
      (runSum (fun t => blockSum (blockOut (rowsBlk t adj) (lin (kBNof ε s1 s2 rp g bt) W) b)) n (lt_of_lt_of_eq hn N_2))
      (runSum (fun t => blockSq (blockOut (rowsBlk t adj) (lin (kBNof ε s1 s2 rp g bt) W) b)) n (lt_of_lt_of_eq hn N_2))
  | 0, hn => by
    obtain ⟨a0, a1, a3, a4, a5, a6⟩ := iblk2_whole V c ⟨0, hn⟩
    rw [outsAt2_zero, a0, a1, a3, a4, a5, a6, h0, hs, h2, h4, h5, h6, ablk2_eq V c ⟨0, hn⟩ adj h1]
    exact first1_is ε hε rp s1 s2 g bt W b _ _ (statRows_ld0 s1 s2) (statRows_ld1 s1 s2) hpos
  | n + 1, hn => by
    rw [outsAt2_succ, ablk2_eq V c ⟨n + 1, hn⟩ adj h1]
    exact next1_is _ _ _ _ _ _ _ (inv2 n (Nat.lt_of_succ_lt hn))

theorem arr2_r :
    ((dat2 (F := Ideal) V c).arrAt 7 cfg2.N : S4096x256.Idx → EReal) = lift2 (layer adj (kBNof ε s1 s2 rp g bt) W b) := by
  refine (dat2 (F := Ideal) V c).arrAt_eq_of_cover 7 _ (fun t _ => ?_) (fun i => ?_)
  · obtain ⟨-, -, -, -, -, -, -, -, e0, e1, -⟩ := idx_facts2 t
    show (cfg2.win 7).cut (grid2.coords t) ((dat2 (F := Ideal) V c).after 7 t) = _
    rw [after2_7, (inv2 V c ε hε rp s1 s2 g bt adj W b hpos h0 hs h1 h2 h4 h5 h6 t.val t.isLt).2.2.2.1]
    funext j
    rw [View.read_apply]
    refine congrArg (fun r : ℝ => (r : EReal)) (congrArg₂ (layer adj _ W b) (Fin.ext ?_) (Fin.ext ?_)).symm
    · exact (win2_7.rect_emb_val t j 0).trans (by rw [e0]; exact Nat.mul_comm _ _ ▸ rfl)
    · exact win2_7.rect_emb_val_of_index_zero t 1 e1 j
  · have hi0 : (i 0).val < 4096 := (i 0).isLt
    obtain ⟨t, ht⟩ : ∃ t : Fin cfg2.N, t.val = (i 0).val / 512 :=
      ⟨⟨(i 0).val / 512, by rw [show cfg2.N = 8 from N_2]; omega⟩, rfl⟩
    obtain ⟨-, -, -, -, -, -, -, -, e0, e1, -⟩ := idx_facts2 t
    have hy : ((cfg2.win 7).blk t).view.emb (ValueIdx.ix2 (⟨(i 0).val % 512, Nat.mod_lt _ (by decide)⟩ : Fin 512) (i 1)) = i :=
      Shape.idx_ext₂ ((win2_7.rect_emb_val t _ 0).trans (by rw [e0, ht]; exact Nat.div_add_mod' _ _))
        (win2_7.rect_emb_val_of_index_zero t 1 e1 _)
    exact ⟨t, flush2_7 t, hy ▸ View.emb_mem_set _ _⟩

theorem arr2_st :
    ((dat2 (F := Ideal) V c).arrAt 8 cfg2.N : S8x256.Idx → EReal)
      = statRows (colSum (layer adj (kBNof ε s1 s2 rp g bt) W b)) (colSq (layer adj (kBNof ε s1 s2 rp g bt) W b)) := by
  have hlt : 7 < cfg2.N := by rw [show cfg2.N = 8 from N_2]; decide
  obtain ⟨-, -, -, -, -, -, -, -, -, -, z8⟩ := idx_facts2 ⟨7, hlt⟩
  have hy : ∀ i, ((cfg2.win 8).blk ⟨7, hlt⟩).view.emb i = i := fun i =>
    funext fun a => Fin.ext (win2_8.rect_emb_val_of_index_zero _ a (z8 a) i)
  refine (dat2 (F := Ideal) V c).arrAt_eq_of_cover 8 _ (fun t hf => ?_)
    (fun i => ⟨⟨7, hlt⟩, (flush2_8 _).mpr rfl, hy i ▸ View.emb_mem_set _ _⟩)
  have h7 : t.val = 7 := by have := (flush2_8 t).mp hf; have := lt_of_lt_of_eq t.isLt N_2; omega
  obtain rfl : t = ⟨7, hlt⟩ := Fin.ext h7
  show (cfg2.win 8).cut (grid2.coords _) ((dat2 (F := Ideal) V c).after 8 _) = _
  rw [after2_8, (inv2 V c ε hε rp s1 s2 g bt adj W b hpos h0 hs h1 h2 h4 h5 h6 7 hlt).2.2.2.2, runSum_blockSum adj _ W b, runSum_blockSq adj _ W b]
  funext j
  rw [View.read_apply]
  exact (congrArg (statRows _ _) (hy j)).symm

end

end Cert.KernelIdeal.Hand

end
-- ==== Proof.KI.Pay3.lean ====
import proofs.«163270_g1194000908387_cont_fleet_524_12_alg».proof.Proof.KI.OutIs
import proofs.«163270_g1194000908387_cont_fleet_524_12_alg».proof.Proof.SpecAlgebra
import proofs.«163270_g1194000908387_cont_fleet_524_12_alg».proof.Proof.LibERealSums
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Spec

theorem c4096_k3 : (FloatOps.ofBits (F := Ideal) .f32 0x45800000#32 : EReal) = ((4096 : ℝ) : EReal) := Cert.Consts.scalar_4096

theorem row_div_4096_k3 (a : Fin 256 → ℝ) :
    divf (F := Ideal) (s := S1x256) (φ := .f32) (liftRow a) (broadcast S1x256 (FloatOps.ofBits (F := Ideal) .f32 0x45800000#32))
      = liftRow (fun j => a j / 4096) := by
  funext i
  show Ideal.div ((a (i 1) : ℝ) : EReal) (FloatOps.ofBits (F := Ideal) .f32 0x45800000#32) = _
  rw [c4096_k3]
  exact Cert.LibEReal.div_coe_coe (by norm_num) _

theorem row_mul_k3 (a b : Fin 256 → ℝ) :
    mulf (F := Ideal) (s := S1x256) (φ := .f32) (liftRow a) (liftRow b) = liftRow (fun j => a j * b j) := by
  funext i; exact Cert.LibEReal.coe_mul_coe _ _
theorem row_sub_k3 (a b : Fin 256 → ℝ) :
    subf (F := Ideal) (s := S1x256) (φ := .f32) (liftRow a) (liftRow b) = liftRow (fun j => a j - b j) := by
  funext i; exact Cert.LibEReal.coe_sub_coe _ _

theorem row_add_eps_k3 (ε : ℝ) (hε : Ideal.ofBits .f32 0x3727C5AC#32 = ((ε : ℝ) : EReal)) (a : Fin 256 → ℝ) :
    addf (F := Ideal) (s := S1x256) (φ := .f32) (liftRow a) (broadcast S1x256 (FloatOps.ofBits (F := Ideal) .f32 0x3727C5AC#32))
      = liftRow (fun j => a j + ε) := by
  funext i
  show ((a (i 1) : ℝ) : EReal) + (FloatOps.ofBits (F := Ideal) .f32 0x3727C5AC#32) = _
  rw [Ideal.ofBits_def, hε]
  exact Cert.LibEReal.coe_add_coe _ _

theorem row_rsqrt_k3 (a : Fin 256 → ℝ) (ha : ∀ j, 0 < a j) :
    rsqrt (F := Ideal) (s := S1x256) (φ := .f32) (liftRow a) = liftRow (fun j => (Real.sqrt (a j))⁻¹) := by
  funext i
  show Ideal.rsqrt ((a (i 1) : ℝ) : EReal) = _
  exact Cert.LibEReal.rsqrt_coe_pos (ha _)

theorem mat_affine_k3 (r : Fin 4096 → Fin 256 → ℝ) (sc sh : Fin 256 → ℝ) :
    addf (F := Ideal) (s := S4096x256) (φ := .f32)
        (mulf (lift2 r) (broadcastTo S4096x256 (liftRow sc) broadcasts_S1x256_S4096x256))
        (broadcastTo S4096x256 (liftRow sh) broadcasts_S1x256_S4096x256)
      = lift2 (fun i j => r i j * sc j + sh j) := by
  funext i
  obtain ⟨p, q, rfl⟩ : ∃ (p : Fin 4096) (q : Fin 256), i = ValueIdx.ix2 p q := ⟨i 0, i 1, ValueIdx.eq_ix2 i⟩
  rw [ValueIdx.addf_apply, ValueIdx.mulf_apply, ValueIdx.broadcastTo_1b_ab_apply, ValueIdx.broadcastTo_1b_ab_apply]
  show ((r _ _ : ℝ) : EReal) * ((sc _ : ℝ) : EReal) + ((sh _ : ℝ) : EReal) = ((_ : ℝ) : EReal)
  rw [Cert.LibEReal.coe_mul_coe, Cert.LibEReal.coe_add_coe]

theorem out3_is (ε : ℝ) (hε : Ideal.ofBits .f32 0x3727C5AC#32 = ((ε : ℝ) : EReal))
    (r : Fin 4096 → Fin 256 → ℝ) (s1 s2 g bt : Fin 256 → ℝ)
    (s : Vec Ideal S8x256 .f32) (hs0 : View.ld s rowRect0 = liftRow s1) (hs1 : View.ld s rowRect1 = liftRow s2)
    (hpos : ∀ j, 0 < varOf s1 s2 j + ε) :
    out3 (F := Ideal) (lift2 r) s (liftRow g) (liftRow bt) = lift2 (kBNof ε s1 s2 r g bt) := by
  unfold out3 k3_pay1
  rw [hs0, hs1]
  dsimp only
  simp only [shapeCast_self]
  have hpos' : ∀ j, 0 < s2 j / 4096 - s1 j / 4096 * (s1 j / 4096) + ε := hpos
  rw [row_div_4096_k3, row_div_4096_k3, row_mul_k3, row_sub_k3, row_add_eps_k3 ε hε, row_rsqrt_k3 _ hpos', row_mul_k3, row_mul_k3, row_sub_k3, mat_affine_k3]
  rfl

end Cert.KernelIdeal.Hand

end
-- ==== Proof.KI.Val3.lean ====
import proofs.«163270_g1194000908387_cont_fleet_524_12_alg».proof.Proof.KI.Pay3
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

theorem ld_statRows0 (s1 s2 : Fin 256 → ℝ) :
    View.ld (Val := Elt Ideal) (e' := .f32) (statRows s1 s2 : S8x256.Idx → EReal) rowRect0 = liftRow s1 := by
  funext x
  show statRows s1 s2 (rowRect0.idx x) = liftRow s1 x
  have hx : (x 0).val < 1 := (x 0).isLt
  have h0 : ((rowRect0.idx x) 0).val = 0 := by show 0 + 1 * (x 0).val = 0; omega
  have h1 : (rowRect0.idx x) 1 = x 1 := Fin.ext (by show 0 + 1 * (x 1).val = (x 1).val; omega)
  unfold statRows liftRow
  rw [if_pos h0, h1]

theorem ld_statRows1 (s1 s2 : Fin 256 → ℝ) :
    View.ld (Val := Elt Ideal) (e' := .f32) (statRows s1 s2 : S8x256.Idx → EReal) rowRect1 = liftRow s2 := by
  funext x
  show statRows s1 s2 (rowRect1.idx x) = liftRow s2 x
  have hx : (x 0).val < 1 := (x 0).isLt
  have h0 : ((rowRect1.idx x) 0).val = 1 := by show 1 + 1 * (x 0).val = 1; omega
  have h1 : (rowRect1.idx x) 1 = x 1 := Fin.ext (by show 0 + 1 * (x 1).val = (x 1).val; omega)
  unfold statRows liftRow
  rw [if_neg (by rw [h0]; decide), if_pos h0, h1]

theorem iblk3_0 (c : Dev nD) (t : Fin cfg3.N) : (iblk3 V c 0 t : S4096x256.Idx → EReal) = V c (Pipeline.arrRef spec3 0) := by
  unfold iblk3
  have hz' : (fun a => win3_0.index t a * (main_v12_0 : Ref sig .tc).ty.shape.size a) = fun _ => 0 := funext fun a => Nat.zero_mul _
  exact Memref.read_access_unit_zero (Elt Ideal) main_v12_0 hz' (fun a => by rw [congrFun hz' a]; simp) _

theorem iblk3_1 (c : Dev nD) (t : Fin cfg3.N) : (iblk3 V c 1 t : S8x256.Idx → EReal) = V c (Pipeline.arrRef spec3 1) := by
  unfold iblk3
  have hz' : (fun a => win3_1.index t a * (main_v12_1 : Ref sig .tc).ty.shape.size a) = fun _ => 0 := funext fun a => Nat.zero_mul _
  exact Memref.read_access_unit_zero (Elt Ideal) main_v12_1 hz' (fun a => by rw [congrFun hz' a]; simp) _

theorem iblk3_2 (c : Dev nD) (t : Fin cfg3.N) : (iblk3 V c 2 t : S1x256.Idx → EReal) = V c (Pipeline.arrRef spec3 2) := by
  unfold iblk3
  have hz' : (fun a => win3_2.index t a * (main_v13 : Ref sig .tc).ty.shape.size a) = fun _ => 0 := funext fun a => Nat.zero_mul _
  exact Memref.read_access_unit_zero (Elt Ideal) main_v13 hz' (fun a => by rw [congrFun hz' a]; simp) _

theorem iblk3_3 (c : Dev nD) (t : Fin cfg3.N) : (iblk3 V c 3 t : S1x256.Idx → EReal) = V c (Pipeline.arrRef spec3 3) := by
  unfold iblk3
  have hz' : (fun a => win3_3.index t a * (main_v14 : Ref sig .tc).ty.shape.size a) = fun _ => 0 := funext fun a => Nat.zero_mul _
  exact Memref.read_access_unit_zero (Elt Ideal) main_v14 hz' (fun a => by rw [congrFun hz' a]; simp) _

theorem arr3_out (c : Dev nD) (ε : ℝ) (hε : Ideal.ofBits .f32 0x3727C5AC#32 = ((ε : ℝ) : EReal))
    (r : Fin 4096 → Fin 256 → ℝ) (s1 s2 g bt : Fin 256 → ℝ) (hpos : ∀ j, 0 < varOf s1 s2 j + ε)
    (h0 : (V c (Pipeline.arrRef spec3 0) : S4096x256.Idx → EReal) = lift2 r) (hs : (V c (Pipeline.arrRef spec3 1) : S8x256.Idx → EReal) = statRows s1 s2)
    (h2 : (V c (Pipeline.arrRef spec3 2) : S1x256.Idx → EReal) = liftRow g) (h3 : (V c (Pipeline.arrRef spec3 3) : S1x256.Idx → EReal) = liftRow bt) :
    ((dat3 (F := Ideal) V c).arrAt 4 cfg3.N : S4096x256.Idx → EReal) = lift2 (kBNof ε s1 s2 r g bt) := by
  refine (dat3 (F := Ideal) V c).arrAt_eq_of_cover 4 (lift2 (kBNof ε s1 s2 r g bt)) (fun t hf => ?_) (fun i => ?_)
  ·

    show (cfg3.win 4).cut (grid3.coords t) ((dat3 (F := Ideal) V c).after 4 t) = _
    rw [after3_4]
    have e0 : rblk3 V c t = lift2 r := (iblk3_0 V c t).trans h0
    have e1 : sblk3 V c t = statRows s1 s2 := (iblk3_1 V c t).trans hs
    have e2 : gblk3 V c t = liftRow g := (iblk3_2 V c t).trans h2
    have e3 : tblk3 V c t = liftRow bt := (iblk3_3 V c t).trans h3
    rw [e0, e1, e2, e3, out3_is ε hε r s1 s2 g bt (statRows s1 s2) (ld_statRows0 s1 s2) (ld_statRows1 s1 s2) hpos]
    have hz' : (fun a => win3_4.index t a * (main_v15 : Ref sig .tc).ty.shape.size a) = fun _ => 0 := funext fun a => Nat.zero_mul _
    exact (Memref.read_access_unit_zero (Elt Ideal) main_v15 hz' (fun a => by rw [congrFun hz' a]; simp) _).symm
  ·
    refine ⟨t3_0, flush3_4 t3_0, ?_⟩
    show i ∈ ((View.whole main_v15).slice (win3_4.rect t3_0)).set
    rw [View.set_slice_whole, Rect.mem_set_unit]
    intro a
    have hi : (i a : ℕ) < (main_v15 : Ref sig .tc).ty.shape.size a := (i a).isLt
    have e1 : win3_4.index t3_0 a * win3_4.size a = 0 := Nat.zero_mul _
    have e2 : win3_4.xsize (grid3.coords t3_0) a = (main_v15 : Ref sig .tc).ty.shape.size a := rfl
    rw [e1, e2]
    exact ⟨Nat.zero_le _, by rw [Nat.zero_add]; exact hi⟩

end Cert.KernelIdeal.Hand

end
-- ==== Proof.KI.Value.lean ====
import proofs.«163270_g1194000908387_cont_fleet_524_12_alg».proof.Proof.KI.RunVals
import proofs.«163270_g1194000908387_cont_fleet_524_12_alg».proof.Proof.KI.Val0
import proofs.«163270_g1194000908387_cont_fleet_524_12_alg».proof.Proof.KI.Val1
import proofs.«163270_g1194000908387_cont_fleet_524_12_alg».proof.Proof.KI.Val2
import proofs.«163270_g1194000908387_cont_fleet_524_12_alg».proof.Proof.KI.Val3
import proofs.«163270_g1194000908387_cont_fleet_524_12_alg».proof.Proof.SpecAlgebra
import proofs.«163270_g1194000908387_cont_fleet_524_12_alg».proof.Proof.Consts
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Spec

theorem shapeCast_lift1 (b : Fin 256 → ℝ) (h : S256.ShapeCasts S1x256) :
    (shapeCast S1x256 (lift1 b : S256.Idx → EReal) h : S1x256.Idx → EReal) = liftRow b := by
  funext j
  exact (shapeCast_addUnit_apply ![256] (lift1 b) h j).trans rfl

theorem row_of_lift1 {v : S1x256.Idx → EReal} {a : S256.Idx → EReal} (b : Fin 256 → ℝ) (h : S256.ShapeCasts S1x256)
    (hv : v = shapeCast S1x256 a h) (ha : a = lift1 b) : v = liftRow b := by
  rw [hv, ha]; exact shapeCast_lift1 b h

theorem var_pos (Y : Fin 4096 → Fin 256 → ℝ) : ∀ j, 0 < varOf (colSum Y) (colSq Y) j + Cert.Consts.eps :=
  fun j => by rw [varOf_colSum]; exact kVar_add_pos _ Cert.Consts.eps_pos _ j

section
variable (m : (ℓ : Loc nD τ sig) → Buf (Elt Ideal) ℓ) (ρ : Dev nD → PrngReg)

theorem kernel_value (c : Dev nD)
    (x : Fin 4096 → Fin 256 → ℝ) (adj : Fin 4096 → Fin 4096 → ℝ) (W1 : Fin 256 → Fin 256 → ℝ) (b1 g1 bt1 : Fin 256 → ℝ)
    (W2 : Fin 256 → Fin 256 → ℝ) (b2 g2 bt2 : Fin 256 → ℝ) (W3 : Fin 256 → Fin 256 → ℝ) (b3 g3 bt3 : Fin 256 → ℝ)
    (h0 : (m ((c : Thread nD τ).loc main_arg0) : S4096x256.Idx → EReal) = lift2 x)
    (h1 : (m ((c : Thread nD τ).loc main_arg1) : S4096x4096.Idx → EReal) = lift2 adj)
    (h2 : (m ((c : Thread nD τ).loc main_arg2) : S256x256.Idx → EReal) = lift2 W1)
    (h3 : (m ((c : Thread nD τ).loc main_arg3) : S256.Idx → EReal) = lift1 b1)
    (h4 : (m ((c : Thread nD τ).loc main_arg4) : S256.Idx → EReal) = lift1 g1)
    (h5 : (m ((c : Thread nD τ).loc main_arg5) : S256.Idx → EReal) = lift1 bt1)
    (h6 : (m ((c : Thread nD τ).loc main_arg6) : S256x256.Idx → EReal) = lift2 W2)
    (h7 : (m ((c : Thread nD τ).loc main_arg7) : S256.Idx → EReal) = lift1 b2)
    (h8 : (m ((c : Thread nD τ).loc main_arg8) : S256.Idx → EReal) = lift1 g2)
    (h9 : (m ((c : Thread nD τ).loc main_arg9) : S256.Idx → EReal) = lift1 bt2)
    (h10 : (m ((c : Thread nD τ).loc main_arg10) : S256x256.Idx → EReal) = lift2 W3)
    (h11 : (m ((c : Thread nD τ).loc main_arg11) : S256.Idx → EReal) = lift1 b3)
    (h12 : (m ((c : Thread nD τ).loc main_arg12) : S256.Idx → EReal) = lift1 g3)
    (h13 : (m ((c : Thread nD τ).loc main_arg13) : S256.Idx → EReal) = lift1 bt3) :
    (W8 (F := Ideal) m ρ c (Proc.devRef .tc main_v15) : S4096x256.Idx → EReal)
      = lift2 (kernelOut Cert.Consts.eps x adj W1 b1 g1 bt1 W2 b2 g2 bt2 W3 b3 g3 bt3) := by
  have hε := Cert.Consts.ofBits_eps
  have eb1 := row_of_lift1 b1 _ (V1_main_v1 m ρ c) h3
  have a0 := (V1_main_arg0 m ρ c).trans h0
  have a1 := (V1_main_arg1 m ρ c).trans h1
  have a2 := (V1_main_arg2 m ρ c).trans h2
  have r1 := arr0_r (V1 m ρ) c x adj W1 b1 a0 a1 a2 eb1
  have s1 := arr0_st (V1 m ρ) c x adj W1 b1 a0 a1 a2 eb1
  have eb2 := row_of_lift1 b2 _ (V3_main_v5 m ρ c) h7
  have eg1 := row_of_lift1 g1 _ (V3_main_v6 m ρ c) h4
  have et1 := row_of_lift1 bt1 _ (V3_main_v7 m ρ c) h5
  have i1 := (V3_main_v4_0 m ρ c).trans r1
  have t1 := (V3_main_v4_1 m ρ c).trans s1
  have c1 := (V3_main_arg1 m ρ c).trans h1
  have w2 := (V3_main_arg6 m ρ c).trans h6
  have r2 := arr1_r (V3 m ρ) c Cert.Consts.eps hε (layer adj x W1 b1) _ _ g1 bt1 adj W2 b2 (var_pos _) i1 t1 c1 w2 eb2 eg1 et1
  have s2 := arr1_st (V3 m ρ) c Cert.Consts.eps hε (layer adj x W1 b1) _ _ g1 bt1 adj W2 b2 (var_pos _) i1 t1 c1 w2 eb2 eg1 et1
  rw [kBNof_colSum] at r2 s2
  have eb3 := row_of_lift1 b3 _ (V5_main_v9 m ρ c) h11
  have eg2 := row_of_lift1 g2 _ (V5_main_v10 m ρ c) h8
  have et2 := row_of_lift1 bt2 _ (V5_main_v11 m ρ c) h9
  have i2 := (V5_main_v8_0 m ρ c).trans r2
  have t2 := (V5_main_v8_1 m ρ c).trans s2
  have c2 := (V5_main_arg1 m ρ c).trans h1
  have w3 := (V5_main_arg10 m ρ c).trans h10
  have r3 := arr2_r (V5 m ρ) c Cert.Consts.eps hε _ _ _ g2 bt2 adj W3 b3 (var_pos _) i2 t2 c2 w3 eb3 eg2 et2
  have s3 := arr2_st (V5 m ρ) c Cert.Consts.eps hε _ _ _ g2 bt2 adj W3 b3 (var_pos _) i2 t2 c2 w3 eb3 eg2 et2
  rw [kBNof_colSum] at r3 s3
  have eg3 := row_of_lift1 g3 _ (V7_main_v13 m ρ c) h12
  have et3 := row_of_lift1 bt3 _ (V7_main_v14 m ρ c) h13
  have out := arr3_out (V7 m ρ) c Cert.Consts.eps hε _ _ _ g3 bt3 (var_pos _) ((V7_main_v12_0 m ρ c).trans r3) ((V7_main_v12_1 m ρ c).trans s3) eg3 et3
  rw [kBNof_colSum] at out
  exact (W8_main_v15 m ρ c).trans out
end

end Cert.KernelIdeal.Hand

end
-- ==== Proof.Ref.Ops.lean ====
import proofs.«163270_g1194000908387_cont_fleet_524_12_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable {F : FTy → Type} [FloatOps F]

abbrev ops1 : List (HloOp τ sig (Elt F)) :=
  [ binary main_arg0 main_arg2 main_v0 (fun l r => Host.dotGeneral dot_S4096x256_S256x256_S4096x256_1_0_0_1_n_n (some .fp32) l r),
    binary main_arg1 main_v0 main_v1 (fun l r => Host.dotGeneral dot_S4096x4096_S4096x256_S4096x256_1_0_0_1_n_n (some .fp32) l r),
    unary main_arg3 main_v2 (broadcastInDim S1x256 ![1] bcast_S256_S1x256_1),
    unary main_v2 main_v3 (broadcastInDim S4096x256 ![0, 1] bcast_S1x256_S4096x256_0_1),
    binary main_v1 main_v3 main_v4 addf,
    TRef.nullary main_call0.cst (constant S_ .f32 0x00000000#32),
    TRef.unary main_call0.cst main_call0.v0 (broadcastInDim S4096x256 ![] bcast_S_S4096x256),
    TRef.binary (.of main_v4) main_call0.v0 main_call0.v1 maximumf,
    nullary main_cst (constant S_ .f32 0x00000000#32),
    binary main_v5 main_cst main_v6 (fun x v => Host.reduceAdd x v reducesTo_S4096x256_S256_d0 h_S_),
    nullary main_cst_0 (constant S_ .f32 0x45800000#32),
    unary main_cst_0 main_v7 (broadcastInDim S256 ![] bcast_S_S256),
    binary main_v6 main_v7 main_v8 Host.divf,
    nullary main_c (constantI S_ 32 0#32),
    TRef.nullary main_call1.cst (constant S_ .f32 0x00000000#32),
    TRef.binary (.of main_v5) main_call1.cst main_call1.v0 (fun x v => Host.reduceAdd x v reducesTo_S4096x256_S256_d0 h_S_),
    TRef.unary main_call1.v0 main_call1.v1 (broadcastInDim S1x256 ![1] bcast_S256_S1x256_1),
    TRef.nullary main_call1.cst_0 (constant S_ .f32 0x45800000#32),
    TRef.unary main_call1.cst_0 main_call1.v2 (broadcastInDim S1x256 ![] bcast_S_S1x256),
    TRef.binary main_call1.v1 main_call1.v2 main_call1.v3 Host.divf,
    TRef.unary main_call1.v3 main_call1.v4 (broadcastInDim S4096x256 ![0, 1] bcast_S1x256_S4096x256_0_1),
    TRef.binary (.of main_v5) main_call1.v4 main_call1.v5 subf,
    TRef.binary main_call1.v5 main_call1.v5 main_call1.v6 mulf,
    TRef.unary (.of main_c) main_call1.v7 (sitofp .f32),
    TRef.nullary main_call1.cst_1 (constant S_ .f32 0x45800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S4096x256_S256_d0 h_S_),
    TRef.unary main_call1.v8 main_call1.v10 (broadcastInDim S256 ![] bcast_S_S256),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S256 ![] bcast_S_S256),
    TRef.ternary main_call1.v12 main_call1.v11 main_call1.call0.v1 main_call1.call0.v2 (fun p a b => select (broadcastInDim S256 ![] bcast_S_S256 p) a b),
    unary main_v8 main_v10 (broadcastInDim S1x256 ![1] bcast_S256_S1x256_1),
    unary main_v10 main_v11 (broadcastInDim S4096x256 ![0, 1] bcast_S1x256_S4096x256_0_1),
    binary main_v5 main_v11 main_v12 subf,
    unary main_arg4 main_v13 (broadcastInDim S1x256 ![1] bcast_S256_S1x256_1),
    unary main_v13 main_v14 (broadcastInDim S4096x256 ![0, 1] bcast_S1x256_S4096x256_0_1),
    binary main_v14 main_v12 main_v15 mulf,
    nullary main_cst_1 (constant S_ .f32 0x3727C5AC#32),
    unary main_cst_1 main_v16 (broadcastInDim S256 ![] bcast_S_S256),
    binary main_v9 main_v16 main_v17 addf,
    unary main_v17 main_v18 Host.sqrt,
    unary main_v18 main_v19 (broadcastInDim S1x256 ![1] bcast_S256_S1x256_1),
    unary main_v19 main_v20 (broadcastInDim S4096x256 ![0, 1] bcast_S1x256_S4096x256_0_1),
    binary main_v15 main_v20 main_v21 Host.divf,
    unary main_arg5 main_v22 (broadcastInDim S1x256 ![1] bcast_S256_S1x256_1),
    unary main_v22 main_v23 (broadcastInDim S4096x256 ![0, 1] bcast_S1x256_S4096x256_0_1),
    binary main_v21 main_v23 main_v24 addf ]

abbrev ops2 : List (HloOp τ sig (Elt F)) :=
  [ binary main_v24 main_arg6 main_v25 (fun l r => Host.dotGeneral dot_S4096x256_S256x256_S4096x256_1_0_0_1_n_n (some .fp32) l r),
    binary main_arg1 main_v25 main_v26 (fun l r => Host.dotGeneral dot_S4096x4096_S4096x256_S4096x256_1_0_0_1_n_n (some .fp32) l r),
    unary main_arg7 main_v27 (broadcastInDim S1x256 ![1] bcast_S256_S1x256_1),
    unary main_v27 main_v28 (broadcastInDim S4096x256 ![0, 1] bcast_S1x256_S4096x256_0_1),
    binary main_v26 main_v28 main_v29 addf,
    TRef.nullary main_call2.cst (constant S_ .f32 0x00000000#32),
    TRef.unary main_call2.cst main_call2.v0 (broadcastInDim S4096x256 ![] bcast_S_S4096x256),
    TRef.binary (.of main_v29) main_call2.v0 main_call2.v1 maximumf,
    nullary main_cst_2 (constant S_ .f32 0x00000000#32),
    binary main_v30 main_cst_2 main_v31 (fun x v => Host.reduceAdd x v reducesTo_S4096x256_S256_d0 h_S_),
    nullary main_cst_3 (constant S_ .f32 0x45800000#32),
    unary main_cst_3 main_v32 (broadcastInDim S256 ![] bcast_S_S256),
    binary main_v31 main_v32 main_v33 Host.divf,
    nullary main_c_4 (constantI S_ 32 0#32),
    TRef.nullary main_call3.cst (constant S_ .f32 0x00000000#32),
    TRef.binary (.of main_v30) main_call3.cst main_call3.v0 (fun x v => Host.reduceAdd x v reducesTo_S4096x256_S256_d0 h_S_),
    TRef.unary main_call3.v0 main_call3.v1 (broadcastInDim S1x256 ![1] bcast_S256_S1x256_1),
    TRef.nullary main_call3.cst_0 (constant S_ .f32 0x45800000#32),
    TRef.unary main_call3.cst_0 main_call3.v2 (broadcastInDim S1x256 ![] bcast_S_S1x256),
    TRef.binary main_call3.v1 main_call3.v2 main_call3.v3 Host.divf,
    TRef.unary main_call3.v3 main_call3.v4 (broadcastInDim S4096x256 ![0, 1] bcast_S1x256_S4096x256_0_1),
    TRef.binary (.of main_v30) main_call3.v4 main_call3.v5 subf,
    TRef.binary main_call3.v5 main_call3.v5 main_call3.v6 mulf,
    TRef.unary (.of main_c_4) main_call3.v7 (sitofp .f32),
    TRef.nullary main_call3.cst_1 (constant S_ .f32 0x45800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S4096x256_S256_d0 h_S_),
    TRef.unary main_call3.v8 main_call3.v10 (broadcastInDim S256 ![] bcast_S_S256),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S256 ![] bcast_S_S256),
    TRef.ternary main_call3.v12 main_call3.v11 main_call3.call0.v1 main_call3.call0.v2 (fun p a b => select (broadcastInDim S256 ![] bcast_S_S256 p) a b),
    unary main_v33 main_v35 (broadcastInDim S1x256 ![1] bcast_S256_S1x256_1),
    unary main_v35 main_v36 (broadcastInDim S4096x256 ![0, 1] bcast_S1x256_S4096x256_0_1),
    binary main_v30 main_v36 main_v37 subf,
    unary main_arg8 main_v38 (broadcastInDim S1x256 ![1] bcast_S256_S1x256_1),
    unary main_v38 main_v39 (broadcastInDim S4096x256 ![0, 1] bcast_S1x256_S4096x256_0_1),
    binary main_v39 main_v37 main_v40 mulf,
    nullary main_cst_5 (constant S_ .f32 0x3727C5AC#32),
    unary main_cst_5 main_v41 (broadcastInDim S256 ![] bcast_S_S256),
    binary main_v34 main_v41 main_v42 addf,
    unary main_v42 main_v43 Host.sqrt,
    unary main_v43 main_v44 (broadcastInDim S1x256 ![1] bcast_S256_S1x256_1),
    unary main_v44 main_v45 (broadcastInDim S4096x256 ![0, 1] bcast_S1x256_S4096x256_0_1),
    binary main_v40 main_v45 main_v46 Host.divf,
    unary main_arg9 main_v47 (broadcastInDim S1x256 ![1] bcast_S256_S1x256_1),
    unary main_v47 main_v48 (broadcastInDim S4096x256 ![0, 1] bcast_S1x256_S4096x256_0_1),
    binary main_v46 main_v48 main_v49 addf ]

abbrev ops3a : List (HloOp τ sig (Elt F)) :=
  [ binary main_v49 main_arg10 main_v50 (fun l r => Host.dotGeneral dot_S4096x256_S256x256_S4096x256_1_0_0_1_n_n (some .fp32) l r),
    binary main_arg1 main_v50 main_v51 (fun l r => Host.dotGeneral dot_S4096x4096_S4096x256_S4096x256_1_0_0_1_n_n (some .fp32) l r) ]

abbrev ops3b : List (HloOp τ sig (Elt F)) :=
  [ unary main_arg11 main_v52 (broadcastInDim S1x256 ![1] bcast_S256_S1x256_1),
    unary main_v52 main_v53 (broadcastInDim S4096x256 ![0, 1] bcast_S1x256_S4096x256_0_1),
    binary main_v51 main_v53 main_v54 addf,
    TRef.nullary main_call4.cst (constant S_ .f32 0x00000000#32),
    TRef.unary main_call4.cst main_call4.v0 (broadcastInDim S4096x256 ![] bcast_S_S4096x256),
    TRef.binary (.of main_v54) main_call4.v0 main_call4.v1 maximumf,
    nullary main_cst_6 (constant S_ .f32 0x00000000#32),
    binary main_v55 main_cst_6 main_v56 (fun x v => Host.reduceAdd x v reducesTo_S4096x256_S256_d0 h_S_),
    nullary main_cst_7 (constant S_ .f32 0x45800000#32),
    unary main_cst_7 main_v57 (broadcastInDim S256 ![] bcast_S_S256),
    binary main_v56 main_v57 main_v58 Host.divf,
    nullary main_c_8 (constantI S_ 32 0#32),
    TRef.nullary main_call5.cst (constant S_ .f32 0x00000000#32),
    TRef.binary (.of main_v55) main_call5.cst main_call5.v0 (fun x v => Host.reduceAdd x v reducesTo_S4096x256_S256_d0 h_S_),
    TRef.unary main_call5.v0 main_call5.v1 (broadcastInDim S1x256 ![1] bcast_S256_S1x256_1),
    TRef.nullary main_call5.cst_0 (constant S_ .f32 0x45800000#32),
    TRef.unary main_call5.cst_0 main_call5.v2 (broadcastInDim S1x256 ![] bcast_S_S1x256),
    TRef.binary main_call5.v1 main_call5.v2 main_call5.v3 Host.divf,
    TRef.unary main_call5.v3 main_call5.v4 (broadcastInDim S4096x256 ![0, 1] bcast_S1x256_S4096x256_0_1),
    TRef.binary (.of main_v55) main_call5.v4 main_call5.v5 subf,
    TRef.binary main_call5.v5 main_call5.v5 main_call5.v6 mulf,
    TRef.unary (.of main_c_8) main_call5.v7 (sitofp .f32),
    TRef.nullary main_call5.cst_1 (constant S_ .f32 0x45800000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S4096x256_S256_d0 h_S_),
    TRef.unary main_call5.v8 main_call5.v10 (broadcastInDim S256 ![] bcast_S_S256),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S256 ![] bcast_S_S256),
    TRef.ternary main_call5.v12 main_call5.v11 main_call5.call0.v1 main_call5.call0.v2 (fun p a b => select (broadcastInDim S256 ![] bcast_S_S256 p) a b),
    unary main_v58 main_v60 (broadcastInDim S1x256 ![1] bcast_S256_S1x256_1),
    unary main_v60 main_v61 (broadcastInDim S4096x256 ![0, 1] bcast_S1x256_S4096x256_0_1),
    binary main_v55 main_v61 main_v62 subf,
    unary main_arg12 main_v63 (broadcastInDim S1x256 ![1] bcast_S256_S1x256_1),
    unary main_v63 main_v64 (broadcastInDim S4096x256 ![0, 1] bcast_S1x256_S4096x256_0_1),
    binary main_v64 main_v62 main_v65 mulf,
    nullary main_cst_9 (constant S_ .f32 0x3727C5AC#32),
    unary main_cst_9 main_v66 (broadcastInDim S256 ![] bcast_S_S256),
    binary main_v59 main_v66 main_v67 addf,
    unary main_v67 main_v68 Host.sqrt,
    unary main_v68 main_v69 (broadcastInDim S1x256 ![1] bcast_S256_S1x256_1),
    unary main_v69 main_v70 (broadcastInDim S4096x256 ![0, 1] bcast_S1x256_S4096x256_0_1),
    binary main_v65 main_v70 main_v71 Host.divf,
    unary main_arg13 main_v72 (broadcastInDim S1x256 ![1] bcast_S256_S1x256_1),
    unary main_v72 main_v73 (broadcastInDim S4096x256 ![0, 1] bcast_S1x256_S4096x256_0_1),
    binary main_v71 main_v73 main_v74 addf ]

abbrev ops3 : List (HloOp τ sig (Elt F)) := ops3a ++ ops3b

abbrev ops : List (HloOp τ sig (Elt F)) := ops1 ++ (ops2 ++ ops3)

theorem part0_eq (c : Dev nD) : main_part0 (F := F) c = seq (ops1 ++ (ops2 ++ ops3a)) := rfl

theorem part1_eq (c : Dev nD) : main_part1 (F := F) c = seq ops3b := rfl

theorem main_eq (c : Dev nD) : main (F := F) c = seq ops := by
  have h : main (F := F) c = (main_part0 (F := F) c >>= fun _ => main_part1 (F := F) c) := rfl
  rw [h, part0_eq, part1_eq, ← seq_append]
  simp only [ops, ops3, List.append_assoc]

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨binary_bufs_sub .., binary_bufs_sub .., unary_bufs_sub .., unary_bufs_sub .., binary_bufs_sub ..,
    nullary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub ..⟩

theorem ops2_sub : (ops2 : List (HloOp τ sig (Elt F))).Forall fun op => op.bufs ⊆ tcRefs τ sig :=
  ⟨binary_bufs_sub .., binary_bufs_sub .., unary_bufs_sub .., unary_bufs_sub .., binary_bufs_sub ..,
    nullary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub ..⟩

theorem ops3a_sub : (ops3a : List (HloOp τ sig (Elt F))).Forall fun op => op.bufs ⊆ tcRefs τ sig :=
  ⟨binary_bufs_sub .., binary_bufs_sub ..⟩

theorem ops3b_sub : (ops3b : List (HloOp τ sig (Elt F))).Forall fun op => op.bufs ⊆ tcRefs τ sig :=
  ⟨unary_bufs_sub .., unary_bufs_sub .., binary_bufs_sub ..,
    nullary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub ..⟩

theorem ops_sub : (ops : List (HloOp τ sig (Elt F))).Forall fun op => op.bufs ⊆ tcRefs τ sig :=
  List.forall_append.mpr ⟨ops1_sub, List.forall_append.mpr ⟨ops2_sub, List.forall_append.mpr ⟨ops3a_sub, ops3b_sub⟩⟩⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩

theorem ops3a_fresh : (ops3a : List (HloOp τ sig (Elt F))).Forall fun op => op.fresh = ∅ := ⟨rfl, rfl⟩

theorem ops3b_fresh : (ops3b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

theorem ops_fresh : ∀ op ∈ (ops : List (HloOp τ sig (Elt F))), op.fresh = ∅ :=
  List.forall_iff_forall_mem.mp
    (List.forall_append.mpr ⟨ops1_fresh, List.forall_append.mpr ⟨ops2_fresh, List.forall_append.mpr ⟨ops3a_fresh, ops3b_fresh⟩⟩⟩)

theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after (ops (F := F)) (launchContents m c) (Proc.devRef .tc b) :=
  run_seq scopedRefs_eq scopedSems_eq defs main (fun _ => ops) main_eq (fun _ => ops_sub) m ρ (fun _ => ops_fresh)

end Cert.ReferenceIdeal.Hand

end
-- ==== Proof.Ref.Stages.lean ====
import proofs.«163270_g1194000908387_cont_fleet_524_12_alg».proof.ReferenceIdeal
import proofs.«163270_g1194000908387_cont_fleet_524_12_alg».proof.Proof.Gen.ReferenceIdeal

noncomputable section

namespace Cert.ReferenceIdeal.Hand

open Idealize.ShloMosaic Idealize.SL.Sem
open Cert.ReferenceIdeal Cert.ReferenceIdeal.Facts₀ Cert.ReferenceIdeal.Facts

variable {F : FTy → Type} [FloatOps F] [Facts]

def rowBcast (v : FVec F S256 .f32) : FVec F S4096x256 .f32 :=
  broadcastInDim S4096x256 ![0, 1] bcast_S1x256_S4096x256_0_1 (broadcastInDim S1x256 ![1] bcast_S256_S1x256_1 v)

def refGcn (h : FVec F S4096x256 .f32) (adj : FVec F S4096x4096 .f32) (W : FVec F S256x256 .f32)
    (b : FVec F S256 .f32) : FVec F S4096x256 .f32 :=
  addf
    (Host.dotGeneral dot_S4096x4096_S4096x256_S4096x256_1_0_0_1_n_n (some .fp32) adj
      (Host.dotGeneral dot_S4096x256_S256x256_S4096x256_1_0_0_1_n_n (some .fp32) h W))
    (rowBcast b)

def refRelu (x : FVec F S4096x256 .f32) : FVec F S4096x256 .f32 :=
  maximumf x (broadcastInDim S4096x256 ![] bcast_S_S4096x256 (constant S_ .f32 0x00000000#32))

def refColSum (x : FVec F S4096x256 .f32) : FVec F S256 .f32 :=
  Host.reduceAdd x (constant S_ .f32 0x00000000#32) reducesTo_S4096x256_S256_d0 h_S_

def refMean (r : FVec F S4096x256 .f32) : FVec F S256 .f32 :=
  Host.divf (refColSum r) (broadcastInDim S256 ![] bcast_S_S256 (constant S_ .f32 0x45800000#32))

def refCentred (r : FVec F S4096x256 .f32) : FVec F S4096x256 .f32 :=
  subf r
    (broadcastInDim S4096x256 ![0, 1] bcast_S1x256_S4096x256_0_1
      (Host.divf (broadcastInDim S1x256 ![1] bcast_S256_S1x256_1 (refColSum r))
        (broadcastInDim S1x256 ![] bcast_S_S1x256 (constant S_ .f32 0x45800000#32))))

def refCount : FVec F S_ .f32 :=
  subf (constant S_ .f32 0x45800000#32) (sitofp .f32 (constantI S_ 32 0#32))

def refVar (r : FVec F S4096x256 .f32) : FVec F S256 .f32 :=
  select
    (broadcastInDim S256 ![] bcast_S_S256 (cmpf .ogt (refCount (F := F)) (constant S_ .f32 0x00000000#32)))
    (Host.divf
      (Host.reduceAdd (mulf (refCentred r) (refCentred r)) (constant S_ .f32 0x00000000#32)
        reducesTo_S4096x256_S256_d0 h_S_)
      (broadcastInDim S256 ![] bcast_S_S256 (refCount (F := F))))
    (broadcastInDim S256 ![] bcast_S_S256 (id (constant S_ .f32 0x7FC00000#32)))

def refNorm (r : FVec F S4096x256 .f32) (g bt : FVec F S256 .f32) : FVec F S4096x256 .f32 :=
  addf
    (Host.divf
      (mulf (rowBcast g) (subf r (rowBcast (refMean r))))
      (rowBcast
        (Host.sqrt (addf (refVar r) (broadcastInDim S256 ![] bcast_S_S256 (constant S_ .f32 0x3727C5AC#32))))))
    (rowBcast bt)

def refLayer (h : FVec F S4096x256 .f32) (adj : FVec F S4096x4096 .f32) (W : FVec F S256x256 .f32)
    (b g bt : FVec F S256 .f32) : FVec F S4096x256 .f32 :=
  refNorm (refRelu (refGcn h adj W b)) g bt

def refTerm (a0 : FVec F S4096x256 .f32) (a1 : FVec F S4096x4096 .f32) (a2 : FVec F S256x256 .f32)
    (a3 a4 a5 : FVec F S256 .f32) (a6 : FVec F S256x256 .f32) (a7 a8 a9 : FVec F S256 .f32)
    (a10 : FVec F S256x256 .f32) (a11 a12 a13 : FVec F S256 .f32) : FVec F S4096x256 .f32 :=
  refLayer (refLayer (refLayer a0 a1 a2 a3 a4 a5) a1 a6 a7 a8 a9) a1 a10 a11 a12 a13

end Cert.ReferenceIdeal.Hand

end
-- ==== Proof.Ref.Round1.lean ====
import proofs.«163270_g1194000908387_cont_fleet_524_12_alg».proof.Proof.Ref.Ops
import proofs.«163270_g1194000908387_cont_fleet_524_12_alg».proof.Proof.Ref.Stages

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable {F : FTy → Type} [FloatOps F]

set_option maxHeartbeats 1600000 in
set_option maxRecDepth 4096 in

theorem round1_out (V : Valuation τ sig (Elt F)) :
    after (ops1 (F := F)) V (Proc.devRef .tc main_v24)
      = refLayer (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results_simp
  rfl

set_option maxHeartbeats 1600000 in

theorem round1_args (V : Valuation τ sig (Elt F)) :
    after (ops1 (F := F)) V (Proc.devRef .tc main_arg0) = V (Proc.devRef .tc main_arg0)
      ∧ after (ops1 (F := F)) V (Proc.devRef .tc main_arg1) = V (Proc.devRef .tc main_arg1)
      ∧ after (ops1 (F := F)) V (Proc.devRef .tc main_arg2) = V (Proc.devRef .tc main_arg2)
      ∧ after (ops1 (F := F)) V (Proc.devRef .tc main_arg3) = V (Proc.devRef .tc main_arg3)
      ∧ after (ops1 (F := F)) V (Proc.devRef .tc main_arg4) = V (Proc.devRef .tc main_arg4)
      ∧ after (ops1 (F := F)) V (Proc.devRef .tc main_arg5) = V (Proc.devRef .tc main_arg5)
      ∧ after (ops1 (F := F)) V (Proc.devRef .tc main_arg6) = V (Proc.devRef .tc main_arg6)
      ∧ after (ops1 (F := F)) V (Proc.devRef .tc main_arg7) = V (Proc.devRef .tc main_arg7)
      ∧ after (ops1 (F := F)) V (Proc.devRef .tc main_arg8) = V (Proc.devRef .tc main_arg8)
      ∧ after (ops1 (F := F)) V (Proc.devRef .tc main_arg9) = V (Proc.devRef .tc main_arg9)
      ∧ after (ops1 (F := F)) V (Proc.devRef .tc main_arg10) = V (Proc.devRef .tc main_arg10)
      ∧ after (ops1 (F := F)) V (Proc.devRef .tc main_arg11) = V (Proc.devRef .tc main_arg11)
      ∧ after (ops1 (F := F)) V (Proc.devRef .tc main_arg12) = V (Proc.devRef .tc main_arg12)
      ∧ after (ops1 (F := F)) V (Proc.devRef .tc main_arg13) = V (Proc.devRef .tc main_arg13) := by
  refine ⟨?_, ?_, ?_, ?_, ?_, ?_, ?_, ?_, ?_, ?_, ?_, ?_, ?_, ?_⟩ <;> after_results_simp

end Cert.ReferenceIdeal.Hand

end
-- ==== Proof.Ref.Round2.lean ====
import proofs.«163270_g1194000908387_cont_fleet_524_12_alg».proof.Proof.Ref.Ops
import proofs.«163270_g1194000908387_cont_fleet_524_12_alg».proof.Proof.Ref.Stages

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable {F : FTy → Type} [FloatOps F]

set_option maxHeartbeats 1600000 in
set_option maxRecDepth 4096 in

theorem round2_out (V : Valuation τ sig (Elt F)) :
    after (ops2 (F := F)) V (Proc.devRef .tc main_v49)
      = refLayer (V (Proc.devRef .tc main_v24)) (V (Proc.devRef .tc main_arg1)) (V (Proc.devRef .tc main_arg6))
          (V (Proc.devRef .tc main_arg7)) (V (Proc.devRef .tc main_arg8)) (V (Proc.devRef .tc main_arg9)) := by
  after_results_simp
  rfl

set_option maxHeartbeats 1600000 in

theorem round2_args (V : Valuation τ sig (Elt F)) :
    after (ops2 (F := F)) V (Proc.devRef .tc main_arg0) = V (Proc.devRef .tc main_arg0)
      ∧ after (ops2 (F := F)) V (Proc.devRef .tc main_arg1) = V (Proc.devRef .tc main_arg1)
      ∧ after (ops2 (F := F)) V (Proc.devRef .tc main_arg2) = V (Proc.devRef .tc main_arg2)
      ∧ after (ops2 (F := F)) V (Proc.devRef .tc main_arg3) = V (Proc.devRef .tc main_arg3)
      ∧ after (ops2 (F := F)) V (Proc.devRef .tc main_arg4) = V (Proc.devRef .tc main_arg4)
      ∧ after (ops2 (F := F)) V (Proc.devRef .tc main_arg5) = V (Proc.devRef .tc main_arg5)
      ∧ after (ops2 (F := F)) V (Proc.devRef .tc main_arg6) = V (Proc.devRef .tc main_arg6)
      ∧ after (ops2 (F := F)) V (Proc.devRef .tc main_arg7) = V (Proc.devRef .tc main_arg7)
      ∧ after (ops2 (F := F)) V (Proc.devRef .tc main_arg8) = V (Proc.devRef .tc main_arg8)
      ∧ after (ops2 (F := F)) V (Proc.devRef .tc main_arg9) = V (Proc.devRef .tc main_arg9)
      ∧ after (ops2 (F := F)) V (Proc.devRef .tc main_arg10) = V (Proc.devRef .tc main_arg10)
      ∧ after (ops2 (F := F)) V (Proc.devRef .tc main_arg11) = V (Proc.devRef .tc main_arg11)
      ∧ after (ops2 (F := F)) V (Proc.devRef .tc main_arg12) = V (Proc.devRef .tc main_arg12)
      ∧ after (ops2 (F := F)) V (Proc.devRef .tc main_arg13) = V (Proc.devRef .tc main_arg13) := by
  refine ⟨?_, ?_, ?_, ?_, ?_, ?_, ?_, ?_, ?_, ?_, ?_, ?_, ?_, ?_⟩ <;> after_results_simp

end Cert.ReferenceIdeal.Hand

end
-- ==== Proof.Ref.Round3.lean ====
import proofs.«163270_g1194000908387_cont_fleet_524_12_alg».proof.Proof.Ref.Ops
import proofs.«163270_g1194000908387_cont_fleet_524_12_alg».proof.Proof.Ref.Stages

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable {F : FTy → Type} [FloatOps F]

set_option maxHeartbeats 1600000 in
set_option maxRecDepth 4096 in

theorem round3_out (V : Valuation τ sig (Elt F)) :
    after (ops3 (F := F)) V (Proc.devRef .tc main_v74)
      = refLayer (V (Proc.devRef .tc main_v49)) (V (Proc.devRef .tc main_arg1)) (V (Proc.devRef .tc main_arg10))
          (V (Proc.devRef .tc main_arg11)) (V (Proc.devRef .tc main_arg12)) (V (Proc.devRef .tc main_arg13)) := by
  simp only [ops3, ops3a, ops3b, List.cons_append, List.nil_append]
  after_results_simp
  rfl

set_option maxHeartbeats 1600000 in

theorem round3_args (V : Valuation τ sig (Elt F)) :
    after (ops3 (F := F)) V (Proc.devRef .tc main_arg0) = V (Proc.devRef .tc main_arg0)
      ∧ after (ops3 (F := F)) V (Proc.devRef .tc main_arg1) = V (Proc.devRef .tc main_arg1)
      ∧ after (ops3 (F := F)) V (Proc.devRef .tc main_arg2) = V (Proc.devRef .tc main_arg2)
      ∧ after (ops3 (F := F)) V (Proc.devRef .tc main_arg3) = V (Proc.devRef .tc main_arg3)
      ∧ after (ops3 (F := F)) V (Proc.devRef .tc main_arg4) = V (Proc.devRef .tc main_arg4)
      ∧ after (ops3 (F := F)) V (Proc.devRef .tc main_arg5) = V (Proc.devRef .tc main_arg5)
      ∧ after (ops3 (F := F)) V (Proc.devRef .tc main_arg6) = V (Proc.devRef .tc main_arg6)
      ∧ after (ops3 (F := F)) V (Proc.devRef .tc main_arg7) = V (Proc.devRef .tc main_arg7)
      ∧ after (ops3 (F := F)) V (Proc.devRef .tc main_arg8) = V (Proc.devRef .tc main_arg8)
      ∧ after (ops3 (F := F)) V (Proc.devRef .tc main_arg9) = V (Proc.devRef .tc main_arg9)
      ∧ after (ops3 (F := F)) V (Proc.devRef .tc main_arg10) = V (Proc.devRef .tc main_arg10)
      ∧ after (ops3 (F := F)) V (Proc.devRef .tc main_arg11) = V (Proc.devRef .tc main_arg11)
      ∧ after (ops3 (F := F)) V (Proc.devRef .tc main_arg12) = V (Proc.devRef .tc main_arg12)
      ∧ after (ops3 (F := F)) V (Proc.devRef .tc main_arg13) = V (Proc.devRef .tc main_arg13) := by
  simp only [ops3, ops3a, ops3b, List.cons_append, List.nil_append]
  refine ⟨?_, ?_, ?_, ?_, ?_, ?_, ?_, ?_, ?_, ?_, ?_, ?_, ?_, ?_⟩ <;> after_results_simp

end Cert.ReferenceIdeal.Hand

end
-- ==== Proof.Ref.Run.lean ====
import proofs.«163270_g1194000908387_cont_fleet_524_12_alg».proof.Proof.Ref.Round1
import proofs.«163270_g1194000908387_cont_fleet_524_12_alg».proof.Proof.Ref.Round2
import proofs.«163270_g1194000908387_cont_fleet_524_12_alg».proof.Proof.Ref.Round3

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable {F : FTy → Type} [FloatOps F]

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem out_eq (V : Valuation τ sig (Elt F)) :
    after (ops (F := F)) V (Proc.devRef .tc main_v74)
      = refTerm (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) := by
  obtain ⟨-, a1, -, -, -, -, a6, a7, a8, a9, a10, a11, a12, a13⟩ := round1_args (F := F) V
  obtain ⟨-, b1, -, -, -, -, -, -, -, -, b10, b11, b12, b13⟩ := round2_args (F := F) (after ops1 V)
  show after (ops1 ++ (ops2 ++ ops3)) V _ = _
  rw [after_app, after_app, round3_out, round2_out, round1_out, b1, b10, b11, b12, b13, a1, a6, a7, a8, a9, a10, a11, a12, a13]
  rfl

theorem args_eq (V : Valuation τ sig (Elt F)) :
    after (ops (F := F)) V (Proc.devRef .tc main_arg0) = V (Proc.devRef .tc main_arg0)
      ∧ after (ops (F := F)) V (Proc.devRef .tc main_arg1) = V (Proc.devRef .tc main_arg1)
      ∧ after (ops (F := F)) V (Proc.devRef .tc main_arg2) = V (Proc.devRef .tc main_arg2)
      ∧ after (ops (F := F)) V (Proc.devRef .tc main_arg3) = V (Proc.devRef .tc main_arg3)
      ∧ after (ops (F := F)) V (Proc.devRef .tc main_arg4) = V (Proc.devRef .tc main_arg4)
      ∧ after (ops (F := F)) V (Proc.devRef .tc main_arg5) = V (Proc.devRef .tc main_arg5)
      ∧ after (ops (F := F)) V (Proc.devRef .tc main_arg6) = V (Proc.devRef .tc main_arg6)
      ∧ after (ops (F := F)) V (Proc.devRef .tc main_arg7) = V (Proc.devRef .tc main_arg7)
      ∧ after (ops (F := F)) V (Proc.devRef .tc main_arg8) = V (Proc.devRef .tc main_arg8)
      ∧ after (ops (F := F)) V (Proc.devRef .tc main_arg9) = V (Proc.devRef .tc main_arg9)
      ∧ after (ops (F := F)) V (Proc.devRef .tc main_arg10) = V (Proc.devRef .tc main_arg10)
      ∧ after (ops (F := F)) V (Proc.devRef .tc main_arg11) = V (Proc.devRef .tc main_arg11)
      ∧ after (ops (F := F)) V (Proc.devRef .tc main_arg12) = V (Proc.devRef .tc main_arg12)
      ∧ after (ops (F := F)) V (Proc.devRef .tc main_arg13) = V (Proc.devRef .tc main_arg13) := by
  obtain ⟨a0, a1, a2, a3, a4, a5, a6, a7, a8, a9, a10, a11, a12, a13⟩ := round1_args (F := F) V
  obtain ⟨b0, b1, b2, b3, b4, b5, b6, b7, b8, b9, b10, b11, b12, b13⟩ := round2_args (F := F) (after ops1 V)
  obtain ⟨c0, c1, c2, c3, c4, c5, c6, c7, c8, c9, c10, c11, c12, c13⟩ := round3_args (F := F) (after ops2 (after ops1 V))
  have e : after (ops (F := F)) V = after ops3 (after ops2 (after ops1 V)) := by
    show after (ops1 ++ (ops2 ++ ops3)) V = _
    rw [after_app, after_app]
  rw [e]
  exact ⟨c0.trans (b0.trans a0), c1.trans (b1.trans a1), c2.trans (b2.trans a2), c3.trans (b3.trans a3),
    c4.trans (b4.trans a4), c5.trans (b5.trans a5), c6.trans (b6.trans a6), c7.trans (b7.trans a7),
    c8.trans (b8.trans a8), c9.trans (b9.trans a9), c10.trans (b10.trans a10), c11.trans (b11.trans a11),
    c12.trans (b12.trans a12), c13.trans (b13.trans a13)⟩

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v74)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10)) (m ((c.tc : Thread nD τ).loc main_arg11))
              (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := F)) _ _).mono (fun _ h c => by
      obtain ⟨a0, a1, a2, a3, a4, a5, a6, a7, a8, a9, a10, a11, a12, a13⟩ := args_eq (F := F) (launchContents m c)
      exact ⟨(h c main_v74).trans (out_eq (launchContents m c)), (h c main_arg0).trans a0, (h c main_arg1).trans a1,
        (h c main_arg2).trans a2, (h c main_arg3).trans a3, (h c main_arg4).trans a4, (h c main_arg5).trans a5,
        (h c main_arg6).trans a6, (h c main_arg7).trans a7, (h c main_arg8).trans a8, (h c main_arg9).trans a9,
        (h c main_arg10).trans a10, (h c main_arg11).trans a11, (h c main_arg12).trans a12, (h c main_arg13).trans a13⟩)
    (run_all m ρ)

theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := F)) _ _).mono (fun _ h c => (h c).2) (run m ρ)

end Cert.ReferenceIdeal.Hand

end
-- ==== Proof.Ref.AtIndex.lean ====
import proofs.«163270_g1194000908387_cont_fleet_524_12_alg».proof.ReferenceIdeal
import proofs.«163270_g1194000908387_cont_fleet_524_12_alg».proof.Proof.Gen.ReferenceIdeal
import Idealize.ShloMosaic.Lib.StackMember
import Idealize.ShloMosaic.Lib.IdealHost
import Idealize.ShloMosaic.Lib.ValueIdx

noncomputable section

namespace Cert.ReferenceIdeal.Hand

open Idealize.ShloMosaic Idealize.SL.Sem Idealize.ShloMosaic.ValueIdx
open Cert.ReferenceIdeal Cert.ReferenceIdeal.Facts₀ Cert.ReferenceIdeal.Facts

theorem dotHW_eq : dot_S4096x256_S256x256_S4096x256_1_0_0_1_n_n = DotDims.plain 4096 256 256 := rfl
theorem dotAdj_eq : dot_S4096x4096_S4096x256_S4096x256_1_0_0_1_n_n = DotDims.plain 4096 4096 256 := rfl

theorem dotHW_apply (A : FVec Ideal S4096x256 .f32) (B : FVec Ideal S256x256 .f32) (a : Fin 4096) (b : Fin 256) :
    Host.dotGeneral dot_S4096x256_S256x256_S4096x256_1_0_0_1_n_n (some .fp32) A B (ix2 a b)
      = ∑ c : Fin 256, A (ix2 a c) * B (ix2 c b) := by
  rw [dotHW_eq]
  exact StackMember.dotGeneral_plain_apply (some .fp32) A B a b

theorem dotAdj_apply (A : FVec Ideal S4096x4096 .f32) (B : FVec Ideal S4096x256 .f32) (a : Fin 4096) (b : Fin 256) :
    Host.dotGeneral dot_S4096x4096_S4096x256_S4096x256_1_0_0_1_n_n (some .fp32) A B (ix2 a b)
      = ∑ c : Fin 4096, A (ix2 a c) * B (ix2 c b) := by
  rw [dotAdj_eq]
  exact StackMember.dotGeneral_plain_apply (some .fp32) A B a b

theorem row_apply {α : Type} (v : S256.Idx → α) (b : Fin 256) :
    broadcastInDim S1x256 ![1] bcast_S256_S1x256_1 v (ix2 (0 : Fin 1) b) = v (ix1 b) := by
  refine broadcastInDim_apply _ _ v _ (ix1 b) (fun a => ?_)
  match a with
  | ⟨0, _⟩ => rfl

theorem rows_apply {α : Type} (v : S1x256.Idx → α) (a : Fin 4096) (b : Fin 256) :
    broadcastInDim S4096x256 ![0, 1] bcast_S1x256_S4096x256_0_1 v (ix2 a b) = v (ix2 (0 : Fin 1) b) := by
  refine broadcastInDim_apply _ _ v _ (ix2 (0 : Fin 1) b) (fun ax => ?_)
  match ax with
  | ⟨0, _⟩ => rfl
  | ⟨1, _⟩ => rfl

theorem scalar256_apply {α : Type} (x : S_.Idx → α) (j : S256.Idx) :
    broadcastInDim S256 ![] bcast_S_S256 x j = x ix0 :=
  broadcastInDim_scalar_apply _ x j

theorem scalar1x256_apply {α : Type} (x : S_.Idx → α) (j : S1x256.Idx) :
    broadcastInDim S1x256 ![] bcast_S_S1x256 x j = x ix0 :=
  broadcastInDim_scalar_apply _ x j

theorem scalar4096x256_apply {α : Type} (x : S_.Idx → α) (j : S4096x256.Idx) :
    broadcastInDim S4096x256 ![] bcast_S_S4096x256 x j = x ix0 :=
  broadcastInDim_scalar_apply _ x j

theorem dropRows : S4096x256.Reduces [0] S256 := by decide

theorem colSum_apply (x : FVec Ideal S4096x256 .f32) (init : FVec Ideal S_ .f32) (b : Fin 256) :
    Host.reduceAdd x init reducesTo_S4096x256_S256_d0 h_S_ (ix1 b)
      = init ix0 + ∑ a : Fin 4096, x (ix2 a b) := by
  rw [hostReduceAdd_apply, Ideal.hostReduceAdd_single _ dropRows]
  congr 1
  · exact congrArg init (eq_ix0 _)
  · refine Finset.sum_congr rfl fun a _ => congrArg x ?_
    funext ax
    match ax with
    | ⟨0, _⟩ => rfl
    | ⟨1, _⟩ => rfl

end Cert.ReferenceIdeal.Hand

end
-- ==== Proof.Ref.Read.lean ====
import proofs.«163270_g1194000908387_cont_fleet_524_12_alg».proof.Proof.Ref.Stages
import proofs.«163270_g1194000908387_cont_fleet_524_12_alg».proof.Proof.Ref.AtIndex
import proofs.«163270_g1194000908387_cont_fleet_524_12_alg».proof.Proof.Spec
import proofs.«163270_g1194000908387_cont_fleet_524_12_alg».proof.Proof.Consts
import proofs.«163270_g1194000908387_cont_fleet_524_12_alg».proof.Proof.LibERealSums

noncomputable section

namespace Cert.ReferenceIdeal.Hand

open Idealize.ShloMosaic Idealize.SL.Sem Idealize.ShloMosaic.ValueIdx
open Cert.ReferenceIdeal Cert.ReferenceIdeal.Facts₀ Cert.ReferenceIdeal.Facts
open Cert.Spec (lift1 lift2)
open Cert

theorem lift2_ix2 {m n : Nat} (x : Fin m → Fin n → ℝ) (a : Fin m) (b : Fin n) :
    lift2 x (ix2 a b) = ((x a b : ℝ) : EReal) := rfl

theorem lift1_ix1 {n : Nat} (x : Fin n → ℝ) (b : Fin n) : lift1 x (ix1 b) = ((x b : ℝ) : EReal) := rfl

theorem hostSqrt_apply {s : Shape} {φ : FTy} (x : FVec Ideal s φ) (i : s.Idx) : Host.sqrt x i = Ideal.sqrt (x i) := rfl

theorem refGcn_lift (h : Fin 4096 → Fin 256 → ℝ) (adj : Fin 4096 → Fin 4096 → ℝ) (W : Fin 256 → Fin 256 → ℝ)
    (b : Fin 256 → ℝ) :
    refGcn (F := Ideal) (lift2 h) (lift2 adj) (lift2 W) (lift1 b) = lift2 (Spec.gcn adj (Spec.lin h W) b) := by
  funext i
  obtain ⟨p, q, rfl⟩ : ∃ (p : Fin 4096) (q : Fin 256), i = ix2 p q := ⟨i 0, i 1, eq_ix2 i⟩
  unfold refGcn rowBcast
  rw [addf_apply, dotAdj_apply, rows_apply, row_apply]
  simp only [dotHW_apply, lift2_ix2, lift1_ix1, LibEReal.sum_coe_mul_coe, LibEReal.coe_add_coe]
  rfl

theorem refRelu_lift (x : Fin 4096 → Fin 256 → ℝ) :
    refRelu (F := Ideal) (lift2 x) = lift2 (fun i j => max (x i j) 0) := by
  funext i
  obtain ⟨p, q, rfl⟩ : ∃ (p : Fin 4096) (q : Fin 256), i = ix2 p q := ⟨i 0, i 1, eq_ix2 i⟩
  unfold refRelu
  rw [maximumf_apply, scalar4096x256_apply, constant_apply, Consts.ofBits_zero]
  exact LibEReal.coe_max _ _

theorem refColSum_lift (r : Fin 4096 → Fin 256 → ℝ) :
    refColSum (F := Ideal) (lift2 r) = lift1 (Spec.colSum r) := by
  funext j
  obtain ⟨q, rfl⟩ : ∃ q : Fin 256, j = ix1 q := ⟨j 0, eq_ix1 j⟩
  unfold refColSum
  rw [colSum_apply, constant_apply, Consts.ofBits_zero]
  simp only [lift2_ix2]
  exact LibEReal.coe_zero_add_coe_sum _ _

theorem refMean_lift (r : Fin 4096 → Fin 256 → ℝ) :
    refMean (F := Ideal) (lift2 r) = lift1 (Spec.rMean r) := by
  funext j
  obtain ⟨q, rfl⟩ : ∃ q : Fin 256, j = ix1 q := ⟨j 0, eq_ix1 j⟩
  unfold refMean
  rw [hostDivf_apply, refColSum_lift, scalar256_apply, constant_apply, Consts.ofBits_4096, lift1_ix1]
  exact LibEReal.div_coe_coe (by norm_num) _

theorem refCentred_lift (r : Fin 4096 → Fin 256 → ℝ) :
    refCentred (F := Ideal) (lift2 r) = lift2 (fun i j => r i j - Spec.rMean r j) := by
  funext i
  obtain ⟨p, q, rfl⟩ : ∃ (p : Fin 4096) (q : Fin 256), i = ix2 p q := ⟨i 0, i 1, eq_ix2 i⟩
  unfold refCentred
  rw [subf_apply, rows_apply, hostDivf_apply, row_apply, refColSum_lift, scalar1x256_apply, constant_apply,
    Consts.ofBits_4096, lift1_ix1, lift2_ix2, LibEReal.div_coe_coe (by norm_num)]
  exact LibEReal.coe_sub_coe _ _

theorem refCount_apply (i : S_.Idx) : refCount (F := Ideal) i = ((4096 : ℝ) : EReal) := by
  unfold refCount
  rw [subf_apply, constant_apply, Consts.ofBits_4096, sitofp_apply]
  show ((4096 : ℝ) : EReal) - ((((0#32 : BitVec 32).toInt : ℤ) : ℝ) : EReal) = _
  rw [BitVec.toInt_zero, Int.cast_zero, EReal.coe_zero, sub_zero]

theorem cmp_count_pos : Ideal.cmp .ogt ((4096 : ℝ) : EReal) ((0 : ℝ) : EReal) = 1#1 := by
  have h : ((0 : ℝ) : EReal) < ((4096 : ℝ) : EReal) := by exact_mod_cast (by norm_num : (0 : ℝ) < 4096)
  simp [Ideal.cmp, h]

theorem refVar_lift (r : Fin 4096 → Fin 256 → ℝ) :
    refVar (F := Ideal) (lift2 r) = lift1 (Spec.rVar r) := by
  funext j
  obtain ⟨q, rfl⟩ : ∃ q : Fin 256, j = ix1 q := ⟨j 0, eq_ix1 j⟩
  unfold refVar
  rw [select_apply, scalar256_apply, cmpf_apply, Ideal.cmpf_def, refCount_apply, constant_apply, Consts.ofBits_zero,
    cmp_count_pos, select_one, hostDivf_apply, colSum_apply, scalar256_apply, refCount_apply, refCentred_lift,
    constant_apply, Consts.ofBits_zero]
  simp only [mulf_apply, lift2_ix2]
  rw [EReal.coe_zero, LibEReal.zero_add_sum_coe_mul_coe, LibEReal.div_coe_coe (by norm_num)]
  rfl

theorem rowBcast_apply (v : FVec Ideal S256 .f32) (a : Fin 4096) (b : Fin 256) :
    rowBcast (F := Ideal) v (ix2 a b) = v (ix1 b) := by
  unfold rowBcast
  rw [rows_apply, row_apply]

theorem rVar_nonneg (r : Fin 4096 → Fin 256 → ℝ) (q : Fin 256) : 0 ≤ Spec.rVar r q :=
  div_nonneg (Finset.sum_nonneg fun _ _ => mul_self_nonneg _) (by norm_num)

theorem refNorm_lift (r : Fin 4096 → Fin 256 → ℝ) (g bt : Fin 256 → ℝ) :
    refNorm (F := Ideal) (lift2 r) (lift1 g) (lift1 bt) = lift2 (Spec.rBN Consts.eps r g bt) := by
  funext i
  obtain ⟨p, q, rfl⟩ : ∃ (p : Fin 4096) (q : Fin 256), i = ix2 p q := ⟨i 0, i 1, eq_ix2 i⟩
  have hpos : 0 < Spec.rVar r q + Consts.eps := add_pos_of_nonneg_of_pos (rVar_nonneg r q) Consts.eps_pos
  unfold refNorm
  rw [addf_apply, hostDivf_apply, mulf_apply, subf_apply, rowBcast_apply, rowBcast_apply, rowBcast_apply,
    rowBcast_apply, hostSqrt_apply, addf_apply, scalar256_apply, constant_apply, Consts.ofBits_eps, refMean_lift,
    refVar_lift]
  simp only [lift1_ix1, lift2_ix2]
  rw [LibEReal.coe_sub_coe, LibEReal.coe_mul_coe, LibEReal.coe_add_coe, LibEReal.sqrt_coe_nonneg hpos.le,
    LibEReal.div_coe_coe (Real.sqrt_pos.mpr hpos).ne', LibEReal.coe_add_coe]
  rfl

theorem refLayer_lift (h : Fin 4096 → Fin 256 → ℝ) (adj : Fin 4096 → Fin 4096 → ℝ) (W : Fin 256 → Fin 256 → ℝ)
    (b g bt : Fin 256 → ℝ) :
    refLayer (F := Ideal) (lift2 h) (lift2 adj) (lift2 W) (lift1 b) (lift1 g) (lift1 bt)
      = lift2 (Spec.rBN Consts.eps (Spec.layer adj h W b) g bt) := by
  unfold refLayer
  rw [refGcn_lift, refRelu_lift, refNorm_lift]
  rfl

theorem refTerm_lift (x : Fin 4096 → Fin 256 → ℝ) (adj : Fin 4096 → Fin 4096 → ℝ)
    (W1 : Fin 256 → Fin 256 → ℝ) (b1 g1 bt1 : Fin 256 → ℝ) (W2 : Fin 256 → Fin 256 → ℝ) (b2 g2 bt2 : Fin 256 → ℝ)
    (W3 : Fin 256 → Fin 256 → ℝ) (b3 g3 bt3 : Fin 256 → ℝ) :
    refTerm (F := Ideal) (lift2 x) (lift2 adj) (lift2 W1) (lift1 b1) (lift1 g1) (lift1 bt1) (lift2 W2) (lift1 b2)
        (lift1 g2) (lift1 bt2) (lift2 W3) (lift1 b3) (lift1 g3) (lift1 bt3)
      = lift2 (Spec.refOut Consts.eps x adj W1 b1 g1 bt1 W2 b2 g2 bt2 W3 b3 g3 bt3) := by
  unfold refTerm
  rw [refLayer_lift, refLayer_lift, refLayer_lift]
  rfl

end Cert.ReferenceIdeal.Hand

end
-- ==== Proof.Finite.lean ====
import proofs.«163270_g1194000908387_cont_fleet_524_12_alg».proof.Proof.Gen.Pre_finite_inputs
import proofs.«163270_g1194000908387_cont_fleet_524_12_alg».proof.Proof.Spec
import Idealize.ShloMosaic.Lib.ReduceAll
import Idealize.ShloMosaic.Lib.ValueIdx

noncomputable section

namespace Cert.Finite

open Idealize.ShloMosaic Idealize.ShloMosaic.ValueIdx Cert.Pre_finite_inputs

instance : Subsingleton S_.Idx := ⟨fun a b => funext fun d => d.elim0⟩

theorem real_of_abs_lt (x : EReal)
    (h : Ideal.cmp .olt (max x (-x)) (Ideal.ofBits .f32 0x7F800000#32) = 1#1) :
    x = ((x.toReal : ℝ) : EReal) := by
  have htop : Ideal.ofBits .f32 0x7F800000#32 = ⊤ := by simp [Ideal.ofBits, Ideal.ieee]
  rw [htop] at h
  induction x using EReal.rec with
  | bot => simp [Ideal.cmp] at h
  | coe r => simp
  | top => simp [Ideal.cmp] at h

theorem entries_real {s : Shape} {axes : List (Fin s.rank)} (hb : S_.BroadcastsInDim s (![] : Fin 0 → Fin s.rank))
    (hr : s.ReducesTo axes S_) (h0 : 0 < S_.numel) (v : FVec Ideal s .f32)
    (e : Host.reduce IntOp.andi (cmpf .olt (Host.absf v) (broadcastInDim s ![] hb (constant S_ .f32 0x7F800000#32)))
      (constantI S_ 1 1#1) hr h0 ix0 = 1#1) (i : s.Idx) : v i = (((v i).toReal : ℝ) : EReal) :=
  real_of_abs_lt (v i) (Host.reduce_andi_all _ _ hr h0 ix0 e i)

theorem eq_lift2 {a b : Nat} (v : FVec Ideal ⟨2, ![a, b]⟩ .f32) (hv : ∀ i, v i = (((v i).toReal : ℝ) : EReal)) :
    ∃ x : Fin a → Fin b → ℝ, v = Cert.Spec.lift2 x :=
  ⟨fun p q => (v (ix2 p q)).toReal, funext fun i => by
    show v i = (((v (ix2 (i 0) (i 1))).toReal : ℝ) : EReal)
    exact (hv i).trans (congrArg (fun z : EReal => ((z.toReal : ℝ) : EReal)) (congrArg v (eq_ix2 i)))⟩

theorem eq_lift1 {a : Nat} (v : FVec Ideal ⟨1, ![a]⟩ .f32) (hv : ∀ i, v i = (((v i).toReal : ℝ) : EReal)) :
    ∃ x : Fin a → ℝ, v = Cert.Spec.lift1 x :=
  ⟨fun p => (v (ix1 p)).toReal, funext fun i => by
    show v i = (((v (ix1 (i 0))).toReal : ℝ) : EReal)
    exact (hv i).trans (congrArg (fun z : EReal => ((z.toReal : ℝ) : EReal)) (congrArg v (eq_ix1 i)))⟩

theorem reals_of_pre (a0 : FVec Ideal S4096x256 .f32) (a1 : FVec Ideal S4096x4096 .f32) (a2 : FVec Ideal S256x256 .f32)
    (a3 a4 a5 : FVec Ideal S256 .f32) (a6 : FVec Ideal S256x256 .f32) (a7 a8 a9 : FVec Ideal S256 .f32)
    (a10 : FVec Ideal S256x256 .f32) (a11 a12 a13 : FVec Ideal S256 .f32)
    (h : Cert.Pre_finite_inputs.fn (F := Ideal) a0 a1 a2 a3 a4 a5 a6 a7 a8 a9 a10 a11 a12 a13 = fun _ => 1#1) :
    (∃ x : Fin 4096 → Fin 256 → ℝ, a0 = Cert.Spec.lift2 x) ∧ (∃ adj : Fin 4096 → Fin 4096 → ℝ, a1 = Cert.Spec.lift2 adj)
    ∧ (∃ W1 : Fin 256 → Fin 256 → ℝ, a2 = Cert.Spec.lift2 W1) ∧ (∃ b1 : Fin 256 → ℝ, a3 = Cert.Spec.lift1 b1)
    ∧ (∃ g1 : Fin 256 → ℝ, a4 = Cert.Spec.lift1 g1) ∧ (∃ bt1 : Fin 256 → ℝ, a5 = Cert.Spec.lift1 bt1)
    ∧ (∃ W2 : Fin 256 → Fin 256 → ℝ, a6 = Cert.Spec.lift2 W2) ∧ (∃ b2 : Fin 256 → ℝ, a7 = Cert.Spec.lift1 b2)
    ∧ (∃ g2 : Fin 256 → ℝ, a8 = Cert.Spec.lift1 g2) ∧ (∃ bt2 : Fin 256 → ℝ, a9 = Cert.Spec.lift1 bt2)
    ∧ (∃ W3 : Fin 256 → Fin 256 → ℝ, a10 = Cert.Spec.lift2 W3) ∧ (∃ b3 : Fin 256 → ℝ, a11 = Cert.Spec.lift1 b3)
    ∧ (∃ g3 : Fin 256 → ℝ, a12 = Cert.Spec.lift1 g3) ∧ (∃ bt3 : Fin 256 → ℝ, a13 = Cert.Spec.lift1 bt3) := by

  have h0 := congrFun h ix0
  dsimp only [fn, fn_part1, fn_part2, fn_part3, fn_part4, andi] at h0

  simp only [IntOp.andi_eq_one] at h0
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := h0
  exact ⟨eq_lift2 a0 (entries_real _ _ _ a0 e0), eq_lift2 a1 (entries_real _ _ _ a1 e1),
    eq_lift2 a2 (entries_real _ _ _ a2 e2), eq_lift1 a3 (entries_real _ _ _ a3 e3),
    eq_lift1 a4 (entries_real _ _ _ a4 e4), eq_lift1 a5 (entries_real _ _ _ a5 e5),
    eq_lift2 a6 (entries_real _ _ _ a6 e6), eq_lift1 a7 (entries_real _ _ _ a7 e7),
    eq_lift1 a8 (entries_real _ _ _ a8 e8), eq_lift1 a9 (entries_real _ _ _ a9 e9),
    eq_lift2 a10 (entries_real _ _ _ a10 e10), eq_lift1 a11 (entries_real _ _ _ a11 e11),
    eq_lift1 a12 (entries_real _ _ _ a12 e12), eq_lift1 a13 (entries_real _ _ _ a13 e13)⟩

end Cert.Finite

end
-- ==== Proof.lean ====
/-
  Three rounds of "aggregate over the graph, add the bias, clip at zero, normalise each column", computed by four kernel
  regions on one side and by whole-array operations on the other. At finite inputs every entry is a real number, the
  kernel's split products collapse, and the variance from the sums of squares is the variance from the centred squares.
-/
import proofs.«163270_g1194000908387_cont_fleet_524_12_alg».proof.Defs
import proofs.«163270_g1194000908387_cont_fleet_524_12_alg».proof.Proof.Gen.Kernel
import proofs.«163270_g1194000908387_cont_fleet_524_12_alg».proof.Proof.Gen.KernelIdeal
import proofs.«163270_g1194000908387_cont_fleet_524_12_alg».proof.Proof.Gen.ReferenceIdeal
import proofs.«163270_g1194000908387_cont_fleet_524_12_alg».proof.Proof.Gen.Pre_finite_inputs
import proofs.«163270_g1194000908387_cont_fleet_524_12_alg».proof.Proof.K.Run
import proofs.«163270_g1194000908387_cont_fleet_524_12_alg».proof.Proof.KI.Run
import proofs.«163270_g1194000908387_cont_fleet_524_12_alg».proof.Proof.KI.Value
import proofs.«163270_g1194000908387_cont_fleet_524_12_alg».proof.Proof.Ref.Run
import proofs.«163270_g1194000908387_cont_fleet_524_12_alg».proof.Proof.Ref.Read
import proofs.«163270_g1194000908387_cont_fleet_524_12_alg».proof.Proof.Finite
import proofs.«163270_g1194000908387_cont_fleet_524_12_alg».proof.Proof.SpecAlgebra
import proofs.«163270_g1194000908387_cont_fleet_524_12_alg».proof.Proof.Consts

noncomputable section

namespace Cert.Proof

open Idealize.ShloMosaic Idealize.ShloMosaic.TcCoe Idealize.SL.Sem
open Cert.Spec

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ => Cert.ReferenceIdeal.Hand.frame (F := Ideal) m ρ

theorem preserves : Cert.preserves_Kernel_KernelIdeal :=
  ⟨IdealRules.truncf_extf.statement Cert.KernelIdeal.S4096x256 .f32 .bf16,
   IdealRules.truncf_extf.statement Cert.KernelIdeal.S256x256 .f32 .bf16,
   IdealRules.truncf_extf.statement Cert.KernelIdeal.S4096x256 .f32 .bf16,
   IdealRules.truncf_extf.statement Cert.KernelIdeal.S4096x256 .f32 .bf16,
   IdealRules.truncf_extf.statement Cert.KernelIdeal.S256x256 .f32 .bf16,
   IdealRules.truncf_extf.statement Cert.KernelIdeal.S4096x256 .f32 .bf16,
   IdealRules.truncf_extf.statement Cert.KernelIdeal.S4096x256 .f32 .bf16,
   IdealRules.truncf_extf.statement Cert.KernelIdeal.S256x256 .f32 .bf16,
   IdealRules.truncf_extf.statement Cert.KernelIdeal.S4096x256 .f32 .bf16⟩

theorem algebraic : Cert.algebraic_KernelIdeal_ReferenceIdeal := by
  intro m ρ m' ρ' hpre hagree
  have hr := fun c => Cert.Finite.reals_of_pre _ _ _ _ _ _ _ _ _ _ _ _ _ _ (hpre c)
  choose x hx using fun c => (hr c).1
  choose adj hadj using fun c => (hr c).2.1
  choose W1 hW1 using fun c => (hr c).2.2.1
  choose b1 hb1 using fun c => (hr c).2.2.2.1
  choose g1 hg1 using fun c => (hr c).2.2.2.2.1
  choose bt1 hbt1 using fun c => (hr c).2.2.2.2.2.1
  choose W2 hW2 using fun c => (hr c).2.2.2.2.2.2.1
  choose b2 hb2 using fun c => (hr c).2.2.2.2.2.2.2.1
  choose g2 hg2 using fun c => (hr c).2.2.2.2.2.2.2.2.1
  choose bt2 hbt2 using fun c => (hr c).2.2.2.2.2.2.2.2.2.1
  choose W3 hW3 using fun c => (hr c).2.2.2.2.2.2.2.2.2.2.1
  choose b3 hb3 using fun c => (hr c).2.2.2.2.2.2.2.2.2.2.2.1
  choose g3 hg3 using fun c => (hr c).2.2.2.2.2.2.2.2.2.2.2.2.1
  choose bt3 hbt3 using fun c => (hr c).2.2.2.2.2.2.2.2.2.2.2.2.2
  refine ⟨fun c => lift2 (kernelOut Cert.Consts.eps (x c) (adj c) (W1 c) (b1 c) (g1 c) (bt1 c) (W2 c) (b2 c) (g2 c) (bt2 c) (W3 c) (b3 c) (g3 c) (bt3 c)), ?_, ?_⟩
  · refine (θ_run Cert.KernelIdeal.defs _ _).mono (fun r h c => ⟨(h c).1.trans ?_, (h c).2⟩)
      (Cert.KernelIdeal.Hand.run_args (F := Ideal) m ρ)
    exact Cert.KernelIdeal.Hand.kernel_value m ρ c (x c) (adj c) (W1 c) (b1 c) (g1 c) (bt1 c) (W2 c) (b2 c) (g2 c) (bt2 c) (W3 c) (b3 c) (g3 c) (bt3 c) (hx c) (hadj c) (hW1 c) (hb1 c) (hg1 c) (hbt1 c) (hW2 c) (hb2 c) (hg2 c) (hbt2 c) (hW3 c) (hb3 c) (hg3 c) (hbt3 c)
  · refine (θ_run Cert.ReferenceIdeal.defs _ _).mono (fun r h c => ⟨(h c).1.trans ?_, (h c).2⟩)
      (Cert.ReferenceIdeal.Hand.run (F := Ideal) m' ρ')
    obtain ⟨e0, e1, e2, e3, e4, e5, e6, e7, e8, e9, e10, e11, e12, e13⟩ := hagree c
    rw [e0, e1, e2, e3, e4, e5, e6, e7, e8, e9, e10, e11, e12, e13, hx c, hadj c, hW1 c, hb1 c, hg1 c, hbt1 c, hW2 c, hb2 c, hg2 c, hbt2 c, hW3 c, hb3 c, hg3 c, hbt3 c]
    rw [Cert.ReferenceIdeal.Hand.refTerm_lift]
    exact congrArg lift2 (kernelOut_eq_refOut Cert.Consts.eps Cert.Consts.eps_pos _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
